-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S40x64 : Shape := ⟨2, ![40, 64]⟩
abbrev S40 : Shape := ⟨1, ![40]⟩
abbrev S_ : Shape := ⟨0, ![]⟩
abbrev S1x1600000 : Shape := ⟨2, ![1, 1600000]⟩
abbrev S1600000 : Shape := ⟨1, ![1600000]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S40x64 : S_.BroadcastsInDim S40x64 (![] : Fin 0 → Fin S40x64.rank)
  reducesTo_S40x64_S_d0_1 : S40x64.ReducesTo [0, 1] S_
  bcast_S_S40 : S_.BroadcastsInDim S40 (![] : Fin 0 → Fin S40.rank)
  reducesTo_S40_S_d0 : S40.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_arg1 : IVec S2x1600000 32) (main_v33 : IVec S_ 1) : IVec S_ 1 :=
  let main_v34 : IVec S1x1600000 32 := (extractStridedSlice S1x1600000 ![0, 0] · slices_S2x1600000_S1x1600000_0_0) main_arg1
  let main_v35 : IVec S1600000 32 := shapeCast S1600000 main_v34 shapeCasts_S1x1600000_S1600000
  let main_c_12 : IVec S_ 32 := constantI S_ 32 0#32
  let main_v36 : IVec S1600000 32 := broadcastInDim S1600000 ![] bcast_S_S1600000 main_c_12
  let main_v37 : IVec S1600000 1 := cmpi .sge main_v35 main_v36
  let main_c_13 : IVec S_ 1 := constantI S_ 1 1#1
  let main_v38 : IVec S_ 1 := (fun x v => Host.reduce IntOp.andi x v reducesTo_S1600000_S_d0 h_S_) main_v37 main_c_13
  let main_v39 : IVec S_ 1 := andi main_v33 main_v38
  let main_v40 : IVec S1x1600000 32 := (extractStridedSlice S1x1600000 ![0, 0] · slices_S2x1600000_S1x1600000_0_0) main_arg1
  let main_v41 : IVec S1600000 32 := shapeCast S1600000 main_v40 shapeCasts_S1x1600000_S1600000
  let main_c_14 : IVec S_ 32 := constantI S_ 32 100000#32
  let main_v42 : IVec S1600000 32 := broadcastInDim S1600000 ![] bcast_S_S1600000 main_c_14
  let main_v43 : IVec S1600000 1 := cmpi .slt main_v41 main_v42
  let main_c_15 : IVec S_ 1 := constantI S_ 1 1#1
  let main_v44 : IVec S_ 1 := (fun x v => Host.reduce IntOp.andi x v reducesTo_S1600000_S_d0 h_S_) main_v43 main_c_15
  let main_v45 : IVec S_ 1 := andi main_v39 main_v44
  main_v45

def fn_part1 {F : FTy → Type} [FloatOps F] (main_arg1 : IVec S2x1600000 32) (main_arg5 : FVec F S40x64 .f32) (main_arg6 : FVec F S40 .f32) (main_arg7 : FVec F S40x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S40x64 .f32 := Host.absf main_arg5
  let main_cst_6 : FVec F S_ .f32 := constant S_ .f32 0x7F800000#32
  let main_v20 : FVec F S40x64 .f32 := broadcastInDim S40x64 ![] bcast_S_S40x64 main_cst_6
  let main_v21 : IVec S40x64 1 := cmpf .olt main_v19 main_v20
  let main_c_7 : IVec S_ 1 := constantI S_ 1 1#1
  let main_v22 : IVec S_ 1 := (fun x v => Host.reduce IntOp.andi x v reducesTo_S40x64_S_d0_1 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  let main_v29 : FVec F S40x64 .f32 := Host.absf main_arg7
  let main_cst_10 : FVec F S_ .f32 := constant S_ .f32 0x7F800000#32
  let main_v30 : FVec F S40x64 .f32 := broadcastInDim S40x64 ![] bcast_S_S40x64 main_cst_10
  let main_v31 : IVec S40x64 1 := cmpf .olt main_v29 main_v30
  let main_c_11 : IVec S_ 1 := constantI S_ 1 1#1
  let main_v32 : IVec S_ 1 := (fun x v => Host.reduce IntOp.andi x v reducesTo_S40x64_S_d0_1 h_S_) main_v31 main_c_11
  let main_v33 : IVec S_ 1 := andi main_v28 main_v32
  fn_part2 (F := F) main_arg1 main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S40x64 .f32) (main_arg6 : FVec F S40 .f32) (main_arg7 : FVec F S40x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg5 main_arg6 main_arg7 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S40x64 : Shape := ⟨2, ![40, 64]⟩
abbrev S40 : Shape := ⟨1, ![40]⟩
abbrev S_ : Shape := ⟨0, ![]⟩
abbrev S100352x64 : Shape := ⟨2, ![100352, 64]⟩
abbrev S1x1600000 : Shape := ⟨2, ![1, 1600000]⟩
abbrev S1600000 : Shape := ⟨1, ![1600000]⟩
abbrev S1601536 : Shape := ⟨1, ![1601536]⟩
abbrev S1601536x1 : Shape := ⟨2, ![1601536, 1]⟩
abbrev S1x1601536 : Shape := ⟨2, ![1, 1601536]⟩
abbrev S1601536x64 : Shape := ⟨2, ![1601536, 64]⟩
abbrev S2048x1 : Shape := ⟨2, ![2048, 1]⟩
abbrev S2048x64 : Shape := ⟨2, ![2048, 64]⟩
abbrev S2048x2048 : Shape := ⟨2, ![2048, 2048]⟩
abbrev S100352x1 : Shape := ⟨2, ![100352, 1]⟩
abbrev S1x2048 : Shape := ⟨2, ![1, 2048]⟩
abbrev S2048 : Shape := ⟨1, ![2048]⟩
abbrev S1x64 : Shape := ⟨2, ![1, 64]⟩
abbrev S64x40 : Shape := ⟨2, ![64, 40]⟩
abbrev S1x40 : Shape := ⟨2, ![1, 40]⟩
abbrev S100352x40 : Shape := ⟨2, ![100352, 40]⟩
abbrev S2048x40 : Shape := ⟨2, ![2048, 40]⟩
abbrev S100000x40 : Shape := ⟨2, ![100000, 40]⟩

abbrev nBuf : Space → Nat
  | .hbm => 40
  | .vmem => 56
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S40x64, .f32⟩
  | .hbm, ⟨6, _⟩ => ⟨S40, .f32⟩
  | .hbm, ⟨7, _⟩ => ⟨S40x64, .f32⟩
  | .hbm, ⟨8, _⟩ => ⟨S_, .i32⟩
  | .hbm, ⟨9, _⟩ => ⟨S_, .f32⟩
  | .hbm, ⟨10, _⟩ => ⟨S100352x64, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S_, .i32⟩
  | .hbm, ⟨17, _⟩ => ⟨S1601536, .i32⟩
  | .hbm, ⟨18, _⟩ => ⟨S1601536x1, .i32⟩
  | .hbm, ⟨19, _⟩ => ⟨S_, .i32⟩
  | .hbm, ⟨20, _⟩ => ⟨S_, .i32⟩
  | .hbm, ⟨21, _⟩ => ⟨S1601536, .i32⟩
  | .hbm, ⟨22, _⟩ => ⟨S1x1601536, .i32⟩
  | .hbm, ⟨23, _⟩ => ⟨S100352x64, .bf16⟩
  | .hbm, ⟨24, _⟩ => ⟨S1601536x64, .bf16⟩
  | .hbm, ⟨25, _⟩ => ⟨S100352x64, .f32⟩
  | .hbm, ⟨26, _⟩ => ⟨S100352x1, .f32⟩
  | .hbm, ⟨27, _⟩ => ⟨S64x64, .f32⟩
  | .hbm, ⟨28, _⟩ => ⟨S64x64, .f32⟩
  | .hbm, ⟨29, _⟩ => ⟨S1x64, .f32⟩
  | .hbm, ⟨30, _⟩ => ⟨S100352x64, .f32⟩
  | .hbm, ⟨31, _⟩ => ⟨S100352x64, .bf16⟩
  | .hbm, ⟨32, _⟩ => ⟨S1601536x64, .bf16⟩
  | .hbm, ⟨33, _⟩ => ⟨S100352x64, .f32⟩
  | .hbm, ⟨34, _⟩ => ⟨S100352x1, .f32⟩
  | .hbm, ⟨35, _⟩ => ⟨S64x40, .f32⟩
  | .hbm, ⟨36, _⟩ => ⟨S64x40, .f32⟩
  | .hbm, ⟨37, _⟩ => ⟨S1x40, .f32⟩
  | .hbm, ⟨38, _⟩ => ⟨S100352x40, .f32⟩
  | .hbm, ⟨39, _⟩ => ⟨S100000x40, .f32⟩
  | .local _ .vmem, ⟨0, _⟩ => ⟨S2048x1, .i32⟩
  | .local _ .vmem, ⟨1, _⟩ => ⟨S2048x1, .i32⟩
  | .local _ .vmem, ⟨2, _⟩ => ⟨S2048x64, .bf16⟩
  | .local _ .vmem, ⟨3, _⟩ => ⟨S2048x64, .bf16⟩
  | .local _ .vmem, ⟨4, _⟩ => ⟨S2048x64, .bf16⟩
  | .local _ .vmem, ⟨5, _⟩ => ⟨S2048x64, .bf16⟩
  | .local _ .vmem, ⟨6, _⟩ => ⟨S2048x64, .f32⟩
  | .local _ .vmem, ⟨7, _⟩ => ⟨S1x2048, .i32⟩
  | .local _ .vmem, ⟨8, _⟩ => ⟨S1x2048, .i32⟩
  | .local _ .vmem, ⟨9, _⟩ => ⟨S2048x64, .bf16⟩
  | .local _ .vmem, ⟨10, _⟩ => ⟨S2048x64, .bf16⟩
  | .local _ .vmem, ⟨11, _⟩ => ⟨S2048x64, .f32⟩
  | .local _ .vmem, ⟨12, _⟩ => ⟨S2048x64, .f32⟩
  | .local _ .vmem, ⟨13, _⟩ => ⟨S2048x1, .f32⟩
  | .local _ .vmem, ⟨14, _⟩ => ⟨S2048x1, .f32⟩
  | .local _ .vmem, ⟨15, _⟩ => ⟨S2048x64, .f32⟩
  | .local _ .vmem, ⟨16, _⟩ => ⟨S2048x1, .f32⟩
  | .local _ .vmem, ⟨17, _⟩ => ⟨S2048x64, .f32⟩
  | .local _ .vmem, ⟨18, _⟩ => ⟨S2048x64, .f32⟩
  | .local _ .vmem, ⟨19, _⟩ => ⟨S2048x64, .f32⟩
  | .local _ .vmem, ⟨20, _⟩ => ⟨S2048x64, .f32⟩
  | .local _ .vmem, ⟨21, _⟩ => ⟨S2048x1, .f32⟩
  | .local _ .vmem, ⟨22, _⟩ => ⟨S2048x1, .f32⟩
  | .local _ .vmem, ⟨23, _⟩ => ⟨S64x64, .f32⟩
  | .local _ .vmem, ⟨24, _⟩ => ⟨S1x64, .f32⟩
  | .local _ .vmem, ⟨25, _⟩ => ⟨S64x64, .f32⟩
  | .local _ .vmem, ⟨26, _⟩ => ⟨S2048x64, .f32⟩
  | .local _ .vmem, ⟨27, _⟩ => ⟨S2048x64, .f32⟩
  | .local _ .vmem, ⟨28, _⟩ => ⟨S2048x1, .i32⟩
  | .local _ .vmem, ⟨29, _⟩ => ⟨S2048x1, .i32⟩
  | .local _ .vmem, ⟨30, _⟩ => ⟨S2048x64, .bf16⟩
  | .local _ .vmem, ⟨31, _⟩ => ⟨S2048x64, .bf16⟩
  | .local _ .vmem, ⟨32, _⟩ => ⟨S2048x64, .bf16⟩
  | .local _ .vmem, ⟨33, _⟩ => ⟨S2048x64, .bf16⟩
  | .local _ .vmem, ⟨34, _⟩ => ⟨S2048x64, .f32⟩
  | .local _ .vmem, ⟨35, _⟩ => ⟨S1x2048, .i32⟩
  | .local _ .vmem, ⟨36, _⟩ => ⟨S1x2048, .i32⟩
  | .local _ .vmem, ⟨37, _⟩ => ⟨S2048x64, .bf16⟩
  | .local _ .vmem, ⟨38, _⟩ => ⟨S2048x64, .bf16⟩
  | .local _ .vmem, ⟨39, _⟩ => ⟨S2048x64, .f32⟩
  | .local _ .vmem, ⟨40, _⟩ => ⟨S2048x64, .f32⟩
  | .local _ .vmem, ⟨41, _⟩ => ⟨S2048x1, .f32⟩
  | .local _ .vmem, ⟨42, _⟩ => ⟨S2048x1, .f32⟩
  | .local _ .vmem, ⟨43, _⟩ => ⟨S2048x64, .f32⟩
  | .local _ .vmem, ⟨44, _⟩ => ⟨S2048x1, .f32⟩
  | .local _ .vmem, ⟨45, _⟩ => ⟨S2048x64, .f32⟩
  | .local _ .vmem, ⟨46, _⟩ => ⟨S2048x64, .f32⟩
  | .local _ .vmem, ⟨47, _⟩ => ⟨S2048x64, .f32⟩
  | .local _ .vmem, ⟨48, _⟩ => ⟨S2048x64, .f32⟩
  | .local _ .vmem, ⟨49, _⟩ => ⟨S2048x1, .f32⟩
  | .local _ .vmem, ⟨50, _⟩ => ⟨S2048x1, .f32⟩
  | .local _ .vmem, ⟨51, _⟩ => ⟨S64x40, .f32⟩
  | .local _ .vmem, ⟨52, _⟩ => ⟨S1x40, .f32⟩
  | .local _ .vmem, ⟨53, _⟩ => ⟨S64x40, .f32⟩
  | .local _ .vmem, ⟨54, _⟩ => ⟨S2048x40, .f32⟩
  | .local _ .vmem, ⟨55, _⟩ => ⟨S2048x40, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_call1_v0 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_call2_v0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11_0 : Ref sig .tc := ⟨.hbm, 25, rfl⟩
abbrev main_v11_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18_0 : Ref sig .tc := ⟨.hbm, 33, rfl⟩
abbrev main_v18_1 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc1_scratch1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc3_scratch0 : Ref sig .tc := ⟨.vmem, 34, rfl⟩
abbrev cc4_stg0_0 : Ref sig .tc := ⟨.vmem, 35, rfl⟩
abbrev cc4_stg0_1 : Ref sig .tc := ⟨.vmem, 36, rfl⟩
abbrev cc4_stg1_0 : Ref sig .tc := ⟨.vmem, 37, rfl⟩
abbrev cc4_stg1_1 : Ref sig .tc := ⟨.vmem, 38, rfl⟩
abbrev cc4_stg2_0 : Ref sig .tc := ⟨.vmem, 39, rfl⟩
abbrev cc4_stg2_1 : Ref sig .tc := ⟨.vmem, 40, rfl⟩
abbrev cc4_stg3_0 : Ref sig .tc := ⟨.vmem, 41, rfl⟩
abbrev cc4_stg3_1 : Ref sig .tc := ⟨.vmem, 42, rfl⟩
abbrev cc4_scratch0 : Ref sig .tc := ⟨.vmem, 43, rfl⟩
abbrev cc4_scratch1 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg1_1 : Ref sig .tc := ⟨.vmem, 48, rfl⟩
abbrev cc5_stg2_0 : Ref sig .tc := ⟨.vmem, 49, rfl⟩
abbrev cc5_stg2_1 : Ref sig .tc := ⟨.vmem, 50, rfl⟩
abbrev cc5_stg3_0 : Ref sig .tc := ⟨.vmem, 51, rfl⟩
abbrev cc5_stg4_0 : Ref sig .tc := ⟨.vmem, 52, rfl⟩
abbrev cc5_stg5_0 : Ref sig .tc := ⟨.vmem, 53, rfl⟩
abbrev cc5_stg6_0 : Ref sig .tc := ⟨.vmem, 54, rfl⟩
abbrev cc5_stg6_1 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem6_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem2_1 : DmaSem sig := 30
abbrev cc4_sem0_0 : DmaSem sig := 31
abbrev cc4_sem0_1 : DmaSem sig := 32
abbrev cc4_sem1_0 : DmaSem sig := 33
abbrev cc4_sem1_1 : DmaSem sig := 34
abbrev cc4_sem2_0 : DmaSem sig := 35
abbrev cc4_sem2_1 : DmaSem sig := 36
abbrev cc4_sem3_0 : DmaSem sig := 37
abbrev cc4_sem3_1 : DmaSem sig := 38
abbrev cc5_sem0_0 : DmaSem sig := 39
abbrev cc5_sem0_1 : DmaSem sig := 40
abbrev cc5_sem1_0 : DmaSem sig := 41
abbrev cc5_sem1_1 : DmaSem sig := 42
abbrev cc5_sem2_0 : DmaSem sig := 43
abbrev cc5_sem2_1 : DmaSem sig := 44
abbrev cc5_sem3_0 : DmaSem sig := 45
abbrev cc5_sem4_0 : DmaSem sig := 46
abbrev cc5_sem5_0 : DmaSem sig := 47
abbrev cc5_sem6_0 : DmaSem sig := 48
abbrev cc5_sem6_1 : DmaSem sig := 49

abbrev nD : Nat := 1
abbrev τ : Topo := Topo.v7x

variable {F : FTy → Type} [FloatOps F]

abbrev grid0 : Pipeline.Grid := ⟨2, ![782, 49], ![false, false]⟩

def k0_cond2 (i : grid0.Coords) : BitVec 1 :=
  let arg1 : BitVec 32 := BitVec.ofNat 32 (i 1).val
  let c48_i32 : BitVec 32 := 48#32
  let v22 : BitVec 1 := Scalar.cmpi .eq arg1 c48_i32
  let v23 : BitVec 32 := Scalar.extui v22
  let c0_i32_8 : BitVec 32 := 0#32
  let v24 : BitVec 1 := Scalar.cmpi .ne v23 c0_i32_8
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![49, 782], ![false, false]⟩

def k1_cond2 (i : grid1.Coords) : BitVec 1 :=
  let arg1 : BitVec 32 := BitVec.ofNat 32 (i 1).val
  let c781_i32 : BitVec 32 := 781#32
  let v29 : BitVec 1 := Scalar.cmpi .eq arg1 c781_i32
  let v30 : BitVec 32 := Scalar.extui v29
  let c0_i32_13 : BitVec 32 := 0#32
  let v31 : BitVec 1 := Scalar.cmpi .ne v30 c0_i32_13
  v31

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1x2048 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2048x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨1, ![49], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2048x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2048x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨2, ![782, 49], ![false, false]⟩

def k3_cond2 (i : grid3.Coords) : BitVec 1 :=
  let arg1 : BitVec 32 := BitVec.ofNat 32 (i 1).val
  let c48_i32 : BitVec 32 := 48#32
  let v22 : BitVec 1 := Scalar.cmpi .eq arg1 c48_i32
  let v23 : BitVec 32 := Scalar.extui v22
  let c0_i32_8 : BitVec 32 := 0#32
  let v24 : BitVec 1 := Scalar.cmpi .ne v23 c0_i32_8
  v24

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S2048x1 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S2048x64 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S2048x64 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev grid4 : Pipeline.Grid := ⟨2, ![49, 782], ![false, false]⟩

def k4_cond2 (i : grid4.Coords) : BitVec 1 :=
  let arg1 : BitVec 32 := BitVec.ofNat 32 (i 1).val
  let c781_i32 : BitVec 32 := 781#32
  let v29 : BitVec 1 := Scalar.cmpi .eq arg1 c781_i32
  let v30 : BitVec 32 := Scalar.extui v29
  let c0_i32_13 : BitVec 32 := 0#32
  let v31 : BitVec 1 := Scalar.cmpi .ne v30 c0_i32_13
  v31

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S1x2048 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S2048x64 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S2048x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S2048x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev grid5 : Pipeline.Grid := ⟨1, ![49], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2048x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2048x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2048x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S64x40 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x40 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S64x40 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S2048x40 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

class Facts₀ : Prop where
  pads_S100000x64_S100352x64_03520_000 : S100000x64.Pads (![0, 0] : Fin 2 → Nat) ![352, 0] ![0, 0] S100352x64
  h_S_ : 0 < S_.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  pads_S1600000_S1601536_015360 : S1600000.Pads (![0] : Fin 1 → Nat) ![1536] ![0] S1601536
  shapeCasts_S1601536_S1601536x1 : S1601536.ShapeCasts S1601536x1
  shapeCasts_S1601536_S1x1601536 : S1601536.ShapeCasts S1x1601536
  bitsLt_bf16_f32 : FTy.bits .bf16 < FTy.bits .f32
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  iota_S2048x2048_d1_w32 : S2048x2048.Iotas .tc 32 [1]
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x2048 : S2048x1.Broadcasts S2048x2048
  natLt_1_32 : 1 < 32
  packedbf16_S2048x64_S2048x64_0_0 : (Rect.unit (s := S2048x64) ![0, 0] S2048x64.size inb_S2048x64_S2048x64_0_0).PackedRows (EltTy.packing .bf16)
  iota_S2048x2048_d0_w32 : S2048x2048.Iotas .tc 32 [0]
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S2048x2048 : S1x2048.Broadcasts S2048x2048
  reduces_S2048x2048_S2048 : S2048x2048.Reduces [1] S2048
  shapeCasts_S2048_S2048x1 : S2048.ShapeCasts S2048x1
  transposes_S64x64_S64x64_1_0 : S64x64.Transposes [1, 0] S64x64
  shapeCasts_S64_S1x64 : S64.ShapeCasts S1x64
  broadcasts_S2048x1_S2048x64 : S2048x1.Broadcasts S2048x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  transposes_S40x64_S64x40_1_0 : S40x64.Transposes [1, 0] S64x40
  shapeCasts_S40_S1x40 : S40.ShapeCasts S1x40
  inb_S64x40_S64x40_0_0 : ∀ a, (![0, 0] : Fin 2 → Nat) a + S64x40.size a ≤ S64x40.size a
  h_S64x40 : 0 < S64x40.numel
  shapeCasts_S64x40_S64x40 : S64x40.ShapeCasts S64x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2048x40 : S1x40.Broadcasts S2048x40
  reduces_S2048x40_S2048 : S2048x40.Reduces [1] S2048
  broadcasts_S2048x1_S2048x40 : S2048x1.Broadcasts S2048x40
  inb_S2048x40_S2048x40_0_0 : ∀ a, (![0, 0] : Fin 2 → Nat) a + S2048x40.size a ≤ S2048x40.size a
  h_S2048x40 : 0 < S2048x40.numel
  slices_S100352x40_S100000x40_0_0 : S100352x40.Slices ![0, 0] S100000x40
  dot_S2048x2048_S2048x64_S2048x64_1_0_0_1_n_n_wf : DotDims.WF S2048x2048 S2048x64 S2048x64 [1] [0] [0] [1] [] []
  dot_S2048x64_S64x64_S2048x64_1_0_0_1_n_n_wf : DotDims.WF S2048x64 S64x64 S2048x64 [1] [0] [0] [1] [] []
  dot_S2048x64_S64x40_S2048x40_1_0_0_1_n_n_wf : DotDims.WF S2048x64 S64x40 S2048x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1.size a ≤ S1601536x1.size a
  hwx0_0 : ∀ i : grid0.Coords, EltTy.bits .i32 = 32 ∨ (Rect.block (s := S1601536x1) S2048x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S100352x64.size a
  hwx0_1 : ∀ i : grid0.Coords, EltTy.bits .bf16 = 32 ∨ (Rect.block (s := S100352x64) S2048x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S1601536x64.size a
  hwx0_2 : ∀ i : grid0.Coords, EltTy.bits .bf16 = 32 ∨ (Rect.block (s := S1601536x64) S2048x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048.size a ≤ S1x1601536.size a
  hwx1_0 : ∀ i : grid1.Coords, EltTy.bits .i32 = 32 ∨ (Rect.block (s := S1x1601536) S1x2048.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x64.size a ≤ S1601536x64.size a
  hwx1_1 : ∀ i : grid1.Coords, EltTy.bits .bf16 = 32 ∨ (Rect.block (s := S1601536x64) S2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x64.size a ≤ S100352x64.size a
  hwx1_2 : ∀ i : grid1.Coords, EltTy.bits .f32 = 32 ∨ (Rect.block (s := S100352x64) S2048x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x1.size a ≤ S100352x1.size a
  hwx1_3 : ∀ i : grid1.Coords, EltTy.bits .f32 = 32 ∨ (Rect.block (s := S100352x1) S2048x1.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x64.size a ≤ S100352x64.size a
  hwx2_0 : ∀ i : grid2.Coords, EltTy.bits .f32 = 32 ∨ (Rect.block (s := S100352x64) S2048x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x64.size a ≤ S100352x64.size a
  hwx2_1 : ∀ i : grid2.Coords, EltTy.bits .f32 = 32 ∨ (Rect.block (s := S100352x64) S2048x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x1.size a ≤ S100352x1.size a
  hwx2_2 : ∀ i : grid2.Coords, EltTy.bits .f32 = 32 ∨ (Rect.block (s := S100352x1) S2048x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2048x64.size a ≤ S100352x64.size a
  hwx2_6 : ∀ i : grid2.Coords, EltTy.bits .f32 = 32 ∨ (Rect.block (s := S100352x64) S2048x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x1.size a ≤ S1601536x1.size a
  hwx3_0 : ∀ i : grid3.Coords, EltTy.bits .i32 = 32 ∨ (Rect.block (s := S1601536x1) S2048x1.size (cc3_transform_0 i) (hinb3_0 i)).WholeWords (EltTy.packing .i32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x64.size a ≤ S100352x64.size a
  hwx3_1 : ∀ i : grid3.Coords, EltTy.bits .bf16 = 32 ∨ (Rect.block (s := S100352x64) S2048x64.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x64.size a ≤ S1601536x64.size a
  hwx3_2 : ∀ i : grid3.Coords, EltTy.bits .bf16 = 32 ∨ (Rect.block (s := S1601536x64) S2048x64.size (cc3_transform_2 i) (hinb3_2 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x2048.size a ≤ S1x1601536.size a
  hwx4_0 : ∀ i : grid4.Coords, EltTy.bits .i32 = 32 ∨ (Rect.block (s := S1x1601536) S1x2048.size (cc4_transform_0 i) (hinb4_0 i)).WholeWords (EltTy.packing .i32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048x64.size a ≤ S1601536x64.size a
  hwx4_1 : ∀ i : grid4.Coords, EltTy.bits .bf16 = 32 ∨ (Rect.block (s := S1601536x64) S2048x64.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2048x64.size a ≤ S100352x64.size a
  hwx4_2 : ∀ i : grid4.Coords, EltTy.bits .f32 = 32 ∨ (Rect.block (s := S100352x64) S2048x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2048x1.size a ≤ S100352x1.size a
  hwx4_3 : ∀ i : grid4.Coords, EltTy.bits .f32 = 32 ∨ (Rect.block (s := S100352x1) S2048x1.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2048x64.size a ≤ S100352x64.size a
  hwx5_0 : ∀ i : grid5.Coords, EltTy.bits .f32 = 32 ∨ (Rect.block (s := S100352x64) S2048x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2048x64.size a ≤ S100352x64.size a
  hwx5_1 : ∀ i : grid5.Coords, EltTy.bits .f32 = 32 ∨ (Rect.block (s := S100352x64) S2048x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2048x1.size a ≤ S100352x1.size a
  hwx5_2 : ∀ i : grid5.Coords, EltTy.bits .f32 = 32 ∨ (Rect.block (s := S100352x1) S2048x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x40.size a ≤ S64x40.size a
  hwx5_3 : ∀ i : grid5.Coords, EltTy.bits .f32 = 32 ∨ (Rect.block (s := S64x40) S64x40.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x40.size a ≤ S1x40.size a
  hwx5_4 : ∀ i : grid5.Coords, EltTy.bits .f32 = 32 ∨ (Rect.block (s := S1x40) S1x40.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S64x40.size a ≤ S64x40.size a
  hwx5_5 : ∀ i : grid5.Coords, EltTy.bits .f32 = 32 ∨ (Rect.block (s := S64x40) S64x40.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S2048x40.size a ≤ S100352x40.size a
  hwx5_6 : ∀ i : grid5.Coords, EltTy.bits .f32 = 32 ∨ (Rect.block (s := S100352x40) S2048x40.size (cc5_transform_6 i) (hinb5_6 i)).WholeWords (EltTy.packing .f32)

variable [Facts₀]

def dot_S2048x2048_S2048x64_S2048x64_1_0_0_1_n_n : DotDims S2048x2048 S2048x64 S2048x64 where
  lhsContracting := [1]
  rhsContracting := [0]
  lhsNonContracting := [0]
  rhsNonContracting := [1]
  lhsBatch := []
  rhsBatch := []
  wf := dot_S2048x2048_S2048x64_S2048x64_1_0_0_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S2048x64_S64x40_S2048x40_1_0_0_1_n_n : DotDims S2048x64 S64x40 S2048x40 where
  lhsContracting := [1]
  rhsContracting := [0]
  lhsNonContracting := [0]
  rhsNonContracting := [1]
  lhsBatch := []
  rhsBatch := []
  wf := dot_S2048x64_S64x40_S2048x40_1_0_0_1_n_n_wf

abbrev win0_0 : Pipeline.Window sig grid0 :=
  Pipeline.Window.ofSpec (Memref.whole main_v6) S2048x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S2048x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v8) S1x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11_0) S2048x64.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11_1) S2048x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun i => !(k1_cond2 i == 1#1) | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v0) S2048x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11_0) S2048x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11_1) S2048x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v12) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v14) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v13) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v15) S2048x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v6) S2048x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v16) S2048x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v17) S2048x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

abbrev win4_0 : Pipeline.Window sig grid4 :=
  Pipeline.Window.ofSpec (Memref.whole main_v8) S1x2048.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v17) S2048x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v18_0) S2048x64.size cc4_transform_2 reads4_2 true false 2 stage4_2 sem4_2
    hrank4 hreads4_2 hinb4_2 nbuf4_2 (Memref.isWhole_whole _) hwx4_2 hstage4_2

abbrev win4_3 : Pipeline.Window sig grid4 :=
  Pipeline.Window.ofSpec (Memref.whole main_v18_1) S2048x1.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun i => !(k4_cond2 i == 1#1) | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v15) S2048x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v18_0) S2048x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v18_1) S2048x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v19) S64x40.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v21) S1x40.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v20) S64x40.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v22) S2048x40.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S40x64 : Shape := ⟨2, ![40, 64]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S64x40 : Shape := ⟨2, ![64, 40]⟩
abbrev S100000x40 : Shape := ⟨2, ![100000, 40]⟩
abbrev S1x40 : Shape := ⟨2, ![1, 40]⟩

abbrev nBuf : Space → Nat
  | .hbm => 96
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S40x64, .f32⟩
  | .hbm, ⟨6, _⟩ => ⟨S40, .f32⟩
  | .hbm, ⟨7, _⟩ => ⟨S40x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S64x64, .f32⟩
  | .hbm, ⟨38, _⟩ => ⟨S100000x64, .f32⟩
  | .hbm, ⟨39, _⟩ => ⟨S1x64, .f32⟩
  | .hbm, ⟨40, _⟩ => ⟨S100000x64, .f32⟩
  | .hbm, ⟨41, _⟩ => ⟨S100000x64, .f32⟩
  | .hbm, ⟨42, _⟩ => ⟨S64x64, .f32⟩
  | .hbm, ⟨43, _⟩ => ⟨S100000x64, .f32⟩
  | .hbm, ⟨44, _⟩ => ⟨S100000x64, .f32⟩
  | .hbm, ⟨45, _⟩ => ⟨S_, .f32⟩
  | .hbm, ⟨46, _⟩ => ⟨S100000x64, .f32⟩
  | .hbm, ⟨47, _⟩ => ⟨S100000x64, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x64, .f32⟩
  | .hbm, ⟨57, _⟩ => ⟨S_, .f32⟩
  | .hbm, ⟨58, _⟩ => ⟨S100000x64, .f32⟩
  | .hbm, ⟨59, _⟩ => ⟨S1600000x1, .i32⟩
  | .hbm, ⟨60, _⟩ => ⟨S100000x64, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x64, .f32⟩
  | .hbm, ⟨72, _⟩ => ⟨S100000x64, .f32⟩
  | .hbm, ⟨73, _⟩ => ⟨S64x40, .f32⟩
  | .hbm, ⟨74, _⟩ => ⟨S100000x40, .f32⟩
  | .hbm, ⟨75, _⟩ => ⟨S1x40, .f32⟩
  | .hbm, ⟨76, _⟩ => ⟨S100000x40, .f32⟩
  | .hbm, ⟨77, _⟩ => ⟨S100000x40, .f32⟩
  | .hbm, ⟨78, _⟩ => ⟨S64x40, .f32⟩
  | .hbm, ⟨79, _⟩ => ⟨S100000x40, .f32⟩
  | .hbm, ⟨80, _⟩ => ⟨S100000x40, .f32⟩
  | .hbm, ⟨81, _⟩ => ⟨S_, .f32⟩
  | .hbm, ⟨82, _⟩ => ⟨S100000, .f32⟩
  | .hbm, ⟨83, _⟩ => ⟨S_, .f32⟩
  | .hbm, ⟨84, _⟩ => ⟨S100000, .f32⟩
  | .hbm, ⟨85, _⟩ => ⟨S100000, .f32⟩
  | .hbm, ⟨86, _⟩ => ⟨S100000x1, .f32⟩
  | .hbm, ⟨87, _⟩ => ⟨S100000x40, .f32⟩
  | .hbm, ⟨88, _⟩ => ⟨S100000x40, .f32⟩
  | .hbm, ⟨89, _⟩ => ⟨S100000x40, .f32⟩
  | .hbm, ⟨90, _⟩ => ⟨S_, .f32⟩
  | .hbm, ⟨91, _⟩ => ⟨S100000, .f32⟩
  | .hbm, ⟨92, _⟩ => ⟨S100000x1, .f32⟩
  | .hbm, ⟨93, _⟩ => ⟨S100000x1, .f32⟩
  | .hbm, ⟨94, _⟩ => ⟨S100000x40, .f32⟩
  | .hbm, ⟨95, _⟩ => ⟨S100000x40, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_call1_cst : Ref sig .tc := ⟨.hbm, 81, rfl⟩
abbrev main_call1_v0 : Ref sig .tc := ⟨.hbm, 82, rfl⟩
abbrev main_call1_cst_0 : Ref sig .tc := ⟨.hbm, 83, rfl⟩
abbrev main_call1_v1 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_call1_v5 : Ref sig .tc := ⟨.hbm, 88, rfl⟩
abbrev main_call1_v6 : Ref sig .tc := ⟨.hbm, 89, rfl⟩
abbrev main_call1_cst_1 : Ref sig .tc := ⟨.hbm, 90, rfl⟩
abbrev main_call1_v7 : Ref sig .tc := ⟨.hbm, 91, rfl⟩
abbrev main_call1_v8 : Ref sig .tc := ⟨.hbm, 92, rfl⟩
abbrev main_call1_v9 : Ref sig .tc := ⟨.hbm, 93, rfl⟩
abbrev main_call1_v10 : Ref sig .tc := ⟨.hbm, 94, rfl⟩
abbrev main_v59 : Ref sig .tc := ⟨.hbm, 95, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S40x64_S64x40_1_0 : S40x64.Transposes [1, 0] S64x40
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000x1_S100000x40_0_1 : S100000x1.BroadcastsInDim S100000x40 (![0, 1] : Fin 2 → Fin S100000x40.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  dot_S100000x64_S64x40_S100000x40_1_0_0_1_n_n_wf : DotDims.WF S100000x64 S64x40 S100000x40 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf

class Facts : Prop extends Facts₀ where

variable [Facts]
-- ==== Proof.K.SchedFacts.lean ====
import proofs.«428353_j4698694222361_2_alg».proof.Proof.Gen.Kernel
import Idealize.ShloMosaic.Lib.Pipeline.Kit

noncomputable section

namespace Cert.Kernel.Hand

open Cert.Kernel Cert.Kernel.Gen
open Idealize.ShloMosaic Idealize.ShloMosaic.TcCoe
open Idealize.SL Idealize.SL.Sem

variable {F : FTy → Type} [FloatOps F]

section Key

variable {G : Pipeline.Grid} {r : Nat} {ix : G.Coords → Fin r → Nat} {a : Fin G.rank}
  (hix : ∀ i i' : G.Coords, ix i = ix i' ↔ i a = i' a)
include hix

theorem fetchOf_iff (t : Fin G.N) : Pipeline.Window.fetchOf G false ix t = true ↔
    t.val = 0 ∨ 0 < t.val ∧ t.val / G.stride a % G.bound a ≠ (t.val - 1) / G.stride a % G.bound a := by
  simp only [Pipeline.Window.fetchOf, Pipeline.Grid.coords, Bool.not_false, Bool.true_and, Bool.or_eq_true, decide_eq_true_eq,
    exists_prop, ne_eq, hix, Fin.ext_iff]

theorem flushOf_iff (t : Fin G.N) : Pipeline.Window.flushOf G true ix t = true ↔
    t.val + 1 = G.N ∨ t.val + 1 < G.N ∧ (t.val + 1) / G.stride a % G.bound a ≠ t.val / G.stride a % G.bound a := by
  simp only [Pipeline.Window.flushOf, Pipeline.Grid.coords, Bool.true_and, Bool.or_eq_true, decide_eq_true_eq,
    exists_prop, ne_eq, hix, Fin.ext_iff]

end Key

theorem vec2_eq_iff {a b a' b' : Nat} : (![a, b] : Fin 2 → Nat) = ![a', b'] ↔ a = a' ∧ b = b' :=
  ⟨fun h => ⟨congrFun h 0, congrFun h 1⟩, by rintro ⟨rfl, rfl⟩; rfl⟩

section Reads

variable {G : Pipeline.Grid} (a : Fin G.rank) (hb : G.bound a ≤ 2 ^ 32) (i i' : G.Coords)
include hb

-- A coordinate below 2³² is read back from its 32-bit word, so an index made of that word and a constant reads the coordinate alone.
theorem reads_fst : (![(BitVec.ofNat 32 (i a).val).toNat, (0#32).toNat] : Fin 2 → Nat)
    = ![(BitVec.ofNat 32 (i' a).val).toNat, (0#32).toNat] ↔ i a = i' a := by
  have := (i a).isLt; have := (i' a).isLt
  simp only [vec2_eq_iff, BitVec.toNat_ofNat, and_true, Fin.ext_iff]; omega

theorem reads_snd : (![(0#32).toNat, (BitVec.ofNat 32 (i a).val).toNat] : Fin 2 → Nat)
    = ![(0#32).toNat, (BitVec.ofNat 32 (i' a).val).toNat] ↔ i a = i' a := by
  have := (i a).isLt; have := (i' a).isLt
  simp only [vec2_eq_iff, BitVec.toNat_ofNat, true_and, Fin.ext_iff]; omega

end Reads

theorem N0 : grid0.N = 38318 := by decide
theorem N1 : grid1.N = 38318 := by decide

section A

variable {r : Nat} (ix : grid0.Coords → Fin r → Nat)

-- On the grid of 782 × 49 points the outer coordinate is t / 49 and the inner one t mod 49.
theorem fetchA_outer (hix : ∀ i i', ix i = ix i' ↔ i 0 = i' 0) (t : Fin grid0.N) :
    Pipeline.Window.fetchOf grid0 false ix t = true ↔ t.val % 49 = 0 := by
  have := t.isLt; have := N0
  rw [fetchOf_iff hix, show grid0.stride 0 = 49 from by decide, show grid0.bound 0 = 782 from rfl]; omega

theorem flushA_outer (hix : ∀ i i', ix i = ix i' ↔ i 0 = i' 0) (t : Fin grid0.N) :
    Pipeline.Window.flushOf grid0 true ix t = true ↔ t.val % 49 = 48 := by
  have := t.isLt; have := N0
  rw [flushOf_iff hix, show grid0.stride 0 = 49 from by decide, show grid0.bound 0 = 782 from rfl]; omega

theorem fetchA_inner (hix : ∀ i i', ix i = ix i' ↔ i 1 = i' 1) (t : Fin grid0.N) :
    Pipeline.Window.fetchOf grid0 false ix t = true := by
  rw [fetchOf_iff hix, show grid0.stride 1 = 1 from by decide, show grid0.bound 1 = 49 from rfl]; omega

end A

section B

variable {r : Nat} (ix : grid1.Coords → Fin r → Nat)

-- On the grid of 49 × 782 points the outer coordinate is t / 782 and the inner one t mod 782.
theorem flushB_outer (hix : ∀ i i', ix i = ix i' ↔ i 0 = i' 0) (t : Fin grid1.N) :
    Pipeline.Window.flushOf grid1 true ix t = true ↔ t.val % 782 = 781 := by
  have := t.isLt; have := N1
  rw [flushOf_iff hix, show grid1.stride 0 = 782 from by decide, show grid1.bound 0 = 49 from rfl]; omega

theorem fetchB_inner (hix : ∀ i i', ix i = ix i' ↔ i 1 = i' 1) (t : Fin grid1.N) :
    Pipeline.Window.fetchOf grid1 false ix t = true := by
  rw [fetchOf_iff hix, show grid1.stride 1 = 1 from by decide, show grid1.bound 1 = 782 from rfl]; omega

end B

theorem fetch0_0_arith : ∀ t : Fin cfg0.N, (cfg0.win 0).fetch t = true ↔ t.val % 49 = 0 :=
  fetchA_outer cc0_transform_0 (reads_fst 0 (by decide))
theorem fetch0_1_arith : ∀ t : Fin cfg0.N, (cfg0.win 1).fetch t = true :=
  fetchA_inner cc0_transform_1 (reads_fst 1 (by decide))
theorem flush0_2_arith : ∀ t : Fin cfg0.N, (cfg0.win 2).flush t = true ↔ t.val % 49 = 48 :=
  flushA_outer cc0_transform_2 (reads_fst 0 (by decide))

theorem fetch1_0_arith : ∀ t : Fin cfg1.N, (cfg1.win 0).fetch t = true :=
  fetchB_inner cc1_transform_0 (reads_snd 1 (by decide))
theorem fetch1_1_arith : ∀ t : Fin cfg1.N, (cfg1.win 1).fetch t = true :=
  fetchB_inner cc1_transform_1 (reads_fst 1 (by decide))
theorem flush1_2_arith : ∀ t : Fin cfg1.N, (cfg1.win 2).flush t = true ↔ t.val % 782 = 781 :=
  flushB_outer cc1_transform_2 (reads_fst 0 (by decide))
theorem flush1_3_arith : ∀ t : Fin cfg1.N, (cfg1.win 3).flush t = true ↔ t.val % 782 = 781 :=
  flushB_outer cc1_transform_3 (reads_fst 0 (by decide))

theorem fetch3_0_arith : ∀ t : Fin cfg3.N, (cfg3.win 0).fetch t = true ↔ t.val % 49 = 0 :=
  fetchA_outer cc3_transform_0 (reads_fst 0 (by decide))
theorem fetch3_1_arith : ∀ t : Fin cfg3.N, (cfg3.win 1).fetch t = true :=
  fetchA_inner cc3_transform_1 (reads_fst 1 (by decide))
theorem flush3_2_arith : ∀ t : Fin cfg3.N, (cfg3.win 2).flush t = true ↔ t.val % 49 = 48 :=
  flushA_outer cc3_transform_2 (reads_fst 0 (by decide))

theorem fetch4_0_arith : ∀ t : Fin cfg4.N, (cfg4.win 0).fetch t = true :=
  fetchB_inner cc4_transform_0 (reads_snd 1 (by decide))
theorem fetch4_1_arith : ∀ t : Fin cfg4.N, (cfg4.win 1).fetch t = true :=
  fetchB_inner cc4_transform_1 (reads_fst 1 (by decide))
theorem flush4_2_arith : ∀ t : Fin cfg4.N, (cfg4.win 2).flush t = true ↔ t.val % 782 = 781 :=
  flushB_outer cc4_transform_2 (reads_fst 0 (by decide))
theorem flush4_3_arith : ∀ t : Fin cfg4.N, (cfg4.win 3).flush t = true ↔ t.val % 782 = 781 :=
  flushB_outer cc4_transform_3 (reads_fst 0 (by decide))

end Cert.Kernel.Hand

end
-- ==== Proof.K.R0Runs.lean ====
import proofs.«428353_j4698694222361_2_alg».proof.Proof.Gen.Kernel.Launch
import proofs.«428353_j4698694222361_2_alg».proof.Proof.Gen.Kernel.Skeleton
import proofs.«428353_j4698694222361_2_alg».proof.Proof.K.Sched
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe
open Idealize.SL Idealize.SL.RA Idealize.SL.BI Idealize.SL.BI.BIBase Idealize.SL.Sem
open scoped Idealize.SL.BI

variable {F : FTy → Type} [FloatOps F]

local notation "𝕄" => MT nD τ sig Unit (Elt F) ℕ (UR sig nD τ) ℕ

theorem coords0_1 (t : Fin cfg0.N) : ((grid0.coords t) 1).val = t.val % 49 := by
  show t.val / grid0.stride 1 % grid0.bound 1 = t.val % 49
  have hs : grid0.stride 1 = 1 := by decide
  have hb : grid0.bound 1 = 49 := rfl
  rw [hs, hb, Nat.div_one]

abbrev cond0_0 (i : grid0.Coords) : Prop :=
  (Scalar.cmpi .ne (Scalar.extui (Scalar.cmpi .eq (BitVec.ofNat 32 (i 1).val) 0#32)) 0#32) = 1#1

theorem cond0_0_val : ∀ k : Fin 49,
    (Scalar.cmpi .ne (Scalar.extui (Scalar.cmpi .eq (BitVec.ofNat 32 k.val) 0#32)) 0#32) = 1#1 ↔ k.val = 0 := by
  decide +kernel

theorem hcond0_0 (t : Fin cfg0.N) : cond0_0 (grid0.coords t) ↔ t.val % 49 = 0 :=
  (cond0_0_val ((grid0.coords t) 1)).trans (iff_of_eq (congrArg (· = 0) (coords0_1 t)))

abbrev cond0_1 (i : grid0.Coords) : Prop := k0_cond2 i = 1#1

theorem cond0_1_val : ∀ k : Fin 49,
    (Scalar.cmpi .ne (Scalar.extui (Scalar.cmpi .eq (BitVec.ofNat 32 k.val) 48#32)) 0#32) = 1#1 ↔ k.val = 48 := by
  decide +kernel

theorem hcond0_1 (t : Fin cfg0.N) : cond0_1 (grid0.coords t) ↔ t.val % 49 = 48 :=
  (cond0_1_val ((grid0.coords t) 1)).trans (iff_of_eq (congrArg (· = 48) (coords0_1 t)))

theorem liveAt0_0 (t : Fin cfg0.N) : cfg0.idle 0 (grid0.coords t) = false := rfl
theorem liveAt0_1 (t : Fin cfg0.N) : cfg0.idle 1 (grid0.coords t) = false := rfl

theorem idleAt0_2 (i : grid0.Coords) (h : ¬cond0_1 i) : cfg0.idle 2 i = true := by
  have e : cfg0.idle 2 i = !(k0_cond2 i == 1#1) := rfl
  rw [e, Bool.not_eq_true', beq_eq_false_iff_ne]; exact h

theorem liveAt0_2 (i : grid0.Coords) (h : cond0_1 i) : cfg0.idle 2 i = false := by
  have e : cfg0.idle 2 i = !(k0_cond2 i == 1#1) := rfl
  rw [e, Bool.not_eq_false', beq_iff_eq]; exact h

theorem noFlush0_2 (t : Fin cfg0.N) (h : ¬cond0_1 (grid0.coords t)) : (cfg0.win 2).flush t = false :=
  Bool.eq_false_iff.mpr fun hf => h ((hcond0_1 t).mpr ((flush0_2 t).mp hf))

abbrev ms0_0 (t : Fin cfg0.N) : Memref sig .tc .vmem S2048x1 .i32 := win0_0.stage (cfg0.slots t 0)
abbrev ms0_1 (t : Fin cfg0.N) : Memref sig .tc .vmem S2048x64 .bf16 := win0_1.stage (cfg0.slots t 1)
abbrev ms0_2 (t : Fin cfg0.N) : Memref sig .tc .vmem S2048x64 .bf16 := win0_2.stage (cfg0.slots t 2)

abbrev scM0_0 : Memref sig .tc .vmem S2048x64 .f32 := Memref.whole cc0_scratch0

abbrev rest0 (c : Dev nD) : sProp 𝕄 :=
  Pipeline.scopedRestBut (Ix := Unit) (Name := ℕ) (U := UR sig nD τ) (Lvl := ℕ) (Val := Elt F) spec0 c [cc0_scratch0]

theorem PhiA0_eq (c : Dev nD) :
    (Pipeline.ΦA spec0 c : sProp 𝕄)
      = iprop(iprop(iprop(∃ d, owns (c : Thread nD τ) scM0_0 fullShare d) ∗ rest0 c) ∗ (∃ r, prngReg c r)) := by
  unfold Pipeline.ΦA; rw [scopedRest0_split]; simp only [scM0_0, owns_whole]; try rfl

end Cert.Kernel.Hand

end
-- ==== Proof.K.R0RunA.lean ====
import proofs.«428353_j4698694222361_2_alg».proof.Proof.K.R0Runs
import Idealize.ShloMosaic.Lib.Pipeline.Value

noncomputable section

namespace Cert.Kernel.Hand

open Cert.Kernel Cert.Kernel.Gen
open Idealize.ShloMosaic Idealize.ShloMosaic.TcCoe
open Idealize.SL Idealize.SL.RA Idealize.SL.BI Idealize.SL.BI.BIBase Idealize.SL.Sem
open scoped Idealize.SL.BI

variable {F : FTy → Type} [FloatOps F]

local notation "𝕄" => MT nD τ sig Unit (Elt F) ℕ (UR sig nD τ) ℕ

section Whole

variable {sig : RefSig} {Val : EltTy → Type} {κ : Kind} {sp : Space} {s : Shape} {e : EltTy}

theorem off0_00 : (![0, 0] : Fin 2 → ℕ) = fun _ => 0 := by
  funext a
  match a with
  | ⟨0, _⟩ => rfl
  | ⟨1, _⟩ => rfl

theorem readAt_whole_unread0 {m : Memref sig κ sp s e} (h : m.IsWhole) {off : Fin s.rank → ℕ} (hz : off = fun _ => 0)
    (inb : ∀ a, off a + s.size a ≤ s.size a) (X : s.Idx → Val e) :
    m.view.readAt Val (Rect.unit off s.size inb).toLoadRect (h.unread X) = X := by
  rw [View.readAt_eq_ld, h.read_unread, View.ld_unit_zero hz]

-- a whole store that comes last leaves its payload
theorem read_writes_whole_last0 [∀ e, Nonempty (Val e)] (v : View sig κ sp s e) (f : v.ty.Contents Val)
    {off : Fin s.rank → ℕ} (hz : off = fun _ => 0) (inb : ∀ a, off a + s.size a ≤ s.size a) (w : s.Idx → Val e)
    (L : List (View.Piece Val s e)) :
    v.read Val (v.writes Val f ((⟨Rect.unit off s.size inb, w⟩ : View.Piece Val s e) :: L)) = w := by
  rw [View.read_writes_eq_canon _ _ _ (fun y => ⟨_, List.mem_cons_self, View.mem_set_unit_zero hz inb y⟩),
    View.canon_cons_unit_zero hz]

end Whole

-- one run of the body on (output block, accumulator): the accumulator, zeroed first where `k = 0`, gains the blocks' product; where `k = 48` the output block is it converted
def step0 (i : grid0.Coords) (x0 : Vec F S2048x1 .i32) (x1 : Vec F S2048x64 .bf16) (o : Vec F S2048x64 .bf16)
    (a : Vec F S2048x64 .f32) : Vec F S2048x64 .bf16 × Vec F S2048x64 .f32 :=
  (if cond0_1 i then k0_pay3 (k0_pay2 i x0 x1 (if cond0_0 i then k0_pay1 else a)) else o,
    k0_pay2 i x0 x1 (if cond0_0 i then k0_pay1 else a))

-- the kernel `run0` speaks of, under a name of this module's own: the other region's kernel is the same term
abbrev kern0 := cc0__gather_kernel (F := F)

set_option maxHeartbeats 1000000 in
theorem run0 (c : Dev nD) (i : grid0.Coords) (arg2 : Memref sig .tc .vmem S2048x1 .i32) (harg2 : arg2.IsWhole) (arg3 : Memref sig .tc .vmem S2048x64 .bf16) (harg3 : arg3.IsWhole) (arg4 : Memref sig .tc .vmem S2048x64 .bf16) (harg4 : arg4.IsWhole) (arg5 : Memref sig .tc .vmem S2048x64 .f32) (harg5 : arg5.IsWhole)
    (x0 : Vec F S2048x1 .i32) (x1 : Vec F S2048x64 .bf16) (o : Vec F S2048x64 .bf16) (a : Vec F S2048x64 .f32) (E : Set ℕ) (K : PUnit → sProp 𝕄) :
    iprop(owns (c : Thread nD τ) arg2 fullShare x0 ∗ owns (c : Thread nD τ) arg3 fullShare x1 ∗ owns (c : Thread nD τ) arg4 fullShare o ∗ owns (c : Thread nD τ) arg5 fullShare a
        ∗ (iprop(owns (c : Thread nD τ) arg2 fullShare x0 ∗ owns (c : Thread nD τ) arg3 fullShare x1 ∗ owns (c : Thread nD τ) arg4 fullShare (step0 i x0 x1 o a).1 ∗ owns (c : Thread nD τ) arg5 fullShare (step0 i x0 x1 o a).2) -∗ K ⟨⟩))
      ⊢ wp frame (wpE (defs₀ (F := F)) Variants.none c none) E (kern0 i arg2 harg2 arg3 harg3 arg4 harg4 arg5 harg5) K := by
  simp only [kern0, cc0__gather_kernel_eq_skeleton, step0]; unfold cc0__gather_kernel_skel owns
  by_cases hc0 : cond0_0 i <;> by_cases hc1 : cond0_1 i
  · exact absurd (((cond0_0_val (i 1)).mp hc0).symm.trans ((cond0_1_val (i 1)).mp hc1)) (by decide)
  all_goals
    (first | rw [if_pos hc0] | rw [if_neg hc0]); (first | rw [if_pos hc1] | rw [if_neg hc1])
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2
    obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2] <;> (iexists _; isplitr; swap) <;>
      first | iexact H2 | iexact HS | skip
    all_goals
      ipureintro; try sl_unfold_run_names
      first | (rw [read_writes_whole_last0 _ _ off0_00]; repeat (first | rw [readAt_whole_unread0 _ off0_00] | rw [View.readCov_unit_zero _ off0_00])) | exact harg4.read_unread _

end Cert.Kernel.Hand

end
-- ==== Proof.K.R0Body.lean ====
import proofs.«428353_j4698694222361_2_alg».proof.Proof.K.R0Runs
import proofs.«428353_j4698694222361_2_alg».proof.Proof.K.R0RunA

noncomputable section

namespace Cert.Kernel.Hand

open Cert.Kernel Cert.Kernel.Gen
open Idealize.ShloMosaic Idealize.ShloMosaic.TcCoe
open Idealize.SL Idealize.SL.RA Idealize.SL.BI Idealize.SL.BI.BIBase Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

-- (output block, accumulator) after the body at position `n`: the runs iterated; what the first starts from is never read
def outsAt0 (c : Dev nD) : (n : ℕ) → n < cfg0.N → Vec F S2048x64 .bf16 × Vec F S2048x64 .f32
  | 0, hn => step0 (grid0.coords ⟨0, hn⟩) (iblk0 V c 0 ⟨0, hn⟩) (iblk0 V c 1 ⟨0, hn⟩) (k0_pay3 k0_pay1) k0_pay1
  | n + 1, hn => step0 (grid0.coords ⟨n + 1, hn⟩) (iblk0 V c 0 ⟨n + 1, hn⟩) (iblk0 V c 1 ⟨n + 1, hn⟩)
      (outsAt0 c n (Nat.lt_of_succ_lt hn)).1 (outsAt0 c n (Nat.lt_of_succ_lt hn)).2

theorem outsAt0_first (c : Dev nD) (t : Fin cfg0.N) (h0 : t.val % 49 = 0) :
    (outsAt0 V c t.val t.isLt).2 = k0_pay2 (grid0.coords t) (iblk0 V c 0 t) (iblk0 V c 1 t) k0_pay1 := by
  obtain ⟨n, hn⟩ := t
  cases n <;> (dsimp only; rw [outsAt0, step0, if_pos ((hcond0_0 _).mpr h0)])

theorem outsAt0_next (c : Dev nD) (t : Fin cfg0.N) (h0 : ¬t.val % 49 = 0) :
    (outsAt0 V c t.val t.isLt).2 = k0_pay2 (grid0.coords t) (iblk0 V c 0 t) (iblk0 V c 1 t) (outsAt0 V c (t.val - 1) (Nat.lt_of_le_of_lt (Nat.sub_le _ _) t.isLt)).2 := by
  obtain ⟨n, hn⟩ := t
  cases n with
  | zero => exact absurd (Nat.zero_mod _) h0
  | succ n => dsimp only; rw [outsAt0, step0, if_neg (mt (hcond0_0 _).mp h0)] <;> try rfl

theorem outsAt0_last (c : Dev nD) (t : Fin cfg0.N) (h48 : t.val % 49 = 48) :
    (outsAt0 V c t.val t.isLt).1 = k0_pay3 (outsAt0 V c t.val t.isLt).2 := by
  obtain ⟨n, hn⟩ := t
  cases n <;> (dsimp only; rw [outsAt0, step0, if_pos (show cond0_1 _ from (hcond0_1 _).mpr h48)])

-- the accumulator is carried between points: after the first point it holds what the point before left
def PhiS0 (c : Dev nD) (n : ℕ) (hn : n ≤ cfg0.N) : sProp 𝕄 :=
  iprop(iprop(iprop(∃ d, ⌜∀ h : n ≠ 0, d = (outsAt0 V c (n - 1) (by omega)).2⌝ ∗ owns (c : Thread nD τ) scM0_0 fullShare d) ∗ rest0 c) ∗ (∃ r, prngReg c r))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem q_eq0 (c : Dev nD) (w : Fin cfg0.W) : (dat0 V c).q w = fullShare := rfl
theorem owed_eq0 (c : Dev nD) (t : Fin (cfg0.N + 1)) : (dat0 V c).owed t = 0 := rfl
theorem recorded_eq0 (c : Dev nD) (t : Fin (cfg0.N + 1)) : (dat0 V c).recorded t = Set.univ := rfl

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

theorem acc0 (c : Dev nD) (t : Fin cfg0.N) (o : Vec F S2048x64 .bf16) (d : Vec F S2048x64 .f32)
    (hd : ∀ h : t.val ≠ 0, d = (outsAt0 V c (t.val - 1) (by omega)).2) :
    (step0 (grid0.coords t) (iblk0 V c 0 t) (iblk0 V c 1 t) o d).2 = (outsAt0 V c t.val t.isLt).2 := by
  by_cases h0 : t.val % 49 = 0
  · rw [outsAt0_first V c t h0, step0, if_pos ((hcond0_0 t).mpr h0)]
  · rw [outsAt0_next V c t h0, step0, if_neg (mt (hcond0_0 t).mp h0), hd fun e => h0 (by rw [e])]

theorem out0 (c : Dev nD) (t : Fin cfg0.N) (d2) (d : Vec F S2048x64 .f32)
    (hd : ∀ h : t.val ≠ 0, d = (outsAt0 V c (t.val - 1) (by omega)).2) :
    owns (c : Thread nD τ) (ms0_2 t) fullShare (step0 (grid0.coords t) (iblk0 V c 0 t) (iblk0 V c 1 t) ((dat0 V c).before 2 t d2) d).1
      ⊢ (dat0 V c).leavesExact 2 t := by
  by_cases h1 : t.val % 49 = 48
  · rw [show (dat0 V c).leavesExact 2 t = owns (c : Thread nD τ) (ms0_2 t) fullShare ((dat0 V c).after 2 t) from by
        unfold Dat.leavesExact; rw [liveAt0_2 _ ((hcond0_1 t).mpr h1)], after0_2, outsAt0_last V c t h1, ← acc0 V c t _ d hd, step0, if_pos (show cond0_1 _ from (hcond0_1 t).mpr h1)]
  · rw [Dat.leavesExact_idle (dat0 V c) 2 t (idleAt0_2 _ (mt (hcond0_1 t).mp h1)) (noFlush0_2 t (mt (hcond0_1 t).mp h1)), step0, if_neg (show ¬cond0_1 _ from mt (hcond0_1 t).mp h1)]
    iintro H; iexists _; iexact H

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  rw [show cc0__gather_kernel (F := F) = kern0 from rfl]
  simp only [before0_0, before0_1]
  rw [show (dat0 V c).owesAt () t.succ = (dat0 V c).owesAt () t.castSucc from rfl]
  rw [show (dat0 V c).Φ t.succ = PhiS0 V c (t.val + 1) t.isLt from rfl,
    show (dat0 V c).Φ t.castSucc = PhiS0 V c t.val (Nat.le_of_lt t.isLt) from by dsimp only [dat0]; simp only [Fin.coe_castSucc]]
  unfold PhiS0
  rw [show (dat0 V c).leavesExact 0 t = owns (c : Thread nD τ) (ms0_0 t) fullShare ((dat0 V c).after 0 t) from by
          unfold Dat.leavesExact; rw [liveAt0_0 t], after0_0]
  rw [show (dat0 V c).leavesExact 1 t = owns (c : Thread nD τ) (ms0_1 t) fullShare ((dat0 V c).after 1 t) from by
          unfold Dat.leavesExact; rw [liveAt0_1 t], after0_1]
  iintro ⟨⟨⟨⟨%ds, %hds, HS⟩, HR⟩, Hg⟩, Ho, ⟨%d0, H0⟩, ⟨%d1, H1⟩, ⟨%d2, H2⟩⟩
  iapply (run0 c (grid0.coords t) _ _ _ _ _ _ _ _ (iblk0 V c 0 t) (iblk0 V c 1 t) ((dat0 V c).before 2 t d2) ds Set.univ _)
  iframe H0 H1 H2 HS
  iintro ⟨H0, H1, H2, HS⟩
  iframe HR Hg Ho H0 H1
  isplitl [HS]
  · iexists _; isplitr; swap; · iexact HS
    ipureintro; exact fun _ => acc0 V c t _ ds hds
  iapply out0 V c t d2 ds hds $$ H2

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiA0_eq]; unfold PhiS0
  iintro ⟨⟨⟨%d, HS⟩, HR⟩, Hg⟩
  iframe HR Hg
  iexists d; isplitr
  · ipureintro; exact fun h => absurd rfl h
  iexact HS

theorem hout0 (c : Dev nD) : (dat0 V c).Φ (Fin.last cfg0.N) ⊢ Pipeline.ΦA spec0 c := by
  rw [show (dat0 V c).Φ (Fin.last cfg0.N) = PhiS0 V c cfg0.N (Nat.le_refl _) from rfl, PhiA0_eq]; unfold PhiS0
  iintro ⟨⟨⟨%d, -, HS⟩, HR⟩, Hg⟩
  iframe HR Hg
  iexists _; iexact HS

end Cert.Kernel.Hand

end
-- ==== Proof.K.R1Runs.lean ====
import proofs.«428353_j4698694222361_2_alg».proof.Proof.Gen.Kernel.Launch
import proofs.«428353_j4698694222361_2_alg».proof.Proof.Gen.Kernel.Skeleton
import proofs.«428353_j4698694222361_2_alg».proof.Proof.K.Sched
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

theorem coords1_1 (t : Fin grid1.N) : (grid1.coords t 1).val = t.val % 782 := by
  show t.val / grid1.stride 1 % grid1.bound 1 = t.val % 782
  rw [show grid1.stride 1 = 1 from by decide, Nat.div_one]; rfl

abbrev cond1_0 (i : grid1.Coords) : Prop := (Scalar.cmpi .ne (Scalar.extui (Scalar.cmpi .eq (BitVec.ofNat 32 (i 1).val) 0#32)) 0#32) = 1#1

abbrev cond1_1 (i : grid1.Coords) : Prop := k1_cond2 i = 1#1

/-- Over the inner coordinate's 782 values: the first condition holds exactly at 0, the second exactly at 781. -/
theorem cond1_iff : ∀ k : Fin 782, ((Scalar.cmpi .ne (Scalar.extui (Scalar.cmpi .eq (BitVec.ofNat 32 k.val) 0#32)) 0#32) = 1#1 ↔ k.val = 0)
    ∧ ((Scalar.cmpi .ne (Scalar.extui (Scalar.cmpi .eq (BitVec.ofNat 32 k.val) 781#32)) 0#32) = 1#1 ↔ k.val = 781) := by
  decide +kernel

theorem hcond1_0 (t : Fin cfg1.N) : cond1_0 (grid1.coords t) ↔ t.val % 782 = 0 :=
  (cond1_iff (grid1.coords t 1)).1.trans (by rw [coords1_1])
theorem hcond1_1 (t : Fin cfg1.N) : cond1_1 (grid1.coords t) ↔ t.val % 782 = 781 :=
  (cond1_iff (grid1.coords t 1)).2.trans (by rw [coords1_1])

abbrev scM1_0 : Memref sig .tc .vmem S2048x64 .f32 := Memref.whole cc1_scratch0
abbrev scM1_1 : Memref sig .tc .vmem S2048x1 .f32 := Memref.whole cc1_scratch1

theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1])
          ∗ (∃ r, prngReg c r)) := by
  unfold Pipeline.ΦA; rw [scopedRest1_split]; simp only [scM1_0, scM1_1, owns_whole]; try rfl

theorem leaves1 {c : Dev nD} (dat : Dat τ (Elt F) Unit ℕ (UR sig nD τ) ℕ cfg1 c) (w : Fin cfg1.W) (hi : ∀ i, cfg1.idle w i = !decide (cond1_1 i))
    (hf : ∀ t : Fin cfg1.N, (cfg1.win w).flush t = true ↔ t.val % 782 = 781) (t : Fin cfg1.N) (d Y) (hY : cond1_1 (grid1.coords t) → Y = dat.after w t) :
    owns (c : Thread nD τ) ((cfg1.win w).stage (cfg1.slots t w)) fullShare (if cond1_1 (grid1.coords t) then Y else dat.before w t d) ⊢ dat.leavesExact w t := by
  by_cases h : cond1_1 (grid1.coords t)
  · rw [if_pos h, hY h]; unfold Dat.leavesExact; rw [(hi _).trans (congrArg (!·) (decide_eq_true h))]; exact Entails.refl _
  · rw [if_neg h, dat.leavesExact_idle w t ((hi _).trans (congrArg (!·) (decide_eq_false h))) (Bool.eq_false_iff.mpr fun e => h ((hcond1_1 t).mpr ((hf t).mp e)))]
    iintro H; iexists d; iexact H

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_of {c : Dev nD} (dat : Dat τ (Elt F) Unit ℕ (UR sig nD τ) ℕ cfg1 c) (hA : ∀ w, dat.A w = V c (Pipeline.arrRef spec1 w))
    (h0 : ∀ t, dat.after 0 t = iblk1 V c 0 t) (h1 : ∀ t, dat.after 1 t = iblk1 V c 1 t) :
    (∀ t d, dat.before 0 t d = iblk1 V c 0 t) ∧ ∀ t d, dat.before 1 t d = iblk1 V c 1 t := by
  constructor <;> intro t d <;>
  exact (dat.before_in_eq_fetched _ rfl (fun _ => rfl) (fun _ _ _ => rfl) (fun t => by (first | rw [h0] | rw [h1]); unfold Dat.blockOf iblk1; rw [hA]; try rfl) t d).trans
    (by unfold Dat.fetched Dat.blockOf iblk1; rw [hA]; try rfl)

end Cert.Kernel.Hand

end
-- ==== Proof.K.R1RunA.lean ====
import proofs.«428353_j4698694222361_2_alg».proof.Proof.K.R1Runs
import Idealize.ShloMosaic.Lib.Pipeline.Value

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- A last store through the whole-shape rectangle at zero offsets leaves its payload, whatever the buffer held. -/
theorem readWrites1 {κ : Kind} {sp : Space} {S : Shape} {e : EltTy} (v : View sig κ sp S e) (f : v.ty.Contents (Elt F)) {off : Fin S.rank → ℕ}
    (h : off = fun _ => 0) (inb : ∀ a, off a + S.size a ≤ S.size a) (w : S.Idx → Elt F e) (L : List (View.Piece (Elt F) S e)) :
    v.read (Elt F) (v.writes (Elt F) f (⟨Rect.unit off S.size inb, w⟩ :: L)) = w :=
  (View.read_writes_eq_canon v f _ fun y => ⟨_, List.Mem.head _, View.mem_set_unit_zero h inb y⟩).trans (View.canon_cons_unit_zero h inb w L)

def scr1 (i : grid1.Coords) (x0 : Vec F S1x2048 .i32) (x1 : Vec F S2048x64 .bf16) (s : Vec F S2048x64 .f32 × Vec F S2048x1 .f32) :
    Vec F S2048x64 .f32 × Vec F S2048x1 .f32 :=
  (k1_pay4 i x0 x1 (if cond1_0 i then k1_pay1 else s.1), k1_pay5 i x0 (if cond1_0 i then k1_pay2 else s.2))

abbrev kern1 := cc1__scatter_kernel (F := F)

set_option maxHeartbeats 1000000 in
theorem run1 (c : Dev nD) (i : grid1.Coords) (arg2 : Memref sig .tc .vmem S1x2048 .i32) (harg2 : arg2.IsWhole) (arg3 : Memref sig .tc .vmem S2048x64 .bf16) (harg3 : arg3.IsWhole) (arg4 : Memref sig .tc .vmem S2048x64 .f32) (harg4 : arg4.IsWhole) (arg5 : Memref sig .tc .vmem S2048x1 .f32) (harg5 : arg5.IsWhole) (arg6 : Memref sig .tc .vmem S2048x64 .f32) (harg6 : arg6.IsWhole) (arg7 : Memref sig .tc .vmem S2048x1 .f32) (harg7 : arg7.IsWhole)
    (x0 : Vec F S1x2048 .i32) (x1 : Vec F S2048x64 .bf16) (x2 : Vec F S2048x64 .f32) (x3 : Vec F S2048x1 .f32) (s : Vec F S2048x64 .f32 × Vec F S2048x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare s.1 ∗ owns (c : Thread nD τ) arg7 fullShare s.2
        ∗ (iprop(owns (c : Thread nD τ) arg2 fullShare x0 ∗ owns (c : Thread nD τ) arg3 fullShare x1
            ∗ owns (c : Thread nD τ) arg4 fullShare (if cond1_1 i then (scr1 i x0 x1 s).1 else x2) ∗ owns (c : Thread nD τ) arg5 fullShare (if cond1_1 i then (scr1 i x0 x1 s).2 else x3)
            ∗ owns (c : Thread nD τ) arg6 fullShare (scr1 i x0 x1 s).1 ∗ owns (c : Thread nD τ) arg7 fullShare (scr1 i x0 x1 s).2) -∗ K ⟨⟩))
      ⊢ wp frame (wpE (defs₀ (F := F)) Variants.none c none) E (kern1 i arg2 harg2 arg3 harg3 arg4 harg4 arg5 harg5 arg6 harg6 arg7 harg7) K := by
  have z : (![0, 0] : Fin 2 → ℕ) = fun _ => 0 := funext fun a => by fin_cases a <;> rfl
  unfold scr1 owns kern1
  iintro ⟨⟨%f0, %h0, H0⟩, ⟨%f1, %h1, H1⟩, ⟨%f2, %h2, H2⟩, ⟨%f3, %h3, H3⟩, ⟨%f4, %h4, H4⟩, ⟨%f5, %h5, H5⟩, Hk⟩
  obtain rfl := harg2.eq_unread h0; obtain rfl := harg3.eq_unread h1; obtain rfl := harg4.eq_unread h2; obtain rfl := harg5.eq_unread h3
  obtain rfl := harg6.eq_unread h4; obtain rfl := harg7.eq_unread h5
  by_cases hc0 : cond1_0 i <;> by_cases hc1 : cond1_1 i <;>
  · first | rw [if_pos hc0, if_pos hc0] | rw [if_neg hc0, if_neg hc0]
    first | rw [if_pos hc1, if_pos hc1] | rw [if_neg hc1, if_neg hc1]
    simp only [cc1__scatter_kernel_eq_skeleton]; unfold cc1__scatter_kernel_skel
    sl_exec (disch := first | exact hc0 | exact hc1)
    sl_step
    iapply Hk
    isplitl [H0]; iexists _; isplitr; swap; iexact H0; swap
    isplitl [H1]; iexists _; isplitr; swap; iexact H1; swap
    isplitl [H2]; iexists _; isplitr; swap; iexact H2; swap
    isplitl [H3]; iexists _; isplitr; swap; iexact H3; swap
    isplitl [H4]; iexists _; isplitr; swap; iexact H4; swap
    iexists _; isplitr; swap; iexact H5
    all_goals
      ipureintro; (try sl_unfold_run_names)
      simp only [readWrites1 (S := S2048x64) _ _ z, readWrites1 (S := S2048x1) _ _ z, View.readCov, View.readAt_eq_ld,
        View.ld_unit_zero (S := S1x2048) z, View.ld_unit_zero (S := S2048x64) z, View.ld_unit_zero (S := S2048x1) z, Memref.IsWhole.read_unread]

end Cert.Kernel.Hand

end
-- ==== Proof.K.R1Body.lean ====
import proofs.«428353_j4698694222361_2_alg».proof.Proof.K.R1Runs
import proofs.«428353_j4698694222361_2_alg».proof.Proof.K.R1RunA

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def step1 (c : Dev nD) (t : Fin cfg1.N) (p : (Vec F S2048x64 .f32 × Vec F S2048x1 .f32) × (Vec F S2048x64 .f32 × Vec F S2048x1 .f32)) : (Vec F S2048x64 .f32 × Vec F S2048x1 .f32) × (Vec F S2048x64 .f32 × Vec F S2048x1 .f32) :=
  ((if cond1_1 (grid1.coords t) then (scr1 (grid1.coords t) (iblk1 V c 0 t) (iblk1 V c 1 t) p.2).1 else p.1.1,
    if cond1_1 (grid1.coords t) then (scr1 (grid1.coords t) (iblk1 V c 0 t) (iblk1 V c 1 t) p.2).2 else p.1.2),
    scr1 (grid1.coords t) (iblk1 V c 0 t) (iblk1 V c 1 t) p.2)

/-- The two output buffers, then the two scratches, after the body at position `n`, starting from zeros. -/
def outsAt1 (c : Dev nD) (n : ℕ) (hn : n < cfg1.N) : (Vec F S2048x64 .f32 × Vec F S2048x1 .f32) × (Vec F S2048x64 .f32 × Vec F S2048x1 .f32) :=
  step1 V c ⟨n, hn⟩ (match n, hn with
    | 0, _ => ((k1_pay1, k1_pay2), (k1_pay1, k1_pay2))
    | k + 1, h => outsAt1 c k (Nat.lt_of_succ_lt h))

theorem outs1_last (c : Dev nD) (t : Fin cfg1.N) (h : cond1_1 (grid1.coords t)) : (outsAt1 V c t.val t.isLt).1 = (outsAt1 V c t.val t.isLt).2 := by
  unfold outsAt1 step1; dsimp only; rw [if_pos h, if_pos h]

def PhiS1 (c : Dev nD) (n : ℕ) : sProp 𝕄 :=
  iprop(∃ s : Vec F S2048x64 .f32 × Vec F S2048x1 .f32,
    ⌜∀ h : n < cfg1.N, scr1 (grid1.coords ⟨n, h⟩) (iblk1 V c 0 ⟨n, h⟩) (iblk1 V c 1 ⟨n, h⟩) s = (outsAt1 V c n h).2⌝
    ∗ owns (c : Thread nD τ) scM1_0 fullShare s.1 ∗ owns (c : Thread nD τ) scM1_1 fullShare s.2
    ∗ Pipeline.scopedRestBut (Ix := Unit) (Name := ℕ) (U := UR sig nD τ) (Lvl := ℕ) (Val := Elt F) spec1 c [cc1_scratch0, cc1_scratch1] ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1.1
    | ⟨3, _⟩ => (outsAt1 V c t.val t.isLt).1.2
  Φ t := PhiS1 V c t.val
  q _ := fullShare
  owed _ := 0

theorem A_eq1 (c : Dev nD) (w : Fin cfg1.W) : (dat1 V c).A w = V c (Pipeline.arrRef spec1 w) := rfl
theorem q_eq1 (c : Dev nD) (w : Fin cfg1.W) : (dat1 V c).q w = fullShare := rfl
theorem owed_eq1 (c : Dev nD) (t : Fin (cfg1.N + 1)) : (dat1 V c).owed t = 0 := rfl
theorem recorded_eq1 (c : Dev nD) (t : Fin (cfg1.N + 1)) : (dat1 V c).recorded t = Set.univ := rfl
theorem after1_2 (c : Dev nD) (t : Fin cfg1.N) : (dat1 V c).after 2 t = (outsAt1 V c t.val t.isLt).1.1 := rfl
theorem after1_3 (c : Dev nD) (t : Fin cfg1.N) : (dat1 V c).after 3 t = (outsAt1 V c t.val t.isLt).1.2 := rfl

theorem body_obligation1 (c : Dev nD) : BodyObligation (dat1 (F := F) V c) (defs₀ (F := F)) Variants.none () Set.univ := fun t => by
  rw [bigSep_W1, bigSep_W1]
  show _ ⊢ wp _ _ _ (bodyAt1 t) _
  unfold bodyAt1; rw [show cc1__scatter_kernel (F := F) = kern1 from rfl]
  obtain ⟨b0, b1⟩ := before1_of V (dat1 V c) (fun _ => rfl) (fun _ => rfl) fun _ => rfl
  simp only [b0, b1]
  rw [show (dat1 V c).Φ t.castSucc = PhiS1 V c t.val from rfl, show (dat1 V c).Φ t.succ = PhiS1 V c (t.val + 1) from rfl,
    show (dat1 V c).owesAt () t.succ = (dat1 V c).owesAt () t.castSucc from rfl]
  unfold PhiS1
  iintro ⟨⟨%s, %hs, HS0, HS1, Hr, Hg⟩, Ho, ⟨%d0, H0⟩, ⟨%d1, H1⟩, ⟨%d2, H2⟩, ⟨%d3, H3⟩⟩
  iapply run1 c (grid1.coords t) _ _ _ _ _ _ _ _ _ _ _ _ (iblk1 V c 0 t) (iblk1 V c 1 t) _ _ s Set.univ _
  iframe H0 H1 H2 H3 HS0 HS1
  rw [hs t.isLt]
  iintro ⟨H0, H1, H2, H3, HS0, HS1⟩
  isplitl [HS0 HS1 Hr Hg]
  · iexists (outsAt1 V c t.val t.isLt).2; isplitr; · ipureintro; exact fun _ => rfl
    iframe
  iframe Ho
  isplitl [H0]; · iexact H0
  isplitl [H1]; · iexact H1
  isplitl [H2]
  · iapply leaves1 (dat1 V c) 2 (fun _ => rfl) flush1_2 t d2 _ fun h => (congrArg Prod.fst (outs1_last V c t h)).symm
    iexact H2
  iapply leaves1 (dat1 V c) 3 (fun _ => rfl) flush1_3 t d3 _ fun h => (congrArg Prod.snd (outs1_last V c t h)).symm
  iexact H3

theorem hin1 (c : Dev nD) : Pipeline.ΦA spec1 c ⊢ (dat1 V c).Φ 0 := by
  rw [PhiA1_eq]; show _ ⊢ PhiS1 V c 0; unfold PhiS1
  iintro ⟨⟨⟨⟨%d0, HS0⟩, ⟨%d1, HS1⟩⟩, Hr⟩, Hg⟩
  iexists (d0, d1); isplitr
  · ipureintro; intro h; show scr1 _ _ _ _ = scr1 _ _ _ _; unfold scr1; simp only [if_pos ((hcond1_0 ⟨0, h⟩).mpr rfl)]
  iframe

theorem hout1 (c : Dev nD) : (dat1 V c).Φ (Fin.last cfg1.N) ⊢ Pipeline.ΦA spec1 c := by
  rw [PhiA1_eq]; show PhiS1 V c _ ⊢ _; unfold PhiS1
  iintro ⟨%s, -, HS0, HS1, Hr, Hg⟩
  iframe Hr Hg
  isplitl [HS0]; · iexists _; iexact HS0
  iexists _; iexact HS1

end Cert.Kernel.Hand

end
-- ==== Proof.K.R2Body.lean ====
import proofs.«428353_j4698694222361_2_alg».proof.Proof.Gen.Kernel.Launch
import proofs.«428353_j4698694222361_2_alg».proof.Proof.Gen.Kernel.Skeleton
import proofs.«428353_j4698694222361_2_alg».proof.Proof.K.Sched
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem hz2 : (![0, 0] : Fin 2 → Nat) = fun _ => 0 := funext fun a => by fin_cases a <;> rfl

abbrev r2_a : Rect S2048x64 := Rect.unit (s := S2048x64) ![0, 0] S2048x64.size inb_S2048x64_S2048x64_0_0
abbrev r2_d : Rect S2048x1 := Rect.unit (s := S2048x1) ![0, 0] S2048x1.size inb_S2048x1_S2048x1_0_0
abbrev r2_m : Rect S64x64 := Rect.unit (s := S64x64) ![0, 0] S64x64.size inb_S64x64_S64x64_0_0
abbrev r2_b : Rect S1x64 := Rect.unit (s := S1x64) ![0, 0] S1x64.size inb_S1x64_S1x64_0_0
abbrev r2_o : Rect S2048x64 := Rect.unit (s := S2048x64) ![0, 0] S2048x64.size inb_S2048x64_S2048x64_0_0

section
variable (x0 x1 : Vec F S2048x64 .f32) (x2 : Vec F S2048x1 .f32) (x3 : Vec F S64x64 .f32) (x4 : Vec F S1x64 .f32) (x5 : Vec F S64x64 .f32)

/-- The output buffer after the body: its one whole store, the payload of the six whole loads. -/
def out2_6 : Vec F S2048x64 .f32 :=
  View.canon [⟨r2_o, k2_pay1 (View.ld x1 r2_a) (View.ld x2 r2_d) (View.ld x0 r2_a) (View.ld x3 r2_m) (View.ld x5 r2_m) (View.ld x4 r2_b)⟩]

/-- A whole load reads the block itself and one whole store leaves its payload. -/
theorem out2_6_eq : out2_6 x0 x1 x2 x3 x4 x5 = k2_pay1 x1 x2 x0 x3 x5 x4 := by
  unfold out2_6
  rw [View.canon_unit_zero hz2, View.ld_unit_zero hz2, View.ld_unit_zero hz2, View.ld_unit_zero hz2,
    View.ld_unit_zero hz2, View.ld_unit_zero hz2, View.ld_unit_zero hz2]

set_option maxHeartbeats 1000000 in
theorem sound_kernel2 (c : Dev nD) (E : Set ℕ) (i : grid2.Coords) (arg1 : Memref sig .tc .vmem S2048x64 .f32) (harg1 : arg1.IsWhole) (arg2 : Memref sig .tc .vmem S2048x64 .f32) (harg2 : arg2.IsWhole) (arg3 : Memref sig .tc .vmem S2048x1 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S2048x64 .f32) (harg7 : arg7.IsWhole)
    (K : PUnit → sProp 𝕄) :
    iprop(owns c arg1 fullShare x0 ∗ owns c arg2 fullShare x1 ∗ owns c arg3 fullShare x2 ∗ owns c arg4 fullShare x3 ∗ owns c arg5 fullShare x4 ∗ owns c arg6 fullShare x5 ∗ (∃ d, owns c arg7 fullShare d)
        ∗ (iprop(owns c arg1 fullShare x0 ∗ owns c arg2 fullShare x1 ∗ owns c arg3 fullShare x2 ∗ owns c arg4 fullShare x3 ∗ owns c arg5 fullShare x4 ∗ owns c arg6 fullShare x5 ∗ owns c arg7 fullShare (out2_6 x0 x1 x2 x3 x4 x5)) -∗ K ⟨⟩))
      ⊢ wp frame (wpE (defs₀ (F := F)) Variants.none c none) E (cc2__combine_kernel i arg1 harg1 arg2 harg2 arg3 harg3 arg4 harg4 arg5 harg5 arg6 harg6 arg7 harg7) K := by
  simp only [cc2__combine_kernel_eq_skeleton]; unfold cc2__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]; · iexists f0; iframe; ipureintro; rfl
  isplitl [H1]; · iexists f1; iframe; ipureintro; rfl
  isplitl [H2]; · iexists f2; iframe; ipureintro; rfl
  isplitl [H3]; · iexists f3; iframe; ipureintro; rfl
  isplitl [H4]; · iexists f4; iframe; ipureintro; rfl
  isplitl [H5]; · iexists f5; iframe; ipureintro; rfl
  iexists _; iframe; ipureintro
  exact View.read_writes_eq_canon _ _ _ (View.cover_of_tiled [⟨r2_o, _⟩] S2048x64.size (by rfl))

end

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by dsimp only [dat2]
theorem q_eq2 (c : Dev nD) (w : Fin cfg2.W) : (dat2 V c).q w = fullShare := by dsimp only [dat2]
theorem owed_eq2 (c : Dev nD) (t : Fin (cfg2.N + 1)) : (dat2 V c).owed t = 0 := by dsimp only [dat2]
theorem recorded_eq2 (c : Dev nD) (t : Fin (cfg2.N + 1)) : (dat2 V c).recorded t = Set.univ := by dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

theorem before2 (c : Dev nD) (t : Fin cfg2.N) :
    (∀ d, (dat2 V c).before 0 t d = iblk2 V c 0 t) ∧ (∀ d, (dat2 V c).before 1 t d = iblk2 V c 1 t)
    ∧ (∀ d, (dat2 V c).before 2 t d = iblk2 V c 2 t) ∧ (∀ d, (dat2 V c).before 3 t d = iblk2 V c 3 t)
    ∧ (∀ d, (dat2 V c).before 4 t d = iblk2 V c 4 t) ∧ (∀ d, (dat2 V c).before 5 t d = iblk2 V c 5 t) := by
  refine ⟨?_, ?_, ?_, ?_, ?_, ?_⟩ <;> intro d <;>
    exact ((dat2 V c).before_in_eq_fetched _ rfl (fun _ => rfl) (fun _ _ _ => rfl) (fun t => by dsimp only [dat2]; rfl) t d).trans
      (by dsimp only [dat2]; rfl)

theorem body_obligation2 (c : Dev nD) : BodyObligation (dat2 (F := F) V c) (defs₀ (F := F)) Variants.none () Set.univ := fun t => by
  rw [bigSep_W2, bigSep_W2]
  obtain ⟨b0, b1, b2, b3, b4, b5⟩ := before2 V c t
  simp only [b0, b1, b2, b3, b4, b5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  show _ ⊢ wp frame _ _ (bodyAt2 t) _
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 (iblk2 V c 0 t) (iblk2 V c 1 t) (iblk2 V c 2 t) (iblk2 V c 3 t) (iblk2 V c 4 t) (iblk2 V c 5 t) c Set.univ)
  iframe H0 H1 H2 H3 H4 H5
  isplitl [H6]; · iexists _; iexact H6
  iintro ⟨H0, H1, H2, H3, H4, H5, H6⟩
  iframe

theorem hin2 (c : Dev nD) : Pipeline.ΦA spec2 c ⊢ (dat2 V c).Φ 0 := BIBase.Entails.rfl
theorem hout2 (c : Dev nD) : (dat2 V c).Φ (Fin.last cfg2.N) ⊢ Pipeline.ΦA spec2 c := BIBase.Entails.rfl

end Cert.Kernel.Hand

end
-- ==== Proof.K.R3Runs.lean ====
import proofs.«428353_j4698694222361_2_alg».proof.Proof.Gen.Kernel.Launch
import proofs.«428353_j4698694222361_2_alg».proof.Proof.Gen.Kernel.Skeleton
import proofs.«428353_j4698694222361_2_alg».proof.Proof.K.Sched
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe
open Idealize.SL Idealize.SL.RA Idealize.SL.BI Idealize.SL.BI.BIBase Idealize.SL.Sem
open scoped Idealize.SL.BI

variable {F : FTy → Type} [FloatOps F]

local notation "𝕄" => MT nD τ sig Unit (Elt F) ℕ (UR sig nD τ) ℕ

theorem coords3_1 (t : Fin cfg3.N) : ((grid3.coords t) 1).val = t.val % 49 := by
  show t.val / grid3.stride 1 % grid3.bound 1 = t.val % 49
  have hs : grid3.stride 1 = 1 := by decide
  have hb : grid3.bound 1 = 49 := rfl
  rw [hs, hb, Nat.div_one]

abbrev cond3_0 (i : grid3.Coords) : Prop :=
  (Scalar.cmpi .ne (Scalar.extui (Scalar.cmpi .eq (BitVec.ofNat 32 (i 1).val) 0#32)) 0#32) = 1#1

theorem cond3_0_val : ∀ k : Fin 49,
    (Scalar.cmpi .ne (Scalar.extui (Scalar.cmpi .eq (BitVec.ofNat 32 k.val) 0#32)) 0#32) = 1#1 ↔ k.val = 0 := by
  decide +kernel

theorem hcond3_0 (t : Fin cfg3.N) : cond3_0 (grid3.coords t) ↔ t.val % 49 = 0 :=
  (cond3_0_val ((grid3.coords t) 1)).trans (iff_of_eq (congrArg (· = 0) (coords3_1 t)))

abbrev cond3_1 (i : grid3.Coords) : Prop := k3_cond2 i = 1#1

theorem cond3_1_val : ∀ k : Fin 49,
    (Scalar.cmpi .ne (Scalar.extui (Scalar.cmpi .eq (BitVec.ofNat 32 k.val) 48#32)) 0#32) = 1#1 ↔ k.val = 48 := by
  decide +kernel

theorem hcond3_1 (t : Fin cfg3.N) : cond3_1 (grid3.coords t) ↔ t.val % 49 = 48 :=
  (cond3_1_val ((grid3.coords t) 1)).trans (iff_of_eq (congrArg (· = 48) (coords3_1 t)))

theorem liveAt3_0 (t : Fin cfg3.N) : cfg3.idle 0 (grid3.coords t) = false := rfl
theorem liveAt3_1 (t : Fin cfg3.N) : cfg3.idle 1 (grid3.coords t) = false := rfl

theorem idleAt3_2 (i : grid3.Coords) (h : ¬cond3_1 i) : cfg3.idle 2 i = true := by
  have e : cfg3.idle 2 i = !(k3_cond2 i == 1#1) := rfl
  rw [e, Bool.not_eq_true', beq_eq_false_iff_ne]; exact h

theorem liveAt3_2 (i : grid3.Coords) (h : cond3_1 i) : cfg3.idle 2 i = false := by
  have e : cfg3.idle 2 i = !(k3_cond2 i == 1#1) := rfl
  rw [e, Bool.not_eq_false', beq_iff_eq]; exact h

theorem noFlush3_2 (t : Fin cfg3.N) (h : ¬cond3_1 (grid3.coords t)) : (cfg3.win 2).flush t = false :=
  Bool.eq_false_iff.mpr fun hf => h ((hcond3_1 t).mpr ((flush3_2 t).mp hf))

abbrev ms3_0 (t : Fin cfg3.N) : Memref sig .tc .vmem S2048x1 .i32 := win3_0.stage (cfg3.slots t 0)
abbrev ms3_1 (t : Fin cfg3.N) : Memref sig .tc .vmem S2048x64 .bf16 := win3_1.stage (cfg3.slots t 1)
abbrev ms3_2 (t : Fin cfg3.N) : Memref sig .tc .vmem S2048x64 .bf16 := win3_2.stage (cfg3.slots t 2)

abbrev scM3_0 : Memref sig .tc .vmem S2048x64 .f32 := Memref.whole cc3_scratch0

abbrev rest3 (c : Dev nD) : sProp 𝕄 :=
  Pipeline.scopedRestBut (Ix := Unit) (Name := ℕ) (U := UR sig nD τ) (Lvl := ℕ) (Val := Elt F) spec3 c [cc3_scratch0]

theorem PhiA3_eq (c : Dev nD) :
    (Pipeline.ΦA spec3 c : sProp 𝕄)
      = iprop(iprop(iprop(∃ d, owns (c : Thread nD τ) scM3_0 fullShare d) ∗ rest3 c) ∗ (∃ r, prngReg c r)) := by
  unfold Pipeline.ΦA; rw [scopedRest3_split]; simp only [scM3_0, owns_whole]; try rfl

end Cert.Kernel.Hand

end
-- ==== Proof.K.R3Body.lean ====
import proofs.«428353_j4698694222361_2_alg».proof.Proof.K.R3Runs
import proofs.«428353_j4698694222361_2_alg».proof.Proof.K.R0RunA

noncomputable section

namespace Cert.Kernel.Hand

open Cert.Kernel Cert.Kernel.Gen
open Idealize.ShloMosaic Idealize.ShloMosaic.TcCoe
open Idealize.SL Idealize.SL.RA Idealize.SL.BI Idealize.SL.BI.BIBase Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

-- (output block, accumulator) after the body at position `n`: the runs iterated; what the first starts from is never read
def outsAt3 (c : Dev nD) : (n : ℕ) → n < cfg3.N → Vec F S2048x64 .bf16 × Vec F S2048x64 .f32
  | 0, hn => step0 (grid3.coords ⟨0, hn⟩) (iblk3 V c 0 ⟨0, hn⟩) (iblk3 V c 1 ⟨0, hn⟩) (k0_pay3 k0_pay1) k0_pay1
  | n + 1, hn => step0 (grid3.coords ⟨n + 1, hn⟩) (iblk3 V c 0 ⟨n + 1, hn⟩) (iblk3 V c 1 ⟨n + 1, hn⟩)
      (outsAt3 c n (Nat.lt_of_succ_lt hn)).1 (outsAt3 c n (Nat.lt_of_succ_lt hn)).2

theorem outsAt3_first (c : Dev nD) (t : Fin cfg3.N) (h0 : t.val % 49 = 0) :
    (outsAt3 V c t.val t.isLt).2 = k0_pay2 (grid3.coords t) (iblk3 V c 0 t) (iblk3 V c 1 t) k0_pay1 := by
  obtain ⟨n, hn⟩ := t
  cases n <;> (dsimp only; rw [outsAt3, step0, if_pos ((hcond3_0 _).mpr h0)])

theorem outsAt3_next (c : Dev nD) (t : Fin cfg3.N) (h0 : ¬t.val % 49 = 0) :
    (outsAt3 V c t.val t.isLt).2 = k0_pay2 (grid3.coords t) (iblk3 V c 0 t) (iblk3 V c 1 t) (outsAt3 V c (t.val - 1) (Nat.lt_of_le_of_lt (Nat.sub_le _ _) t.isLt)).2 := by
  obtain ⟨n, hn⟩ := t
  cases n with
  | zero => exact absurd (Nat.zero_mod _) h0
  | succ n => dsimp only; rw [outsAt3, step0, if_neg (mt (hcond3_0 _).mp h0)] <;> try rfl

theorem outsAt3_last (c : Dev nD) (t : Fin cfg3.N) (h48 : t.val % 49 = 48) :
    (outsAt3 V c t.val t.isLt).1 = k0_pay3 (outsAt3 V c t.val t.isLt).2 := by
  obtain ⟨n, hn⟩ := t
  cases n <;> (dsimp only; rw [outsAt3, step0, if_pos (show cond0_1 _ from (hcond3_1 _).mpr h48)])

-- the accumulator is carried between points: after the first point it holds what the point before left
def PhiS3 (c : Dev nD) (n : ℕ) (hn : n ≤ cfg3.N) : sProp 𝕄 :=
  iprop(iprop(iprop(∃ d, ⌜∀ h : n ≠ 0, d = (outsAt3 V c (n - 1) (by omega)).2⌝ ∗ owns (c : Thread nD τ) scM3_0 fullShare d) ∗ rest3 c) ∗ (∃ r, prngReg c r))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem q_eq3 (c : Dev nD) (w : Fin cfg3.W) : (dat3 V c).q w = fullShare := rfl
theorem owed_eq3 (c : Dev nD) (t : Fin (cfg3.N + 1)) : (dat3 V c).owed t = 0 := rfl
theorem recorded_eq3 (c : Dev nD) (t : Fin (cfg3.N + 1)) : (dat3 V c).recorded t = Set.univ := rfl

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt).1 := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)

theorem acc3 (c : Dev nD) (t : Fin cfg3.N) (o : Vec F S2048x64 .bf16) (d : Vec F S2048x64 .f32)
    (hd : ∀ h : t.val ≠ 0, d = (outsAt3 V c (t.val - 1) (by omega)).2) :
    (step0 (grid3.coords t) (iblk3 V c 0 t) (iblk3 V c 1 t) o d).2 = (outsAt3 V c t.val t.isLt).2 := by
  by_cases h0 : t.val % 49 = 0
  · rw [outsAt3_first V c t h0, step0, if_pos ((hcond3_0 t).mpr h0)]
  · rw [outsAt3_next V c t h0, step0, if_neg (mt (hcond3_0 t).mp h0), hd fun e => h0 (by rw [e])]

theorem out3 (c : Dev nD) (t : Fin cfg3.N) (d2) (d : Vec F S2048x64 .f32)
    (hd : ∀ h : t.val ≠ 0, d = (outsAt3 V c (t.val - 1) (by omega)).2) :
    owns (c : Thread nD τ) (ms3_2 t) fullShare (step0 (grid3.coords t) (iblk3 V c 0 t) (iblk3 V c 1 t) ((dat3 V c).before 2 t d2) d).1
      ⊢ (dat3 V c).leavesExact 2 t := by
  by_cases h1 : t.val % 49 = 48
  · rw [show (dat3 V c).leavesExact 2 t = owns (c : Thread nD τ) (ms3_2 t) fullShare ((dat3 V c).after 2 t) from by
        unfold Dat.leavesExact; rw [liveAt3_2 _ ((hcond3_1 t).mpr h1)], after3_2, outsAt3_last V c t h1, ← acc3 V c t _ d hd, step0, if_pos (show cond0_1 _ from (hcond3_1 t).mpr h1)]
  · rw [Dat.leavesExact_idle (dat3 V c) 2 t (idleAt3_2 _ (mt (hcond3_1 t).mp h1)) (noFlush3_2 t (mt (hcond3_1 t).mp h1)), step0, if_neg (show ¬cond0_1 _ from mt (hcond3_1 t).mp h1)]
    iintro H; iexists _; iexact H

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  rw [show cc3__gather_kernel (F := F) = kern0 from rfl]
  simp only [before3_0, before3_1]
  rw [show (dat3 V c).owesAt () t.succ = (dat3 V c).owesAt () t.castSucc from rfl]
  rw [show (dat3 V c).Φ t.succ = PhiS3 V c (t.val + 1) t.isLt from rfl,
    show (dat3 V c).Φ t.castSucc = PhiS3 V c t.val (Nat.le_of_lt t.isLt) from by dsimp only [dat3]; simp only [Fin.coe_castSucc]]
  unfold PhiS3
  rw [show (dat3 V c).leavesExact 0 t = owns (c : Thread nD τ) (ms3_0 t) fullShare ((dat3 V c).after 0 t) from by
          unfold Dat.leavesExact; rw [liveAt3_0 t], after3_0]
  rw [show (dat3 V c).leavesExact 1 t = owns (c : Thread nD τ) (ms3_1 t) fullShare ((dat3 V c).after 1 t) from by
          unfold Dat.leavesExact; rw [liveAt3_1 t], after3_1]
  iintro ⟨⟨⟨⟨%ds, %hds, HS⟩, HR⟩, Hg⟩, Ho, ⟨%d0, H0⟩, ⟨%d1, H1⟩, ⟨%d2, H2⟩⟩
  iapply (run0 c (grid3.coords t) _ _ _ _ _ _ _ _ (iblk3 V c 0 t) (iblk3 V c 1 t) ((dat3 V c).before 2 t d2) ds Set.univ _)
  iframe H0 H1 H2 HS
  iintro ⟨H0, H1, H2, HS⟩
  iframe HR Hg Ho H0 H1
  isplitl [HS]
  · iexists _; isplitr; swap; · iexact HS
    ipureintro; exact fun _ => acc3 V c t _ ds hds
  iapply out3 V c t d2 ds hds $$ H2

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = PhiS3 V c 0 (Nat.zero_le _) from rfl, PhiA3_eq]; unfold PhiS3
  iintro ⟨⟨⟨%d, HS⟩, HR⟩, Hg⟩
  iframe HR Hg
  iexists d; isplitr
  · ipureintro; exact fun h => absurd rfl h
  iexact HS

theorem hout3 (c : Dev nD) : (dat3 V c).Φ (Fin.last cfg3.N) ⊢ Pipeline.ΦA spec3 c := by
  rw [show (dat3 V c).Φ (Fin.last cfg3.N) = PhiS3 V c cfg3.N (Nat.le_refl _) from rfl, PhiA3_eq]; unfold PhiS3
  iintro ⟨⟨⟨%d, -, HS⟩, HR⟩, Hg⟩
  iframe HR Hg
  iexists _; iexact HS

end Cert.Kernel.Hand

end
-- ==== Proof.K.R4Runs.lean ====
import proofs.«428353_j4698694222361_2_alg».proof.Proof.Gen.Kernel.Launch
import proofs.«428353_j4698694222361_2_alg».proof.Proof.Gen.Kernel.Skeleton
import proofs.«428353_j4698694222361_2_alg».proof.Proof.K.Sched
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

theorem coords4_1 (t : Fin grid4.N) : (grid4.coords t 1).val = t.val % 782 := by
  show t.val / grid4.stride 1 % grid4.bound 1 = t.val % 782
  rw [show grid4.stride 1 = 1 from by decide, Nat.div_one]; rfl

abbrev cond4_0 (i : grid4.Coords) : Prop := (Scalar.cmpi .ne (Scalar.extui (Scalar.cmpi .eq (BitVec.ofNat 32 (i 1).val) 0#32)) 0#32) = 1#1

abbrev cond4_1 (i : grid4.Coords) : Prop := k4_cond2 i = 1#1

/-- Over the inner coordinate's 782 values: the first condition holds exactly at 0, the second exactly at 781. -/
theorem cond4_iff : ∀ k : Fin 782, ((Scalar.cmpi .ne (Scalar.extui (Scalar.cmpi .eq (BitVec.ofNat 32 k.val) 0#32)) 0#32) = 1#1 ↔ k.val = 0)
    ∧ ((Scalar.cmpi .ne (Scalar.extui (Scalar.cmpi .eq (BitVec.ofNat 32 k.val) 781#32)) 0#32) = 1#1 ↔ k.val = 781) := by
  decide +kernel

theorem hcond4_0 (t : Fin cfg4.N) : cond4_0 (grid4.coords t) ↔ t.val % 782 = 0 :=
  (cond4_iff (grid4.coords t 1)).1.trans (by rw [coords4_1])
theorem hcond4_1 (t : Fin cfg4.N) : cond4_1 (grid4.coords t) ↔ t.val % 782 = 781 :=
  (cond4_iff (grid4.coords t 1)).2.trans (by rw [coords4_1])

abbrev scM4_0 : Memref sig .tc .vmem S2048x64 .f32 := Memref.whole cc4_scratch0
abbrev scM4_1 : Memref sig .tc .vmem S2048x1 .f32 := Memref.whole cc4_scratch1

theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1])
          ∗ (∃ r, prngReg c r)) := by
  unfold Pipeline.ΦA; rw [scopedRest4_split]; simp only [scM4_0, scM4_1, owns_whole]; try rfl

theorem leaves4 {c : Dev nD} (dat : Dat τ (Elt F) Unit ℕ (UR sig nD τ) ℕ cfg4 c) (w : Fin cfg4.W) (hi : ∀ i, cfg4.idle w i = !decide (cond4_1 i))
    (hf : ∀ t : Fin cfg4.N, (cfg4.win w).flush t = true ↔ t.val % 782 = 781) (t : Fin cfg4.N) (d Y) (hY : cond4_1 (grid4.coords t) → Y = dat.after w t) :
    owns (c : Thread nD τ) ((cfg4.win w).stage (cfg4.slots t w)) fullShare (if cond4_1 (grid4.coords t) then Y else dat.before w t d) ⊢ dat.leavesExact w t := by
  by_cases h : cond4_1 (grid4.coords t)
  · rw [if_pos h, hY h]; unfold Dat.leavesExact; rw [(hi _).trans (congrArg (!·) (decide_eq_true h))]; exact Entails.refl _
  · rw [if_neg h, dat.leavesExact_idle w t ((hi _).trans (congrArg (!·) (decide_eq_false h))) (Bool.eq_false_iff.mpr fun e => h ((hcond4_1 t).mpr ((hf t).mp e)))]
    iintro H; iexists d; iexact H

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_of {c : Dev nD} (dat : Dat τ (Elt F) Unit ℕ (UR sig nD τ) ℕ cfg4 c) (hA : ∀ w, dat.A w = V c (Pipeline.arrRef spec4 w))
    (h0 : ∀ t, dat.after 0 t = iblk4 V c 0 t) (h1 : ∀ t, dat.after 1 t = iblk4 V c 1 t) :
    (∀ t d, dat.before 0 t d = iblk4 V c 0 t) ∧ ∀ t d, dat.before 1 t d = iblk4 V c 1 t := by
  constructor <;> intro t d <;>
  exact (dat.before_in_eq_fetched _ rfl (fun _ => rfl) (fun _ _ _ => rfl) (fun t => by (first | rw [h0] | rw [h1]); unfold Dat.blockOf iblk4; rw [hA]; try rfl) t d).trans
    (by unfold Dat.fetched Dat.blockOf iblk4; rw [hA]; try rfl)

end Cert.Kernel.Hand

end
-- ==== Proof.K.R4Body.lean ====
import proofs.«428353_j4698694222361_2_alg».proof.Proof.K.R4Runs
import proofs.«428353_j4698694222361_2_alg».proof.Proof.K.R1RunA

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def step4 (c : Dev nD) (t : Fin cfg4.N) (p : (Vec F S2048x64 .f32 × Vec F S2048x1 .f32) × (Vec F S2048x64 .f32 × Vec F S2048x1 .f32)) : (Vec F S2048x64 .f32 × Vec F S2048x1 .f32) × (Vec F S2048x64 .f32 × Vec F S2048x1 .f32) :=
  ((if cond4_1 (grid4.coords t) then (scr1 (grid4.coords t) (iblk4 V c 0 t) (iblk4 V c 1 t) p.2).1 else p.1.1,
    if cond4_1 (grid4.coords t) then (scr1 (grid4.coords t) (iblk4 V c 0 t) (iblk4 V c 1 t) p.2).2 else p.1.2),
    scr1 (grid4.coords t) (iblk4 V c 0 t) (iblk4 V c 1 t) p.2)

/-- The two output buffers, then the two scratches, after the body at position `n`, starting from zeros. -/
def outsAt4 (c : Dev nD) (n : ℕ) (hn : n < cfg4.N) : (Vec F S2048x64 .f32 × Vec F S2048x1 .f32) × (Vec F S2048x64 .f32 × Vec F S2048x1 .f32) :=
  step4 V c ⟨n, hn⟩ (match n, hn with
    | 0, _ => ((k4_pay1, k4_pay2), (k4_pay1, k4_pay2))
    | k + 1, h => outsAt4 c k (Nat.lt_of_succ_lt h))

theorem outs4_last (c : Dev nD) (t : Fin cfg4.N) (h : cond4_1 (grid4.coords t)) : (outsAt4 V c t.val t.isLt).1 = (outsAt4 V c t.val t.isLt).2 := by
  unfold outsAt4 step4; dsimp only; rw [if_pos h, if_pos h]

def PhiS4 (c : Dev nD) (n : ℕ) : sProp 𝕄 :=
  iprop(∃ s : Vec F S2048x64 .f32 × Vec F S2048x1 .f32,
    ⌜∀ h : n < cfg4.N, scr1 (grid4.coords ⟨n, h⟩) (iblk4 V c 0 ⟨n, h⟩) (iblk4 V c 1 ⟨n, h⟩) s = (outsAt4 V c n h).2⌝
    ∗ owns (c : Thread nD τ) scM4_0 fullShare s.1 ∗ owns (c : Thread nD τ) scM4_1 fullShare s.2
    ∗ Pipeline.scopedRestBut (Ix := Unit) (Name := ℕ) (U := UR sig nD τ) (Lvl := ℕ) (Val := Elt F) spec4 c [cc4_scratch0, cc4_scratch1] ∗ (∃ r, prngReg c r))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1.1
    | ⟨3, _⟩ => (outsAt4 V c t.val t.isLt).1.2
  Φ t := PhiS4 V c t.val
  q _ := fullShare
  owed _ := 0

theorem A_eq4 (c : Dev nD) (w : Fin cfg4.W) : (dat4 V c).A w = V c (Pipeline.arrRef spec4 w) := rfl
theorem q_eq4 (c : Dev nD) (w : Fin cfg4.W) : (dat4 V c).q w = fullShare := rfl
theorem owed_eq4 (c : Dev nD) (t : Fin (cfg4.N + 1)) : (dat4 V c).owed t = 0 := rfl
theorem recorded_eq4 (c : Dev nD) (t : Fin (cfg4.N + 1)) : (dat4 V c).recorded t = Set.univ := rfl
theorem after4_2 (c : Dev nD) (t : Fin cfg4.N) : (dat4 V c).after 2 t = (outsAt4 V c t.val t.isLt).1.1 := rfl
theorem after4_3 (c : Dev nD) (t : Fin cfg4.N) : (dat4 V c).after 3 t = (outsAt4 V c t.val t.isLt).1.2 := rfl

theorem body_obligation4 (c : Dev nD) : BodyObligation (dat4 (F := F) V c) (defs₀ (F := F)) Variants.none () Set.univ := fun t => by
  rw [bigSep_W4, bigSep_W4]
  show _ ⊢ wp _ _ _ (bodyAt4 t) _
  unfold bodyAt4; rw [show cc4__scatter_kernel (F := F) = kern1 from rfl]
  obtain ⟨b0, b1⟩ := before4_of V (dat4 V c) (fun _ => rfl) (fun _ => rfl) fun _ => rfl
  simp only [b0, b1]
  rw [show (dat4 V c).Φ t.castSucc = PhiS4 V c t.val from rfl, show (dat4 V c).Φ t.succ = PhiS4 V c (t.val + 1) from rfl,
    show (dat4 V c).owesAt () t.succ = (dat4 V c).owesAt () t.castSucc from rfl]
  unfold PhiS4
  iintro ⟨⟨%s, %hs, HS0, HS1, Hr, Hg⟩, Ho, ⟨%d0, H0⟩, ⟨%d1, H1⟩, ⟨%d2, H2⟩, ⟨%d3, H3⟩⟩
  iapply run1 c (grid4.coords t) _ _ _ _ _ _ _ _ _ _ _ _ (iblk4 V c 0 t) (iblk4 V c 1 t) _ _ s Set.univ _
  iframe H0 H1 H2 H3 HS0 HS1
  rw [hs t.isLt]
  iintro ⟨H0, H1, H2, H3, HS0, HS1⟩
  isplitl [HS0 HS1 Hr Hg]
  · iexists (outsAt4 V c t.val t.isLt).2; isplitr; · ipureintro; exact fun _ => rfl
    iframe
  iframe Ho
  isplitl [H0]; · iexact H0
  isplitl [H1]; · iexact H1
  isplitl [H2]
  · iapply leaves4 (dat4 V c) 2 (fun _ => rfl) flush4_2 t d2 _ fun h => (congrArg Prod.fst (outs4_last V c t h)).symm
    iexact H2
  iapply leaves4 (dat4 V c) 3 (fun _ => rfl) flush4_3 t d3 _ fun h => (congrArg Prod.snd (outs4_last V c t h)).symm
  iexact H3

theorem hin4 (c : Dev nD) : Pipeline.ΦA spec4 c ⊢ (dat4 V c).Φ 0 := by
  rw [PhiA4_eq]; show _ ⊢ PhiS4 V c 0; unfold PhiS4
  iintro ⟨⟨⟨⟨%d0, HS0⟩, ⟨%d1, HS1⟩⟩, Hr⟩, Hg⟩
  iexists (d0, d1); isplitr
  · ipureintro; intro h; show scr1 _ _ _ _ = scr1 _ _ _ _; unfold scr1; simp only [if_pos ((hcond4_0 ⟨0, h⟩).mpr rfl)]
  iframe

theorem hout4 (c : Dev nD) : (dat4 V c).Φ (Fin.last cfg4.N) ⊢ Pipeline.ΦA spec4 c := by
  rw [PhiA4_eq]; show PhiS4 V c _ ⊢ _; unfold PhiS4
  iintro ⟨%s, -, HS0, HS1, Hr, Hg⟩
  iframe Hr Hg
  isplitl [HS0]; · iexists _; iexact HS0
  iexists _; iexact HS1

end Cert.Kernel.Hand

end
-- ==== Proof.K.R5Body.lean ====
import proofs.«428353_j4698694222361_2_alg».proof.Proof.Gen.Kernel.Launch
import proofs.«428353_j4698694222361_2_alg».proof.Proof.Gen.Kernel.Skeleton
import proofs.«428353_j4698694222361_2_alg».proof.Proof.K.Sched
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem hz5 : (![0, 0] : Fin 2 → Nat) = fun _ => 0 := funext fun a => by fin_cases a <;> rfl

abbrev r5_a : Rect S2048x64 := Rect.unit (s := S2048x64) ![0, 0] S2048x64.size inb_S2048x64_S2048x64_0_0
abbrev r5_d : Rect S2048x1 := Rect.unit (s := S2048x1) ![0, 0] S2048x1.size inb_S2048x1_S2048x1_0_0
abbrev r5_m : Rect S64x40 := Rect.unit (s := S64x40) ![0, 0] S64x40.size inb_S64x40_S64x40_0_0
abbrev r5_b : Rect S1x40 := Rect.unit (s := S1x40) ![0, 0] S1x40.size inb_S1x40_S1x40_0_0
abbrev r5_o : Rect S2048x40 := Rect.unit (s := S2048x40) ![0, 0] S2048x40.size inb_S2048x40_S2048x40_0_0

section
variable (x0 x1 : Vec F S2048x64 .f32) (x2 : Vec F S2048x1 .f32) (x3 : Vec F S64x40 .f32) (x4 : Vec F S1x40 .f32) (x5 : Vec F S64x40 .f32)

/-- The output buffer after the body: its one whole store, the payload of the six whole loads. -/
def out5_6 : Vec F S2048x40 .f32 :=
  View.canon [⟨r5_o, k5_pay1 (View.ld x1 r5_a) (View.ld x2 r5_d) (View.ld x0 r5_a) (View.ld x3 r5_m) (View.ld x5 r5_m) (View.ld x4 r5_b)⟩]

/-- A whole load reads the block itself and one whole store leaves its payload. -/
theorem out5_6_eq : out5_6 x0 x1 x2 x3 x4 x5 = k5_pay1 x1 x2 x0 x3 x5 x4 := by
  unfold out5_6
  rw [View.canon_unit_zero hz5, View.ld_unit_zero hz5, View.ld_unit_zero hz5, View.ld_unit_zero hz5,
    View.ld_unit_zero hz5, View.ld_unit_zero hz5, View.ld_unit_zero hz5]

set_option maxHeartbeats 1000000 in
theorem sound_kernel5 (c : Dev nD) (E : Set ℕ) (i : grid5.Coords) (arg1 : Memref sig .tc .vmem S2048x64 .f32) (harg1 : arg1.IsWhole) (arg2 : Memref sig .tc .vmem S2048x64 .f32) (harg2 : arg2.IsWhole) (arg3 : Memref sig .tc .vmem S2048x1 .f32) (harg3 : arg3.IsWhole) (arg4 : Memref sig .tc .vmem S64x40 .f32) (harg4 : arg4.IsWhole) (arg5 : Memref sig .tc .vmem S1x40 .f32) (harg5 : arg5.IsWhole) (arg6 : Memref sig .tc .vmem S64x40 .f32) (harg6 : arg6.IsWhole) (arg7 : Memref sig .tc .vmem S2048x40 .f32) (harg7 : arg7.IsWhole)
    (K : PUnit → sProp 𝕄) :
    iprop(owns c arg1 fullShare x0 ∗ owns c arg2 fullShare x1 ∗ owns c arg3 fullShare x2 ∗ owns c arg4 fullShare x3 ∗ owns c arg5 fullShare x4 ∗ owns c arg6 fullShare x5 ∗ (∃ d, owns c arg7 fullShare d)
        ∗ (iprop(owns c arg1 fullShare x0 ∗ owns c arg2 fullShare x1 ∗ owns c arg3 fullShare x2 ∗ owns c arg4 fullShare x3 ∗ owns c arg5 fullShare x4 ∗ owns c arg6 fullShare x5 ∗ owns c arg7 fullShare (out5_6 x0 x1 x2 x3 x4 x5)) -∗ K ⟨⟩))
      ⊢ wp frame (wpE (defs₀ (F := F)) Variants.none c none) E (cc5__combine_kernel i arg1 harg1 arg2 harg2 arg3 harg3 arg4 harg4 arg5 harg5 arg6 harg6 arg7 harg7) K := by
  simp only [cc5__combine_kernel_eq_skeleton]; unfold cc5__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]; · iexists f0; iframe; ipureintro; rfl
  isplitl [H1]; · iexists f1; iframe; ipureintro; rfl
  isplitl [H2]; · iexists f2; iframe; ipureintro; rfl
  isplitl [H3]; · iexists f3; iframe; ipureintro; rfl
  isplitl [H4]; · iexists f4; iframe; ipureintro; rfl
  isplitl [H5]; · iexists f5; iframe; ipureintro; rfl
  iexists _; iframe; ipureintro
  exact View.read_writes_eq_canon _ _ _ (View.cover_of_tiled [⟨r5_o, _⟩] S2048x40.size (by rfl))

end

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

theorem A_eq5 (c : Dev nD) (w : Fin cfg5.W) : (dat5 V c).A w = V c (Pipeline.arrRef spec5 w) := by dsimp only [dat5]
theorem q_eq5 (c : Dev nD) (w : Fin cfg5.W) : (dat5 V c).q w = fullShare := by dsimp only [dat5]
theorem owed_eq5 (c : Dev nD) (t : Fin (cfg5.N + 1)) : (dat5 V c).owed t = 0 := by dsimp only [dat5]
theorem recorded_eq5 (c : Dev nD) (t : Fin (cfg5.N + 1)) : (dat5 V c).recorded t = Set.univ := by dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = out5_6 (iblk5 V c 0 t) (iblk5 V c 1 t) (iblk5 V c 2 t) (iblk5 V c 3 t) (iblk5 V c 4 t) (iblk5 V c 5 t) := by dsimp only [dat5]

theorem before5 (c : Dev nD) (t : Fin cfg5.N) :
    (∀ d, (dat5 V c).before 0 t d = iblk5 V c 0 t) ∧ (∀ d, (dat5 V c).before 1 t d = iblk5 V c 1 t)
    ∧ (∀ d, (dat5 V c).before 2 t d = iblk5 V c 2 t) ∧ (∀ d, (dat5 V c).before 3 t d = iblk5 V c 3 t)
    ∧ (∀ d, (dat5 V c).before 4 t d = iblk5 V c 4 t) ∧ (∀ d, (dat5 V c).before 5 t d = iblk5 V c 5 t) := by
  refine ⟨?_, ?_, ?_, ?_, ?_, ?_⟩ <;> intro d <;>
    exact ((dat5 V c).before_in_eq_fetched _ rfl (fun _ => rfl) (fun _ _ _ => rfl) (fun t => by dsimp only [dat5]; rfl) t d).trans
      (by dsimp only [dat5]; rfl)

theorem body_obligation5 (c : Dev nD) : BodyObligation (dat5 (F := F) V c) (defs₀ (F := F)) Variants.none () Set.univ := fun t => by
  rw [bigSep_W5, bigSep_W5]
  obtain ⟨b0, b1, b2, b3, b4, b5⟩ := before5 V c t
  simp only [b0, b1, b2, b3, b4, b5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  show _ ⊢ wp frame _ _ (bodyAt5 t) _
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 (iblk5 V c 0 t) (iblk5 V c 1 t) (iblk5 V c 2 t) (iblk5 V c 3 t) (iblk5 V c 4 t) (iblk5 V c 5 t) c Set.univ)
  iframe H0 H1 H2 H3 H4 H5
  isplitl [H6]; · iexists _; iexact H6
  iintro ⟨H0, H1, H2, H3, H4, H5, H6⟩
  iframe

theorem hin5 (c : Dev nD) : Pipeline.ΦA spec5 c ⊢ (dat5 V c).Φ 0 := BIBase.Entails.rfl
theorem hout5 (c : Dev nD) : (dat5 V c).Φ (Fin.last cfg5.N) ⊢ Pipeline.ΦA spec5 c := BIBase.Entails.rfl

end Cert.Kernel.Hand

end
-- ==== Proof.K.Run.lean ====
import proofs.«428353_j4698694222361_2_alg».proof.Proof.K.R0Body
import proofs.«428353_j4698694222361_2_alg».proof.Proof.K.R1Body
import proofs.«428353_j4698694222361_2_alg».proof.Proof.K.R2Body
import proofs.«428353_j4698694222361_2_alg».proof.Proof.K.R3Body
import proofs.«428353_j4698694222361_2_alg».proof.Proof.K.R4Body
import proofs.«428353_j4698694222361_2_alg».proof.Proof.K.R5Body
import proofs.«428353_j4698694222361_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem owesAt_of_zero {cfg : Cfg sig Λ₀} {c : Dev nD} (dat : Dat τ (Elt F) Unit ℕ (UR sig nD τ) ℕ cfg c) (t : Fin (cfg.N + 1))
    (h0 : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin
  rw [h0]
  iintro ⟨%W, HO⟩; iexists W; isplitr
  · ipureintro; intro x _; exact Or.inl (hr ▸ Set.mem_univ x)
  iexact HO

theorem zero_of_owesAt {cfg : Cfg sig Λ₀} {c : Dev nD} (dat : Dat τ (Elt F) Unit ℕ (UR sig nD τ) ℕ cfg c) (t : Fin (cfg.N + 1))
    (h0 : dat.owed t = 0) :
    dat.owesAt () t ⊢ (iprop(∃ W, owes (c : Thread nD τ) (0 : CellTallies nD τ sig Unit) W) : sProp 𝕄) := by
  unfold Pipeline.Dat.owesAt Pipeline.owesWithin
  rw [h0]
  iintro ⟨%W, -, HO⟩; iexists W; iexact HO

abbrev W0 : Dev nD → Valuation τ sig (Elt F) := fun c b => m ((c : Dev nD), b)
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev W4 : Dev nD → Valuation τ sig (Elt F) := fun c => StableHlo.after hostOps0_3 (W3 m c)
abbrev W5 : Dev nD → Valuation τ sig (Elt F) := fun c => StableHlo.after hostOps0_4 (W4 m c)
abbrev W6 : Dev nD → Valuation τ sig (Elt F) := fun c => StableHlo.after hostOps0_5 (W5 m c)
abbrev W7 : Dev nD → Valuation τ sig (Elt F) := fun c => StableHlo.after hostOps0_6 (W6 m c)
abbrev Vin0 : (c : Dev nD) → (b : Ref sig .tc) → Buf (Elt F) ((c : Thread nD τ).loc b) := fun c b => W7 m c b

def W8 (c : Dev nD) : Valuation τ sig (Elt F) :=
  Pipeline.withArrays spec0 c (W7 m c) fun w => (dat0 (Vin0 m) c).arrAt w cfg0.N
theorem W8_arr (c : Dev nD) (w : Fin cfg0.W) :
    W8 m c (Proc.devRef .tc (Pipeline.arrRef spec0 w)) = (dat0 (Vin0 m) c).arrAt w cfg0.N :=
  Pipeline.withArrays_arr spec0 launch0.win.arr_inj c _ _ w

abbrev Vin1 : (c : Dev nD) → (b : Ref sig .tc) → Buf (Elt F) ((c : Thread nD τ).loc b) := fun c b => W8 m c b
def W9 (c : Dev nD) : Valuation τ sig (Elt F) :=
  Pipeline.withArrays spec1 c (W8 m c) fun w => (dat1 (Vin1 m) c).arrAt w cfg1.N
theorem W9_arr (c : Dev nD) (w : Fin cfg1.W) :
    W9 m c (Proc.devRef .tc (Pipeline.arrRef spec1 w)) = (dat1 (Vin1 m) c).arrAt w cfg1.N :=
  Pipeline.withArrays_arr spec1 launch1.win.arr_inj c _ _ w

abbrev W10 : Dev nD → Valuation τ sig (Elt F) := fun c => StableHlo.after hostOps2 (W9 m c)
abbrev Vin2 : (c : Dev nD) → (b : Ref sig .tc) → Buf (Elt F) ((c : Thread nD τ).loc b) := fun c b => W10 m c b
def W11 (c : Dev nD) : Valuation τ sig (Elt F) :=
  Pipeline.withArrays spec2 c (W10 m c) fun w => (dat2 (Vin2 m) c).arrAt w cfg2.N
theorem W11_arr (c : Dev nD) (w : Fin cfg2.W) :
    W11 m c (Proc.devRef .tc (Pipeline.arrRef spec2 w)) = (dat2 (Vin2 m) c).arrAt w cfg2.N :=
  Pipeline.withArrays_arr spec2 launch2.win.arr_inj c _ _ w

abbrev W12 : Dev nD → Valuation τ sig (Elt F) := fun c => StableHlo.after hostOps3 (W11 m c)
abbrev Vin3 : (c : Dev nD) → (b : Ref sig .tc) → Buf (Elt F) ((c : Thread nD τ).loc b) := fun c b => W12 m c b
def W13 (c : Dev nD) : Valuation τ sig (Elt F) :=
  Pipeline.withArrays spec3 c (W12 m c) fun w => (dat3 (Vin3 m) c).arrAt w cfg3.N
theorem W13_arr (c : Dev nD) (w : Fin cfg3.W) :
    W13 m c (Proc.devRef .tc (Pipeline.arrRef spec3 w)) = (dat3 (Vin3 m) c).arrAt w cfg3.N :=
  Pipeline.withArrays_arr spec3 launch3.win.arr_inj c _ _ w

abbrev Vin4 : (c : Dev nD) → (b : Ref sig .tc) → Buf (Elt F) ((c : Thread nD τ).loc b) := fun c b => W13 m c b
def W14 (c : Dev nD) : Valuation τ sig (Elt F) :=
  Pipeline.withArrays spec4 c (W13 m c) fun w => (dat4 (Vin4 m) c).arrAt w cfg4.N
theorem W14_arr (c : Dev nD) (w : Fin cfg4.W) :
    W14 m c (Proc.devRef .tc (Pipeline.arrRef spec4 w)) = (dat4 (Vin4 m) c).arrAt w cfg4.N :=
  Pipeline.withArrays_arr spec4 launch4.win.arr_inj c _ _ w

abbrev W15 : Dev nD → Valuation τ sig (Elt F) := fun c => StableHlo.after hostOps5 (W14 m c)
abbrev Vin5 : (c : Dev nD) → (b : Ref sig .tc) → Buf (Elt F) ((c : Thread nD τ).loc b) := fun c b => W15 m c b
def W16 (c : Dev nD) : Valuation τ sig (Elt F) :=
  Pipeline.withArrays spec5 c (W15 m c) fun w => (dat5 (Vin5 m) c).arrAt w cfg5.N
theorem W16_arr (c : Dev nD) (w : Fin cfg5.W) :
    W16 m c (Proc.devRef .tc (Pipeline.arrRef spec5 w)) = (dat5 (Vin5 m) c).arrAt w cfg5.N :=
  Pipeline.withArrays_arr spec5 launch5.win.arr_inj c _ _ w

abbrev W17 : Dev nD → Valuation τ sig (Elt F) := fun c => StableHlo.after hostOps6 (W16 m c)

section Launch

variable (c : Dev nD) (r : Ref sig .tc)

abbrev Unwritten7 : Prop := r ∉ hostOps0_W ∧ r ∉ hostOps0_1_W ∧ r ∉ hostOps0_2_W ∧ r ∉ hostOps0_3_W ∧ r ∉ hostOps0_4_W
  ∧ r ∉ hostOps0_5_W ∧ r ∉ hostOps0_6_W
abbrev Unwritten9 : Prop := Unwritten7 r ∧ (∀ w, Pipeline.arrRef spec0 w ≠ r) ∧ ∀ w, Pipeline.arrRef spec1 w ≠ r
abbrev Unwritten14 : Prop := Unwritten9 r ∧ r ∉ hostOps2_W ∧ r ∉ hostOps3_W ∧ (∀ w, Pipeline.arrRef spec2 w ≠ r)
  ∧ (∀ w, Pipeline.arrRef spec3 w ≠ r) ∧ ∀ w, Pipeline.arrRef spec4 w ≠ r
abbrev Unwritten17 : Prop := Unwritten14 r ∧ r ∉ hostOps5_W ∧ r ∉ hostOps6_W ∧ ∀ w, Pipeline.arrRef spec5 w ≠ r

theorem W7_launch : Unwritten7 r → W7 m c (Proc.devRef .tc r) = m ((c : Thread nD τ).loc r)
  | ⟨a0, a1, a2, a3, a4, a5, a6⟩ =>
    (V7_of m c r a6).trans <| (V6_of m c r a5).trans <| (V5_of m c r a4).trans <| (V4_of m c r a3).trans <|
    (V3_of m c r a2).trans <| (V2_of m c r a1).trans (V1_of m c r a0)

theorem W9_launch : Unwritten9 r → W9 m c (Proc.devRef .tc r) = m ((c : Thread nD τ).loc r)
  | ⟨h, b0, b1⟩ => (Pipeline.withArrays_of_ne spec1 c _ _ r b1).trans <| (Pipeline.withArrays_of_ne spec0 c _ _ r b0).trans (W7_launch m c r h)

theorem W14_launch : Unwritten14 r → W14 m c (Proc.devRef .tc r) = m ((c : Thread nD τ).loc r)
  | ⟨h, a9, a11, b2, b3, b4⟩ =>
    (Pipeline.withArrays_of_ne spec4 c _ _ r b4).trans <| (Pipeline.withArrays_of_ne spec3 c _ _ r b3).trans <| (StableHlo.after_of_writes_sub hostOps3 _ hostOps3_writes a11).trans <|
    (Pipeline.withArrays_of_ne spec2 c _ _ r b2).trans <| (StableHlo.after_of_writes_sub hostOps2 _ hostOps2_writes a9).trans (W9_launch m c r h)

theorem W17_launch : Unwritten17 r → W17 m c (Proc.devRef .tc r) = m ((c : Thread nD τ).loc r)
  | ⟨h, a14, a16, b5⟩ =>
    (StableHlo.after_of_writes_sub hostOps6 _ hostOps6_writes a16).trans <| (Pipeline.withArrays_of_ne spec5 c _ _ r b5).trans <|
    (StableHlo.after_of_writes_sub hostOps5 _ hostOps5_writes a14).trans (W14_launch m c r h)

end Launch

theorem W17_arg0 (c : Dev nD) : W17 m c (Proc.devRef .tc main_arg0) = m ((c : Thread nD τ).loc main_arg0) :=
  W17_launch m c _ (by decide)
theorem W17_arg1 (c : Dev nD) : W17 m c (Proc.devRef .tc main_arg1) = m ((c : Thread nD τ).loc main_arg1) :=
  W17_launch m c _ (by decide)
theorem W17_arg2 (c : Dev nD) : W17 m c (Proc.devRef .tc main_arg2) = m ((c : Thread nD τ).loc main_arg2) :=
  W17_launch m c _ (by decide)
theorem W17_arg3 (c : Dev nD) : W17 m c (Proc.devRef .tc main_arg3) = m ((c : Thread nD τ).loc main_arg3) :=
  W17_launch m c _ (by decide)
theorem W17_arg4 (c : Dev nD) : W17 m c (Proc.devRef .tc main_arg4) = m ((c : Thread nD τ).loc main_arg4) :=
  W17_launch m c _ (by decide)
theorem W17_arg5 (c : Dev nD) : W17 m c (Proc.devRef .tc main_arg5) = m ((c : Thread nD τ).loc main_arg5) :=
  W17_launch m c _ (by decide)
theorem W17_arg6 (c : Dev nD) : W17 m c (Proc.devRef .tc main_arg6) = m ((c : Thread nD τ).loc main_arg6) :=
  W17_launch m c _ (by decide)
theorem W17_arg7 (c : Dev nD) : W17 m c (Proc.devRef .tc main_arg7) = m ((c : Thread nD τ).loc main_arg7) :=
  W17_launch m c _ (by decide)

def pdats : (p : Fin 6) → (c : Dev nD) → Dat τ (Elt F) Unit ℕ (UR sig nD τ) ℕ (Pipeline.pin (pcfgs (F := F)) adm p) c
  | ⟨0, _⟩ => fun c => dat0 (Vin0 m) c
  | ⟨1, _⟩ => fun c => dat1 (Vin1 m) c
  | ⟨2, _⟩ => fun c => dat2 (Vin2 m) c
  | ⟨3, _⟩ => fun c => dat3 (Vin3 m) c
  | ⟨4, _⟩ => fun c => dat4 (Vin4 m) c
  | ⟨5, _⟩ => fun c => dat5 (Vin5 m) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W17 m c) ∗ ∃ r, prngReg c r)

section RegionSteps

variable (pd : (p : Fin 6) → (c : Dev nD) → Dat τ (Elt F) Unit ℕ (UR sig nD τ) ℕ (Pipeline.pin (pcfgs (F := F)) adm p) c) (p : Fin 6)
  (hw : Pipeline.WinFacts (Pipeline.pin (pcfgs (F := F)) adm p).spec)
  (harr : ∀ w, ((Pipeline.pin (pcfgs (F := F)) adm p).spec w).arr.IsWhole)
  (c : Dev nD) (Wv Wv' : Valuation τ sig (Elt F))

set_option backward.isDefEq.respectTransparency.types false in
include hw harr in

theorem region_entry
    (hA : ∀ w, (pd p c).A w = Wv (Proc.devRef .tc (Pipeline.arrRef (Pipeline.pin (pcfgs (F := F)) adm p).spec w)))
    (hq : ∀ w, (pd p c).q w = fullShare) (h0 : (pd p c).owed 0 = 0) (hr : (pd p c).recorded 0 = Set.univ) :
    iprop(iprop(StableHlo.held (c : Thread nD τ) (Pipeline.ucRefs τ sig) Wv ∗ R c)
        ∗ Pipeline.ownSems0 (Ix := Unit) (Val := Elt F) (Name := ℕ) (U := UR sig nD τ) (Lvl := ℕ) (fun k : PEmpty => k.elim) c ∗ levAts L lv)
      ⊢ |={Set.univ}=> iprop((pd p c).arrays ((pd p c).arrAt · 0) ∗ Pipeline.prefHeld (pcfgs (F := F) p).pre c (fun _ => fullShare) (adm p).1
        ∗ (pd p c).owesAt () 0 ∗ (∃ r, prngReg c r)
        ∗ Pipeline.unscopedRest (Ix := Unit) (Name := ℕ) (U := UR sig nD τ) (Lvl := ℕ) (Pipeline.pin (pcfgs (F := F)) adm p).spec c (fun b => Wv b)) := by
  have hsplit := Pipeline.arrays_of_unscopedBufs (p := p) (pcfgs (F := F)) adm pd hw harr c ((pd p c).share_full hq) (fun b => Wv b) hA
  rw [Pipeline.unscopedBufs_held] at hsplit
  have hO := owesAt_of_zero (pd p c) 0 h0 hr
  iintro ⟨⟨Hub, Hp, HO⟩, -, -⟩
  ihave H := hsplit $$ Hub
  icases H with ⟨Ha, Hrest⟩
  imodintro
  isplitl [Ha]; · iexact Ha
  isplitr; · unfold Pipeline.prefHeld; rw [show (Finset.univ : Finset (Fin 0)) = ∅ from rfl, BI.bigSep_empty]; iempintro
  isplitl [HO]; · iapply hO; iexact HO
  isplitl [Hp]; · iexact Hp
  iexact Hrest

theorem region_in (hΦ : Pipeline.ΦA (Pipeline.pin (pcfgs (F := F)) adm p).spec c ⊢ (pd p c).Φ 0) :
    iprop((∃ r, prngReg c r) ∗ Pipeline.prefHeld (pcfgs (F := F) p).pre c (fun _ => fullShare) (adm p).1
        ∗ Pipeline.scopedRest (Pipeline.pin (pcfgs (F := F)) adm p).spec c) ⊢ (pd p c).Φ 0 := by
  refine BIBase.Entails.trans ?_ hΦ
  unfold Pipeline.ΦA
  iintro ⟨Hp, -, Hr⟩
  isplitl [Hr]; · iexact Hr
  iexact Hp

theorem region_out (hΦ : (pd p c).Φ (Fin.last (Pipeline.pin (pcfgs (F := F)) adm p).N) ⊢ Pipeline.ΦA (Pipeline.pin (pcfgs (F := F)) adm p).spec c) :
    (pd p c).Φ (Fin.last (Pipeline.pin (pcfgs (F := F)) adm p).N)
      ⊢ iprop((∃ r, prngReg c r) ∗ Pipeline.ownSems0 (fun k : PEmpty => k.elim) c ∗ Pipeline.scopedRest (Pipeline.pin (pcfgs (F := F)) adm p).spec c) := by
  rw [Pipeline.ownSems0_none]
  refine BIBase.Entails.trans hΦ ?_
  unfold Pipeline.ΦA
  iintro ⟨Hr, Hp⟩
  isplitl [Hp]; · iexact Hp
  isplitr; · iempintro
  iexact Hr

set_option backward.isDefEq.respectTransparency.types false in
include hw harr in

theorem region_exit (hq : ∀ w, (pd p c).q w = fullShare) (h0 : (pd p c).owed (Fin.last _) = 0)
    (hF : ∀ w, Wv' (Proc.devRef .tc (Pipeline.arrRef (Pipeline.pin (pcfgs (F := F)) adm p).spec w)) = (pd p c).arrAt w (Pipeline.pin (pcfgs (F := F)) adm p).N)
    (hne : ∀ b : Ref sig .tc, (∀ w, Pipeline.arrRef (Pipeline.pin (pcfgs (F := F)) adm p).spec w ≠ b) → Wv' (Proc.devRef .tc b) = Wv (Proc.devRef .tc b)) :
    iprop((pd p c).arrays ((pd p c).arrAt · (Pipeline.pin (pcfgs (F := F)) adm p).N) ∗ (pd p c).owesAt () (Fin.last (Pipeline.pin (pcfgs (F := F)) adm p).N)
        ∗ (∃ r, prngReg c r)
        ∗ Pipeline.unscopedRest (Ix := Unit) (Name := ℕ) (U := UR sig nD τ) (Lvl := ℕ) (Pipeline.pin (pcfgs (F := F)) adm p).spec c (fun b => Wv b))
      ⊢ |={Set.univ}=> iprop(StableHlo.held (c : Thread nD τ) (Pipeline.ucRefs τ sig) Wv' ∗ R c) := by
  have hjoin := Pipeline.unscopedBufs_of_arrays (p := p) (pcfgs (F := F)) adm (Ix := Unit) (Name := ℕ) (U := UR sig nD τ) (Lvl := ℕ)
    hw harr c pd ((pd p c).share_full hq) (fun b => Wv b) (fun b => Wv' b) ((pd p c).arrAt · (Pipeline.pin (pcfgs (F := F)) adm p).N)
    (fun w => (hF w).symm) fun b hb => hne b fun w e => hb (Finset.mem_image.mpr ⟨w, Finset.mem_univ _, e⟩)
  rw [Pipeline.unscopedBufs_held] at hjoin
  have hO := zero_of_owesAt (pd p c) (Fin.last _) h0
  iintro ⟨Ha, HO, HY, Hrest⟩
  imodintro
  isplitl [Ha Hrest]
  · iapply hjoin; isplitl [Ha] <;> iassumption
  isplitl [HY]; · iexact HY
  iapply hO; iexact HO

end RegionSteps

set_option backward.isDefEq.respectTransparency.types false in
def regOf (p : Fin 6) (lf : Pipeline.LaunchFacts (nD := nD) (τ := τ) cfgs p) (Wv Wv' : Dev nD → Valuation τ sig (Elt F))
    (hbody : ∀ c, Pipeline.BodyObligationLoose (pdats m p c) (defs₀ (F := F)) 𝒱₀ () Set.univ)
    (hA : ∀ c w, (pdats m p c).A w = Wv c (Proc.devRef .tc (Pipeline.arrRef (cfgs p).spec w)))
    (hq : ∀ c w, (pdats m p c).q w = fullShare) (h0 : ∀ c t, (pdats m p c).owed t = 0)
    (hr : ∀ c t, (pdats m p c).recorded t = Set.univ)
    (hin : ∀ c, Pipeline.ΦA (cfgs p).spec c ⊢ (pdats m p c).Φ 0)
    (hout : ∀ c, (pdats m p c).Φ (Fin.last (cfgs p).N) ⊢ Pipeline.ΦA (cfgs p).spec c)
    (hF : ∀ c w, Wv' c (Proc.devRef .tc (Pipeline.arrRef (cfgs p).spec w)) = (pdats m p c).arrAt w (cfgs p).N)
    (hne : ∀ c (b : Ref sig .tc), (∀ w, Pipeline.arrRef (cfgs p).spec w ≠ b) → Wv' c (Proc.devRef .tc b) = Wv c (Proc.devRef .tc b)) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ L lv p h0
  pre c := iprop(StableHlo.held (c : Thread nD τ) (Pipeline.ucRefs τ sig) (Wv c) ∗ R c)
  post c := iprop(StableHlo.held (c : Thread nD τ) (Pipeline.ucRefs τ sig) (Wv' c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => Wv c b
  hentry c := region_entry (pdats m) p lf.win lf.arr_whole c (Wv c) (hA c) (hq c) (h0 c 0) (hr c 0)
  hin c := region_in (pdats m) p c (hin c)
  hout c := region_out (pdats m) p c (hout c)
  hexit c := region_exit (pdats m) p lf.win lf.arr_whole c (Wv c) (Wv' c) (hq c) (h0 c _) (hF c) (hne c)

set_option backward.isDefEq.respectTransparency.types false in
abbrev runSegs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .host (hseg hostOps0_5 hostOps0_5_sub hostOps0_5_fresh (W5 m)),
    .host (hseg hostOps0_6 hostOps0_6_sub hostOps0_6_fresh (W6 m)),
    .region (regOf m 0 launch0 (W7 m) (W8 m) (fun c => (body_obligation0 (Vin0 m) c).loose) (A_eq0 (Vin0 m))
      (q_eq0 (Vin0 m)) (owed_eq0 (Vin0 m)) (recorded_eq0 (Vin0 m)) (hin0 (Vin0 m)) (hout0 (Vin0 m)) (W8_arr m) fun c => Pipeline.withArrays_of_ne spec0 c _ _),
    .region (regOf m 1 launch1 (W8 m) (W9 m) (fun c => (body_obligation1 (Vin1 m) c).loose) (A_eq1 (Vin1 m))
      (q_eq1 (Vin1 m)) (owed_eq1 (Vin1 m)) (recorded_eq1 (Vin1 m)) (hin1 (Vin1 m)) (hout1 (Vin1 m)) (W9_arr m) fun c => Pipeline.withArrays_of_ne spec1 c _ _),
    .host (hseg hostOps2 hostOps2_sub hostOps2_fresh (W9 m)),
    .region (regOf m 2 launch2 (W10 m) (W11 m) (fun c => (body_obligation2 (Vin2 m) c).loose) (A_eq2 (Vin2 m))
      (q_eq2 (Vin2 m)) (owed_eq2 (Vin2 m)) (recorded_eq2 (Vin2 m)) (hin2 (Vin2 m)) (hout2 (Vin2 m)) (W11_arr m) fun c => Pipeline.withArrays_of_ne spec2 c _ _),
    .host (hseg hostOps3 hostOps3_sub hostOps3_fresh (W11 m)),
    .region (regOf m 3 launch3 (W12 m) (W13 m) (fun c => (body_obligation3 (Vin3 m) c).loose) (A_eq3 (Vin3 m))
      (q_eq3 (Vin3 m)) (owed_eq3 (Vin3 m)) (recorded_eq3 (Vin3 m)) (hin3 (Vin3 m)) (hout3 (Vin3 m)) (W13_arr m) fun c => Pipeline.withArrays_of_ne spec3 c _ _),
    .region (regOf m 4 launch4 (W13 m) (W14 m) (fun c => (body_obligation4 (Vin4 m) c).loose) (A_eq4 (Vin4 m))
      (q_eq4 (Vin4 m)) (owed_eq4 (Vin4 m)) (recorded_eq4 (Vin4 m)) (hin4 (Vin4 m)) (hout4 (Vin4 m)) (W14_arr m) fun c => Pipeline.withArrays_of_ne spec4 c _ _),
    .host (hseg hostOps5 hostOps5_sub hostOps5_fresh (W14 m)),
    .region (regOf m 5 launch5 (W15 m) (W16 m) (fun c => (body_obligation5 (Vin5 m) c).loose) (A_eq5 (Vin5 m))
      (q_eq5 (Vin5 m)) (owed_eq5 (Vin5 m)) (recorded_eq5 (Vin5 m)) (hin5 (Vin5 m)) (hout5 (Vin5 m)) (W16_arr m) fun c => Pipeline.withArrays_of_ne spec5 c _ _),
    .host (hseg hostOps6 hostOps6_sub hostOps6_fresh (W16 m)) ]

theorem main_run (c : Dev nD) : main (F := F) c = Pipeline.Seg.run (runSegs m) := (main_chain c).trans (by chain_rfl)

theorem last_state (c : Dev nD) :
    iprop(StableHlo.held (c : Thread nD τ) (Pipeline.ucRefs τ sig) (W17 m c) ∗ R c)
      ⊢ (iprop(Tₙ m c ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

set_option backward.isDefEq.respectTransparency.types false in

theorem run_all (ρ : Dev nD → PrngReg) : θ_run defs (onTc (τ := τ) (main (F := F))) ⟨m, fun _ => 0, ρ⟩
    (fun r => ∀ c : Dev nD, ∀ b ∈ Pipeline.ucRefs τ sig, r.2.mem ((c : Thread nD τ).1, b) = W17 m c b) :=
  Pipeline.θ_run_regions_kit (pcfgs (F := F)) adm (pdats m) () cellOf_inj emb₁ defs₀ 𝒱₀ L lv m ρ main (runSegs m)
    (fun c Q => by rw [main_run m c])
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun c => last_state m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m c b)
    (hfin := fun c s' => by
      iintro ⟨⟨Hh, -⟩, HSI⟩
      unfold StableHlo.held
      imodintro
      iapply (pointsTo_read_all (Pipeline.ucRefs τ sig) (fun b => (((c : Thread nD τ)).1, b)) (W17 m c) s')
      isplitl [Hh] <;> iassumption)
    (hQ := fun s h => h)

end Cert.Kernel.Hand

end
-- ==== Proof.KI.SchedFacts.lean ====
import proofs.«428353_j4698694222361_2_alg».proof.Proof.Gen.KernelIdeal
import Idealize.ShloMosaic.Lib.Pipeline.Kit

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

section Key

variable {G : Pipeline.Grid} {r : Nat} {ix : G.Coords → Fin r → Nat} {a : Fin G.rank}
  (hix : ∀ i i' : G.Coords, ix i = ix i' ↔ i a = i' a)
include hix

theorem fetchOf_iff (t : Fin G.N) : Pipeline.Window.fetchOf G false ix t = true ↔
    t.val = 0 ∨ 0 < t.val ∧ t.val / G.stride a % G.bound a ≠ (t.val - 1) / G.stride a % G.bound a := by
  simp only [Pipeline.Window.fetchOf, Pipeline.Grid.coords, Bool.not_false, Bool.true_and, Bool.or_eq_true, decide_eq_true_eq,
    exists_prop, ne_eq, hix, Fin.ext_iff]

theorem flushOf_iff (t : Fin G.N) : Pipeline.Window.flushOf G true ix t = true ↔
    t.val + 1 = G.N ∨ t.val + 1 < G.N ∧ (t.val + 1) / G.stride a % G.bound a ≠ t.val / G.stride a % G.bound a := by
  simp only [Pipeline.Window.flushOf, Pipeline.Grid.coords, Bool.true_and, Bool.or_eq_true, decide_eq_true_eq,
    exists_prop, ne_eq, hix, Fin.ext_iff]

end Key

theorem vec2_eq_iff {a b a' b' : Nat} : (![a, b] : Fin 2 → Nat) = ![a', b'] ↔ a = a' ∧ b = b' :=
  ⟨fun h => ⟨congrFun h 0, congrFun h 1⟩, by rintro ⟨rfl, rfl⟩; rfl⟩

section Reads

variable {G : Pipeline.Grid} (a : Fin G.rank) (hb : G.bound a ≤ 2 ^ 32) (i i' : G.Coords)
include hb

-- A coordinate below 2³² is read back from its 32-bit word, so an index made of that word and a constant reads the coordinate alone.
theorem reads_fst : (![(BitVec.ofNat 32 (i a).val).toNat, (0#32).toNat] : Fin 2 → Nat)
    = ![(BitVec.ofNat 32 (i' a).val).toNat, (0#32).toNat] ↔ i a = i' a := by
  have := (i a).isLt; have := (i' a).isLt
  simp only [vec2_eq_iff, BitVec.toNat_ofNat, and_true, Fin.ext_iff]; omega

theorem reads_snd : (![(0#32).toNat, (BitVec.ofNat 32 (i a).val).toNat] : Fin 2 → Nat)
    = ![(0#32).toNat, (BitVec.ofNat 32 (i' a).val).toNat] ↔ i a = i' a := by
  have := (i a).isLt; have := (i' a).isLt
  simp only [vec2_eq_iff, BitVec.toNat_ofNat, true_and, Fin.ext_iff]; omega

end Reads

theorem N0 : grid0.N = 38318 := by decide
theorem N1 : grid1.N = 38318 := by decide

section A

variable {r : Nat} (ix : grid0.Coords → Fin r → Nat)

-- On the grid of 782 × 49 points the outer coordinate is t / 49 and the inner one t mod 49.
theorem fetchA_outer (hix : ∀ i i', ix i = ix i' ↔ i 0 = i' 0) (t : Fin grid0.N) :
    Pipeline.Window.fetchOf grid0 false ix t = true ↔ t.val % 49 = 0 := by
  have := t.isLt; have := N0
  rw [fetchOf_iff hix, show grid0.stride 0 = 49 from by decide, show grid0.bound 0 = 782 from rfl]; omega

theorem flushA_outer (hix : ∀ i i', ix i = ix i' ↔ i 0 = i' 0) (t : Fin grid0.N) :
    Pipeline.Window.flushOf grid0 true ix t = true ↔ t.val % 49 = 48 := by
  have := t.isLt; have := N0
  rw [flushOf_iff hix, show grid0.stride 0 = 49 from by decide, show grid0.bound 0 = 782 from rfl]; omega

theorem fetchA_inner (hix : ∀ i i', ix i = ix i' ↔ i 1 = i' 1) (t : Fin grid0.N) :
    Pipeline.Window.fetchOf grid0 false ix t = true := by
  rw [fetchOf_iff hix, show grid0.stride 1 = 1 from by decide, show grid0.bound 1 = 49 from rfl]; omega

end A

section B

variable {r : Nat} (ix : grid1.Coords → Fin r → Nat)

-- On the grid of 49 × 782 points the outer coordinate is t / 782 and the inner one t mod 782.
theorem flushB_outer (hix : ∀ i i', ix i = ix i' ↔ i 0 = i' 0) (t : Fin grid1.N) :
    Pipeline.Window.flushOf grid1 true ix t = true ↔ t.val % 782 = 781 := by
  have := t.isLt; have := N1
  rw [flushOf_iff hix, show grid1.stride 0 = 782 from by decide, show grid1.bound 0 = 49 from rfl]; omega

theorem fetchB_inner (hix : ∀ i i', ix i = ix i' ↔ i 1 = i' 1) (t : Fin grid1.N) :
    Pipeline.Window.fetchOf grid1 false ix t = true := by
  rw [fetchOf_iff hix, show grid1.stride 1 = 1 from by decide, show grid1.bound 1 = 782 from rfl]; omega

end B

theorem fetch0_0_arith : ∀ t : Fin cfg0.N, (cfg0.win 0).fetch t = true ↔ t.val % 49 = 0 :=
  fetchA_outer cc0_transform_0 (reads_fst 0 (by decide))
theorem fetch0_1_arith : ∀ t : Fin cfg0.N, (cfg0.win 1).fetch t = true :=
  fetchA_inner cc0_transform_1 (reads_fst 1 (by decide))
theorem flush0_2_arith : ∀ t : Fin cfg0.N, (cfg0.win 2).flush t = true ↔ t.val % 49 = 48 :=
  flushA_outer cc0_transform_2 (reads_fst 0 (by decide))

theorem fetch1_0_arith : ∀ t : Fin cfg1.N, (cfg1.win 0).fetch t = true :=
  fetchB_inner cc1_transform_0 (reads_snd 1 (by decide))
theorem fetch1_1_arith : ∀ t : Fin cfg1.N, (cfg1.win 1).fetch t = true :=
  fetchB_inner cc1_transform_1 (reads_fst 1 (by decide))
theorem flush1_2_arith : ∀ t : Fin cfg1.N, (cfg1.win 2).flush t = true ↔ t.val % 782 = 781 :=
  flushB_outer cc1_transform_2 (reads_fst 0 (by decide))
theorem flush1_3_arith : ∀ t : Fin cfg1.N, (cfg1.win 3).flush t = true ↔ t.val % 782 = 781 :=
  flushB_outer cc1_transform_3 (reads_fst 0 (by decide))

theorem fetch3_0_arith : ∀ t : Fin cfg3.N, (cfg3.win 0).fetch t = true ↔ t.val % 49 = 0 :=
  fetchA_outer cc3_transform_0 (reads_fst 0 (by decide))
theorem fetch3_1_arith : ∀ t : Fin cfg3.N, (cfg3.win 1).fetch t = true :=
  fetchA_inner cc3_transform_1 (reads_fst 1 (by decide))
theorem flush3_2_arith : ∀ t : Fin cfg3.N, (cfg3.win 2).flush t = true ↔ t.val % 49 = 48 :=
  flushA_outer cc3_transform_2 (reads_fst 0 (by decide))

theorem fetch4_0_arith : ∀ t : Fin cfg4.N, (cfg4.win 0).fetch t = true :=
  fetchB_inner cc4_transform_0 (reads_snd 1 (by decide))
theorem fetch4_1_arith : ∀ t : Fin cfg4.N, (cfg4.win 1).fetch t = true :=
  fetchB_inner cc4_transform_1 (reads_fst 1 (by decide))
theorem flush4_2_arith : ∀ t : Fin cfg4.N, (cfg4.win 2).flush t = true ↔ t.val % 782 = 781 :=
  flushB_outer cc4_transform_2 (reads_fst 0 (by decide))
theorem flush4_3_arith : ∀ t : Fin cfg4.N, (cfg4.win 3).flush t = true ↔ t.val % 782 = 781 :=
  flushB_outer cc4_transform_3 (reads_fst 0 (by decide))

end Cert.KernelIdeal.Hand

end
-- ==== Proof.KI.R0Runs.lean ====
import proofs.«428353_j4698694222361_2_alg».proof.Proof.Gen.KernelIdeal.Launch
import proofs.«428353_j4698694222361_2_alg».proof.Proof.Gen.KernelIdeal.Skeleton
import proofs.«428353_j4698694222361_2_alg».proof.Proof.KI.Sched
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe
open Idealize.SL Idealize.SL.RA Idealize.SL.BI Idealize.SL.BI.BIBase Idealize.SL.Sem
open scoped Idealize.SL.BI

variable {F : FTy → Type} [FloatOps F]

local notation "𝕄" => MT nD τ sig Unit (Elt F) ℕ (UR sig nD τ) ℕ

theorem coords0_1 (t : Fin cfg0.N) : ((grid0.coords t) 1).val = t.val % 49 := by
  show t.val / grid0.stride 1 % grid0.bound 1 = t.val % 49
  have hs : grid0.stride 1 = 1 := by decide
  have hb : grid0.bound 1 = 49 := rfl
  rw [hs, hb, Nat.div_one]

abbrev cond0_0 (i : grid0.Coords) : Prop :=
  (Scalar.cmpi .ne (Scalar.extui (Scalar.cmpi .eq (BitVec.ofNat 32 (i 1).val) 0#32)) 0#32) = 1#1

theorem cond0_0_val : ∀ k : Fin 49,
    (Scalar.cmpi .ne (Scalar.extui (Scalar.cmpi .eq (BitVec.ofNat 32 k.val) 0#32)) 0#32) = 1#1 ↔ k.val = 0 := by
  decide +kernel

theorem hcond0_0 (t : Fin cfg0.N) : cond0_0 (grid0.coords t) ↔ t.val % 49 = 0 :=
  (cond0_0_val ((grid0.coords t) 1)).trans (iff_of_eq (congrArg (· = 0) (coords0_1 t)))

abbrev cond0_1 (i : grid0.Coords) : Prop := k0_cond2 i = 1#1

theorem cond0_1_val : ∀ k : Fin 49,
    (Scalar.cmpi .ne (Scalar.extui (Scalar.cmpi .eq (BitVec.ofNat 32 k.val) 48#32)) 0#32) = 1#1 ↔ k.val = 48 := by
  decide +kernel

theorem hcond0_1 (t : Fin cfg0.N) : cond0_1 (grid0.coords t) ↔ t.val % 49 = 48 :=
  (cond0_1_val ((grid0.coords t) 1)).trans (iff_of_eq (congrArg (· = 48) (coords0_1 t)))

theorem liveAt0_0 (t : Fin cfg0.N) : cfg0.idle 0 (grid0.coords t) = false := rfl
theorem liveAt0_1 (t : Fin cfg0.N) : cfg0.idle 1 (grid0.coords t) = false := rfl

theorem idleAt0_2 (i : grid0.Coords) (h : ¬cond0_1 i) : cfg0.idle 2 i = true := by
  have e : cfg0.idle 2 i = !(k0_cond2 i == 1#1) := rfl
  rw [e, Bool.not_eq_true', beq_eq_false_iff_ne]; exact h

theorem liveAt0_2 (i : grid0.Coords) (h : cond0_1 i) : cfg0.idle 2 i = false := by
  have e : cfg0.idle 2 i = !(k0_cond2 i == 1#1) := rfl
  rw [e, Bool.not_eq_false', beq_iff_eq]; exact h

theorem noFlush0_2 (t : Fin cfg0.N) (h : ¬cond0_1 (grid0.coords t)) : (cfg0.win 2).flush t = false :=
  Bool.eq_false_iff.mpr fun hf => h ((hcond0_1 t).mpr ((flush0_2 t).mp hf))

abbrev ms0_0 (t : Fin cfg0.N) : Memref sig .tc .vmem S2048x1 .i32 := win0_0.stage (cfg0.slots t 0)
abbrev ms0_1 (t : Fin cfg0.N) : Memref sig .tc .vmem S2048x64 .bf16 := win0_1.stage (cfg0.slots t 1)
abbrev ms0_2 (t : Fin cfg0.N) : Memref sig .tc .vmem S2048x64 .bf16 := win0_2.stage (cfg0.slots t 2)

abbrev scM0_0 : Memref sig .tc .vmem S2048x64 .f32 := Memref.whole cc0_scratch0

abbrev rest0 (c : Dev nD) : sProp 𝕄 :=
  Pipeline.scopedRestBut (Ix := Unit) (Name := ℕ) (U := UR sig nD τ) (Lvl := ℕ) (Val := Elt F) spec0 c [cc0_scratch0]

theorem PhiA0_eq (c : Dev nD) :
    (Pipeline.ΦA spec0 c : sProp 𝕄)
      = iprop(iprop(iprop(∃ d, owns (c : Thread nD τ) scM0_0 fullShare d) ∗ rest0 c) ∗ (∃ r, prngReg c r)) := by
  unfold Pipeline.ΦA; rw [scopedRest0_split]; simp only [scM0_0, owns_whole]; try rfl

end Cert.KernelIdeal.Hand

end
-- ==== Proof.KI.R0RunA.lean ====
import proofs.«428353_j4698694222361_2_alg».proof.Proof.KI.R0Runs
import Idealize.ShloMosaic.Lib.Pipeline.Value

noncomputable section

namespace Cert.KernelIdeal.Hand

open Cert.KernelIdeal Cert.KernelIdeal.Gen
open Idealize.ShloMosaic Idealize.ShloMosaic.TcCoe
open Idealize.SL Idealize.SL.RA Idealize.SL.BI Idealize.SL.BI.BIBase Idealize.SL.Sem
open scoped Idealize.SL.BI

variable {F : FTy → Type} [FloatOps F]

local notation "𝕄" => MT nD τ sig Unit (Elt F) ℕ (UR sig nD τ) ℕ

section Whole

variable {sig : RefSig} {Val : EltTy → Type} {κ : Kind} {sp : Space} {s : Shape} {e : EltTy}

theorem off0_00 : (![0, 0] : Fin 2 → ℕ) = fun _ => 0 := by
  funext a
  match a with
  | ⟨0, _⟩ => rfl
  | ⟨1, _⟩ => rfl

theorem readAt_whole_unread0 {m : Memref sig κ sp s e} (h : m.IsWhole) {off : Fin s.rank → ℕ} (hz : off = fun _ => 0)
    (inb : ∀ a, off a + s.size a ≤ s.size a) (X : s.Idx → Val e) :
    m.view.readAt Val (Rect.unit off s.size inb).toLoadRect (h.unread X) = X := by
  rw [View.readAt_eq_ld, h.read_unread, View.ld_unit_zero hz]

-- a whole store that comes last leaves its payload
theorem read_writes_whole_last0 [∀ e, Nonempty (Val e)] (v : View sig κ sp s e) (f : v.ty.Contents Val)
    {off : Fin s.rank → ℕ} (hz : off = fun _ => 0) (inb : ∀ a, off a + s.size a ≤ s.size a) (w : s.Idx → Val e)
    (L : List (View.Piece Val s e)) :
    v.read Val (v.writes Val f ((⟨Rect.unit off s.size inb, w⟩ : View.Piece Val s e) :: L)) = w := by
  rw [View.read_writes_eq_canon _ _ _ (fun y => ⟨_, List.mem_cons_self, View.mem_set_unit_zero hz inb y⟩),
    View.canon_cons_unit_zero hz]

end Whole

-- one run of the body on (output block, accumulator): the accumulator, zeroed first where `k = 0`, gains the blocks' product; where `k = 48` the output block is it converted
def step0 (i : grid0.Coords) (x0 : Vec F S2048x1 .i32) (x1 : Vec F S2048x64 .bf16) (o : Vec F S2048x64 .bf16)
    (a : Vec F S2048x64 .f32) : Vec F S2048x64 .bf16 × Vec F S2048x64 .f32 :=
  (if cond0_1 i then k0_pay3 (k0_pay2 i x0 x1 (if cond0_0 i then k0_pay1 else a)) else o,
    k0_pay2 i x0 x1 (if cond0_0 i then k0_pay1 else a))

-- the kernel `run0` speaks of, under a name of this module's own: the other region's kernel is the same term
abbrev kern0 := cc0__gather_kernel (F := F)

set_option maxHeartbeats 1000000 in
theorem run0 (c : Dev nD) (i : grid0.Coords) (arg2 : Memref sig .tc .vmem S2048x1 .i32) (harg2 : arg2.IsWhole) (arg3 : Memref sig .tc .vmem S2048x64 .bf16) (harg3 : arg3.IsWhole) (arg4 : Memref sig .tc .vmem S2048x64 .bf16) (harg4 : arg4.IsWhole) (arg5 : Memref sig .tc .vmem S2048x64 .f32) (harg5 : arg5.IsWhole)
    (x0 : Vec F S2048x1 .i32) (x1 : Vec F S2048x64 .bf16) (o : Vec F S2048x64 .bf16) (a : Vec F S2048x64 .f32) (E : Set ℕ) (K : PUnit → sProp 𝕄) :
    iprop(owns (c : Thread nD τ) arg2 fullShare x0 ∗ owns (c : Thread nD τ) arg3 fullShare x1 ∗ owns (c : Thread nD τ) arg4 fullShare o ∗ owns (c : Thread nD τ) arg5 fullShare a
        ∗ (iprop(owns (c : Thread nD τ) arg2 fullShare x0 ∗ owns (c : Thread nD τ) arg3 fullShare x1 ∗ owns (c : Thread nD τ) arg4 fullShare (step0 i x0 x1 o a).1 ∗ owns (c : Thread nD τ) arg5 fullShare (step0 i x0 x1 o a).2) -∗ K ⟨⟩))
      ⊢ wp frame (wpE (defs₀ (F := F)) Variants.none c none) E (kern0 i arg2 harg2 arg3 harg3 arg4 harg4 arg5 harg5) K := by
  simp only [kern0, cc0__gather_kernel_eq_skeleton, step0]; unfold cc0__gather_kernel_skel owns
  by_cases hc0 : cond0_0 i <;> by_cases hc1 : cond0_1 i
  · exact absurd (((cond0_0_val (i 1)).mp hc0).symm.trans ((cond0_1_val (i 1)).mp hc1)) (by decide)
  all_goals
    (first | rw [if_pos hc0] | rw [if_neg hc0]); (first | rw [if_pos hc1] | rw [if_neg hc1])
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2
    obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2] <;> (iexists _; isplitr; swap) <;>
      first | iexact H2 | iexact HS | skip
    all_goals
      ipureintro; try sl_unfold_run_names
      first | (rw [read_writes_whole_last0 _ _ off0_00]; repeat (first | rw [readAt_whole_unread0 _ off0_00] | rw [View.readCov_unit_zero _ off0_00])) | exact harg4.read_unread _

end Cert.KernelIdeal.Hand

end
-- ==== Proof.KI.R0Body.lean ====
import proofs.«428353_j4698694222361_2_alg».proof.Proof.KI.R0Runs
import proofs.«428353_j4698694222361_2_alg».proof.Proof.KI.R0RunA

noncomputable section

namespace Cert.KernelIdeal.Hand

open Cert.KernelIdeal Cert.KernelIdeal.Gen
open Idealize.ShloMosaic Idealize.ShloMosaic.TcCoe
open Idealize.SL Idealize.SL.RA Idealize.SL.BI Idealize.SL.BI.BIBase Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

-- (output block, accumulator) after the body at position `n`: the runs iterated; what the first starts from is never read
def outsAt0 (c : Dev nD) : (n : ℕ) → n < cfg0.N → Vec F S2048x64 .bf16 × Vec F S2048x64 .f32
  | 0, hn => step0 (grid0.coords ⟨0, hn⟩) (iblk0 V c 0 ⟨0, hn⟩) (iblk0 V c 1 ⟨0, hn⟩) (k0_pay3 k0_pay1) k0_pay1
  | n + 1, hn => step0 (grid0.coords ⟨n + 1, hn⟩) (iblk0 V c 0 ⟨n + 1, hn⟩) (iblk0 V c 1 ⟨n + 1, hn⟩)
      (outsAt0 c n (Nat.lt_of_succ_lt hn)).1 (outsAt0 c n (Nat.lt_of_succ_lt hn)).2

theorem outsAt0_first (c : Dev nD) (t : Fin cfg0.N) (h0 : t.val % 49 = 0) :
    (outsAt0 V c t.val t.isLt).2 = k0_pay2 (grid0.coords t) (iblk0 V c 0 t) (iblk0 V c 1 t) k0_pay1 := by
  obtain ⟨n, hn⟩ := t
  cases n <;> (dsimp only; rw [outsAt0, step0, if_pos ((hcond0_0 _).mpr h0)])

theorem outsAt0_next (c : Dev nD) (t : Fin cfg0.N) (h0 : ¬t.val % 49 = 0) :
    (outsAt0 V c t.val t.isLt).2 = k0_pay2 (grid0.coords t) (iblk0 V c 0 t) (iblk0 V c 1 t) (outsAt0 V c (t.val - 1) (Nat.lt_of_le_of_lt (Nat.sub_le _ _) t.isLt)).2 := by
  obtain ⟨n, hn⟩ := t
  cases n with
  | zero => exact absurd (Nat.zero_mod _) h0
  | succ n => dsimp only; rw [outsAt0, step0, if_neg (mt (hcond0_0 _).mp h0)] <;> try rfl

theorem outsAt0_last (c : Dev nD) (t : Fin cfg0.N) (h48 : t.val % 49 = 48) :
    (outsAt0 V c t.val t.isLt).1 = k0_pay3 (outsAt0 V c t.val t.isLt).2 := by
  obtain ⟨n, hn⟩ := t
  cases n <;> (dsimp only; rw [outsAt0, step0, if_pos (show cond0_1 _ from (hcond0_1 _).mpr h48)])

-- the accumulator is carried between points: after the first point it holds what the point before left
def PhiS0 (c : Dev nD) (n : ℕ) (hn : n ≤ cfg0.N) : sProp 𝕄 :=
  iprop(iprop(iprop(∃ d, ⌜∀ h : n ≠ 0, d = (outsAt0 V c (n - 1) (by omega)).2⌝ ∗ owns (c : Thread nD τ) scM0_0 fullShare d) ∗ rest0 c) ∗ (∃ r, prngReg c r))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem q_eq0 (c : Dev nD) (w : Fin cfg0.W) : (dat0 V c).q w = fullShare := rfl
theorem owed_eq0 (c : Dev nD) (t : Fin (cfg0.N + 1)) : (dat0 V c).owed t = 0 := rfl
theorem recorded_eq0 (c : Dev nD) (t : Fin (cfg0.N + 1)) : (dat0 V c).recorded t = Set.univ := rfl

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

theorem acc0 (c : Dev nD) (t : Fin cfg0.N) (o : Vec F S2048x64 .bf16) (d : Vec F S2048x64 .f32)
    (hd : ∀ h : t.val ≠ 0, d = (outsAt0 V c (t.val - 1) (by omega)).2) :
    (step0 (grid0.coords t) (iblk0 V c 0 t) (iblk0 V c 1 t) o d).2 = (outsAt0 V c t.val t.isLt).2 := by
  by_cases h0 : t.val % 49 = 0
  · rw [outsAt0_first V c t h0, step0, if_pos ((hcond0_0 t).mpr h0)]
  · rw [outsAt0_next V c t h0, step0, if_neg (mt (hcond0_0 t).mp h0), hd fun e => h0 (by rw [e])]

theorem out0 (c : Dev nD) (t : Fin cfg0.N) (d2) (d : Vec F S2048x64 .f32)
    (hd : ∀ h : t.val ≠ 0, d = (outsAt0 V c (t.val - 1) (by omega)).2) :
    owns (c : Thread nD τ) (ms0_2 t) fullShare (step0 (grid0.coords t) (iblk0 V c 0 t) (iblk0 V c 1 t) ((dat0 V c).before 2 t d2) d).1
      ⊢ (dat0 V c).leavesExact 2 t := by
  by_cases h1 : t.val % 49 = 48
  · rw [show (dat0 V c).leavesExact 2 t = owns (c : Thread nD τ) (ms0_2 t) fullShare ((dat0 V c).after 2 t) from by
        unfold Dat.leavesExact; rw [liveAt0_2 _ ((hcond0_1 t).mpr h1)], after0_2, outsAt0_last V c t h1, ← acc0 V c t _ d hd, step0, if_pos (show cond0_1 _ from (hcond0_1 t).mpr h1)]
  · rw [Dat.leavesExact_idle (dat0 V c) 2 t (idleAt0_2 _ (mt (hcond0_1 t).mp h1)) (noFlush0_2 t (mt (hcond0_1 t).mp h1)), step0, if_neg (show ¬cond0_1 _ from mt (hcond0_1 t).mp h1)]
    iintro H; iexists _; iexact H

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  rw [show cc0__gather_kernel (F := F) = kern0 from rfl]
  simp only [before0_0, before0_1]
  rw [show (dat0 V c).owesAt () t.succ = (dat0 V c).owesAt () t.castSucc from rfl]
  rw [show (dat0 V c).Φ t.succ = PhiS0 V c (t.val + 1) t.isLt from rfl,
    show (dat0 V c).Φ t.castSucc = PhiS0 V c t.val (Nat.le_of_lt t.isLt) from by dsimp only [dat0]; simp only [Fin.coe_castSucc]]
  unfold PhiS0
  rw [show (dat0 V c).leavesExact 0 t = owns (c : Thread nD τ) (ms0_0 t) fullShare ((dat0 V c).after 0 t) from by
          unfold Dat.leavesExact; rw [liveAt0_0 t], after0_0]
  rw [show (dat0 V c).leavesExact 1 t = owns (c : Thread nD τ) (ms0_1 t) fullShare ((dat0 V c).after 1 t) from by
          unfold Dat.leavesExact; rw [liveAt0_1 t], after0_1]
  iintro ⟨⟨⟨⟨%ds, %hds, HS⟩, HR⟩, Hg⟩, Ho, ⟨%d0, H0⟩, ⟨%d1, H1⟩, ⟨%d2, H2⟩⟩
  iapply (run0 c (grid0.coords t) _ _ _ _ _ _ _ _ (iblk0 V c 0 t) (iblk0 V c 1 t) ((dat0 V c).before 2 t d2) ds Set.univ _)
  iframe H0 H1 H2 HS
  iintro ⟨H0, H1, H2, HS⟩
  iframe HR Hg Ho H0 H1
  isplitl [HS]
  · iexists _; isplitr; swap; · iexact HS
    ipureintro; exact fun _ => acc0 V c t _ ds hds
  iapply out0 V c t d2 ds hds $$ H2

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiA0_eq]; unfold PhiS0
  iintro ⟨⟨⟨%d, HS⟩, HR⟩, Hg⟩
  iframe HR Hg
  iexists d; isplitr
  · ipureintro; exact fun h => absurd rfl h
  iexact HS

theorem hout0 (c : Dev nD) : (dat0 V c).Φ (Fin.last cfg0.N) ⊢ Pipeline.ΦA spec0 c := by
  rw [show (dat0 V c).Φ (Fin.last cfg0.N) = PhiS0 V c cfg0.N (Nat.le_refl _) from rfl, PhiA0_eq]; unfold PhiS0
  iintro ⟨⟨⟨%d, -, HS⟩, HR⟩, Hg⟩
  iframe HR Hg
  iexists _; iexact HS

end Cert.KernelIdeal.Hand

end
-- ==== Proof.KI.R1Runs.lean ====
import proofs.«428353_j4698694222361_2_alg».proof.Proof.Gen.KernelIdeal.Launch
import proofs.«428353_j4698694222361_2_alg».proof.Proof.Gen.KernelIdeal.Skeleton
import proofs.«428353_j4698694222361_2_alg».proof.Proof.KI.Sched
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

theorem coords1_1 (t : Fin grid1.N) : (grid1.coords t 1).val = t.val % 782 := by
  show t.val / grid1.stride 1 % grid1.bound 1 = t.val % 782
  rw [show grid1.stride 1 = 1 from by decide, Nat.div_one]; rfl

abbrev cond1_0 (i : grid1.Coords) : Prop := (Scalar.cmpi .ne (Scalar.extui (Scalar.cmpi .eq (BitVec.ofNat 32 (i 1).val) 0#32)) 0#32) = 1#1

abbrev cond1_1 (i : grid1.Coords) : Prop := k1_cond2 i = 1#1

/-- Over the inner coordinate's 782 values: the first condition holds exactly at 0, the second exactly at 781. -/
theorem cond1_iff : ∀ k : Fin 782, ((Scalar.cmpi .ne (Scalar.extui (Scalar.cmpi .eq (BitVec.ofNat 32 k.val) 0#32)) 0#32) = 1#1 ↔ k.val = 0)
    ∧ ((Scalar.cmpi .ne (Scalar.extui (Scalar.cmpi .eq (BitVec.ofNat 32 k.val) 781#32)) 0#32) = 1#1 ↔ k.val = 781) := by
  decide +kernel

theorem hcond1_0 (t : Fin cfg1.N) : cond1_0 (grid1.coords t) ↔ t.val % 782 = 0 :=
  (cond1_iff (grid1.coords t 1)).1.trans (by rw [coords1_1])
theorem hcond1_1 (t : Fin cfg1.N) : cond1_1 (grid1.coords t) ↔ t.val % 782 = 781 :=
  (cond1_iff (grid1.coords t 1)).2.trans (by rw [coords1_1])

abbrev scM1_0 : Memref sig .tc .vmem S2048x64 .f32 := Memref.whole cc1_scratch0
abbrev scM1_1 : Memref sig .tc .vmem S2048x1 .f32 := Memref.whole cc1_scratch1

theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1])
          ∗ (∃ r, prngReg c r)) := by
  unfold Pipeline.ΦA; rw [scopedRest1_split]; simp only [scM1_0, scM1_1, owns_whole]; try rfl

theorem leaves1 {c : Dev nD} (dat : Dat τ (Elt F) Unit ℕ (UR sig nD τ) ℕ cfg1 c) (w : Fin cfg1.W) (hi : ∀ i, cfg1.idle w i = !decide (cond1_1 i))
    (hf : ∀ t : Fin cfg1.N, (cfg1.win w).flush t = true ↔ t.val % 782 = 781) (t : Fin cfg1.N) (d Y) (hY : cond1_1 (grid1.coords t) → Y = dat.after w t) :
    owns (c : Thread nD τ) ((cfg1.win w).stage (cfg1.slots t w)) fullShare (if cond1_1 (grid1.coords t) then Y else dat.before w t d) ⊢ dat.leavesExact w t := by
  by_cases h : cond1_1 (grid1.coords t)
  · rw [if_pos h, hY h]; unfold Dat.leavesExact; rw [(hi _).trans (congrArg (!·) (decide_eq_true h))]; exact Entails.refl _
  · rw [if_neg h, dat.leavesExact_idle w t ((hi _).trans (congrArg (!·) (decide_eq_false h))) (Bool.eq_false_iff.mpr fun e => h ((hcond1_1 t).mpr ((hf t).mp e)))]
    iintro H; iexists d; iexact H

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_of {c : Dev nD} (dat : Dat τ (Elt F) Unit ℕ (UR sig nD τ) ℕ cfg1 c) (hA : ∀ w, dat.A w = V c (Pipeline.arrRef spec1 w))
    (h0 : ∀ t, dat.after 0 t = iblk1 V c 0 t) (h1 : ∀ t, dat.after 1 t = iblk1 V c 1 t) :
    (∀ t d, dat.before 0 t d = iblk1 V c 0 t) ∧ ∀ t d, dat.before 1 t d = iblk1 V c 1 t := by
  constructor <;> intro t d <;>
  exact (dat.before_in_eq_fetched _ rfl (fun _ => rfl) (fun _ _ _ => rfl) (fun t => by (first | rw [h0] | rw [h1]); unfold Dat.blockOf iblk1; rw [hA]; try rfl) t d).trans
    (by unfold Dat.fetched Dat.blockOf iblk1; rw [hA]; try rfl)

end Cert.KernelIdeal.Hand

end
-- ==== Proof.KI.R1RunA.lean ====
import proofs.«428353_j4698694222361_2_alg».proof.Proof.KI.R1Runs
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- A last store through the whole-shape rectangle at zero offsets leaves its payload, whatever the buffer held. -/
theorem readWrites1 {κ : Kind} {sp : Space} {S : Shape} {e : EltTy} (v : View sig κ sp S e) (f : v.ty.Contents (Elt F)) {off : Fin S.rank → ℕ}
    (h : off = fun _ => 0) (inb : ∀ a, off a + S.size a ≤ S.size a) (w : S.Idx → Elt F e) (L : List (View.Piece (Elt F) S e)) :
    v.read (Elt F) (v.writes (Elt F) f (⟨Rect.unit off S.size inb, w⟩ :: L)) = w :=
  (View.read_writes_eq_canon v f _ fun y => ⟨_, List.Mem.head _, View.mem_set_unit_zero h inb y⟩).trans (View.canon_cons_unit_zero h inb w L)

def scr1 (i : grid1.Coords) (x0 : Vec F S1x2048 .i32) (x1 : Vec F S2048x64 .bf16) (s : Vec F S2048x64 .f32 × Vec F S2048x1 .f32) :
    Vec F S2048x64 .f32 × Vec F S2048x1 .f32 :=
  (k1_pay4 i x0 x1 (if cond1_0 i then k1_pay1 else s.1), k1_pay5 i x0 (if cond1_0 i then k1_pay2 else s.2))

abbrev kern1 := cc1__scatter_kernel (F := F)

set_option maxHeartbeats 1000000 in
theorem run1 (c : Dev nD) (i : grid1.Coords) (arg2 : Memref sig .tc .vmem S1x2048 .i32) (harg2 : arg2.IsWhole) (arg3 : Memref sig .tc .vmem S2048x64 .bf16) (harg3 : arg3.IsWhole) (arg4 : Memref sig .tc .vmem S2048x64 .f32) (harg4 : arg4.IsWhole) (arg5 : Memref sig .tc .vmem S2048x1 .f32) (harg5 : arg5.IsWhole) (arg6 : Memref sig .tc .vmem S2048x64 .f32) (harg6 : arg6.IsWhole) (arg7 : Memref sig .tc .vmem S2048x1 .f32) (harg7 : arg7.IsWhole)
    (x0 : Vec F S1x2048 .i32) (x1 : Vec F S2048x64 .bf16) (x2 : Vec F S2048x64 .f32) (x3 : Vec F S2048x1 .f32) (s : Vec F S2048x64 .f32 × Vec F S2048x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare s.1 ∗ owns (c : Thread nD τ) arg7 fullShare s.2
        ∗ (iprop(owns (c : Thread nD τ) arg2 fullShare x0 ∗ owns (c : Thread nD τ) arg3 fullShare x1
            ∗ owns (c : Thread nD τ) arg4 fullShare (if cond1_1 i then (scr1 i x0 x1 s).1 else x2) ∗ owns (c : Thread nD τ) arg5 fullShare (if cond1_1 i then (scr1 i x0 x1 s).2 else x3)
            ∗ owns (c : Thread nD τ) arg6 fullShare (scr1 i x0 x1 s).1 ∗ owns (c : Thread nD τ) arg7 fullShare (scr1 i x0 x1 s).2) -∗ K ⟨⟩))
      ⊢ wp frame (wpE (defs₀ (F := F)) Variants.none c none) E (kern1 i arg2 harg2 arg3 harg3 arg4 harg4 arg5 harg5 arg6 harg6 arg7 harg7) K := by
  have z : (![0, 0] : Fin 2 → ℕ) = fun _ => 0 := funext fun a => by fin_cases a <;> rfl
  unfold scr1 owns kern1
  iintro ⟨⟨%f0, %h0, H0⟩, ⟨%f1, %h1, H1⟩, ⟨%f2, %h2, H2⟩, ⟨%f3, %h3, H3⟩, ⟨%f4, %h4, H4⟩, ⟨%f5, %h5, H5⟩, Hk⟩
  obtain rfl := harg2.eq_unread h0; obtain rfl := harg3.eq_unread h1; obtain rfl := harg4.eq_unread h2; obtain rfl := harg5.eq_unread h3
  obtain rfl := harg6.eq_unread h4; obtain rfl := harg7.eq_unread h5
  by_cases hc0 : cond1_0 i <;> by_cases hc1 : cond1_1 i <;>
  · first | rw [if_pos hc0, if_pos hc0] | rw [if_neg hc0, if_neg hc0]
    first | rw [if_pos hc1, if_pos hc1] | rw [if_neg hc1, if_neg hc1]
    simp only [cc1__scatter_kernel_eq_skeleton]; unfold cc1__scatter_kernel_skel
    sl_exec (disch := first | exact hc0 | exact hc1)
    sl_step
    iapply Hk
    isplitl [H0]; iexists _; isplitr; swap; iexact H0; swap
    isplitl [H1]; iexists _; isplitr; swap; iexact H1; swap
    isplitl [H2]; iexists _; isplitr; swap; iexact H2; swap
    isplitl [H3]; iexists _; isplitr; swap; iexact H3; swap
    isplitl [H4]; iexists _; isplitr; swap; iexact H4; swap
    iexists _; isplitr; swap; iexact H5
    all_goals
      ipureintro; (try sl_unfold_run_names)
      simp only [readWrites1 (S := S2048x64) _ _ z, readWrites1 (S := S2048x1) _ _ z, View.readCov, View.readAt_eq_ld,
        View.ld_unit_zero (S := S1x2048) z, View.ld_unit_zero (S := S2048x64) z, View.ld_unit_zero (S := S2048x1) z, Memref.IsWhole.read_unread]

end Cert.KernelIdeal.Hand

end
-- ==== Proof.KI.R1Body.lean ====
import proofs.«428353_j4698694222361_2_alg».proof.Proof.KI.R1Runs
import proofs.«428353_j4698694222361_2_alg».proof.Proof.KI.R1RunA

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def step1 (c : Dev nD) (t : Fin cfg1.N) (p : (Vec F S2048x64 .f32 × Vec F S2048x1 .f32) × (Vec F S2048x64 .f32 × Vec F S2048x1 .f32)) : (Vec F S2048x64 .f32 × Vec F S2048x1 .f32) × (Vec F S2048x64 .f32 × Vec F S2048x1 .f32) :=
  ((if cond1_1 (grid1.coords t) then (scr1 (grid1.coords t) (iblk1 V c 0 t) (iblk1 V c 1 t) p.2).1 else p.1.1,
    if cond1_1 (grid1.coords t) then (scr1 (grid1.coords t) (iblk1 V c 0 t) (iblk1 V c 1 t) p.2).2 else p.1.2),
    scr1 (grid1.coords t) (iblk1 V c 0 t) (iblk1 V c 1 t) p.2)

/-- The two output buffers, then the two scratches, after the body at position `n`, starting from zeros. -/
def outsAt1 (c : Dev nD) (n : ℕ) (hn : n < cfg1.N) : (Vec F S2048x64 .f32 × Vec F S2048x1 .f32) × (Vec F S2048x64 .f32 × Vec F S2048x1 .f32) :=
  step1 V c ⟨n, hn⟩ (match n, hn with
    | 0, _ => ((k1_pay1, k1_pay2), (k1_pay1, k1_pay2))
    | k + 1, h => outsAt1 c k (Nat.lt_of_succ_lt h))

theorem outs1_last (c : Dev nD) (t : Fin cfg1.N) (h : cond1_1 (grid1.coords t)) : (outsAt1 V c t.val t.isLt).1 = (outsAt1 V c t.val t.isLt).2 := by
  unfold outsAt1 step1; dsimp only; rw [if_pos h, if_pos h]

def PhiS1 (c : Dev nD) (n : ℕ) : sProp 𝕄 :=
  iprop(∃ s : Vec F S2048x64 .f32 × Vec F S2048x1 .f32,
    ⌜∀ h : n < cfg1.N, scr1 (grid1.coords ⟨n, h⟩) (iblk1 V c 0 ⟨n, h⟩) (iblk1 V c 1 ⟨n, h⟩) s = (outsAt1 V c n h).2⌝
    ∗ owns (c : Thread nD τ) scM1_0 fullShare s.1 ∗ owns (c : Thread nD τ) scM1_1 fullShare s.2
    ∗ Pipeline.scopedRestBut (Ix := Unit) (Name := ℕ) (U := UR sig nD τ) (Lvl := ℕ) (Val := Elt F) spec1 c [cc1_scratch0, cc1_scratch1] ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1.1
    | ⟨3, _⟩ => (outsAt1 V c t.val t.isLt).1.2
  Φ t := PhiS1 V c t.val
  q _ := fullShare
  owed _ := 0

theorem A_eq1 (c : Dev nD) (w : Fin cfg1.W) : (dat1 V c).A w = V c (Pipeline.arrRef spec1 w) := rfl
theorem q_eq1 (c : Dev nD) (w : Fin cfg1.W) : (dat1 V c).q w = fullShare := rfl
theorem owed_eq1 (c : Dev nD) (t : Fin (cfg1.N + 1)) : (dat1 V c).owed t = 0 := rfl
theorem recorded_eq1 (c : Dev nD) (t : Fin (cfg1.N + 1)) : (dat1 V c).recorded t = Set.univ := rfl
theorem after1_2 (c : Dev nD) (t : Fin cfg1.N) : (dat1 V c).after 2 t = (outsAt1 V c t.val t.isLt).1.1 := rfl
theorem after1_3 (c : Dev nD) (t : Fin cfg1.N) : (dat1 V c).after 3 t = (outsAt1 V c t.val t.isLt).1.2 := rfl

theorem body_obligation1 (c : Dev nD) : BodyObligation (dat1 (F := F) V c) (defs₀ (F := F)) Variants.none () Set.univ := fun t => by
  rw [bigSep_W1, bigSep_W1]
  show _ ⊢ wp _ _ _ (bodyAt1 t) _
  unfold bodyAt1; rw [show cc1__scatter_kernel (F := F) = kern1 from rfl]
  obtain ⟨b0, b1⟩ := before1_of V (dat1 V c) (fun _ => rfl) (fun _ => rfl) fun _ => rfl
  simp only [b0, b1]
  rw [show (dat1 V c).Φ t.castSucc = PhiS1 V c t.val from rfl, show (dat1 V c).Φ t.succ = PhiS1 V c (t.val + 1) from rfl,
    show (dat1 V c).owesAt () t.succ = (dat1 V c).owesAt () t.castSucc from rfl]
  unfold PhiS1
  iintro ⟨⟨%s, %hs, HS0, HS1, Hr, Hg⟩, Ho, ⟨%d0, H0⟩, ⟨%d1, H1⟩, ⟨%d2, H2⟩, ⟨%d3, H3⟩⟩
  iapply run1 c (grid1.coords t) _ _ _ _ _ _ _ _ _ _ _ _ (iblk1 V c 0 t) (iblk1 V c 1 t) _ _ s Set.univ _
  iframe H0 H1 H2 H3 HS0 HS1
  rw [hs t.isLt]
  iintro ⟨H0, H1, H2, H3, HS0, HS1⟩
  isplitl [HS0 HS1 Hr Hg]
  · iexists (outsAt1 V c t.val t.isLt).2; isplitr; · ipureintro; exact fun _ => rfl
    iframe
  iframe Ho
  isplitl [H0]; · iexact H0
  isplitl [H1]; · iexact H1
  isplitl [H2]
  · iapply leaves1 (dat1 V c) 2 (fun _ => rfl) flush1_2 t d2 _ fun h => (congrArg Prod.fst (outs1_last V c t h)).symm
    iexact H2
  iapply leaves1 (dat1 V c) 3 (fun _ => rfl) flush1_3 t d3 _ fun h => (congrArg Prod.snd (outs1_last V c t h)).symm
  iexact H3

theorem hin1 (c : Dev nD) : Pipeline.ΦA spec1 c ⊢ (dat1 V c).Φ 0 := by
  rw [PhiA1_eq]; show _ ⊢ PhiS1 V c 0; unfold PhiS1
  iintro ⟨⟨⟨⟨%d0, HS0⟩, ⟨%d1, HS1⟩⟩, Hr⟩, Hg⟩
  iexists (d0, d1); isplitr
  · ipureintro; intro h; show scr1 _ _ _ _ = scr1 _ _ _ _; unfold scr1; simp only [if_pos ((hcond1_0 ⟨0, h⟩).mpr rfl)]
  iframe

theorem hout1 (c : Dev nD) : (dat1 V c).Φ (Fin.last cfg1.N) ⊢ Pipeline.ΦA spec1 c := by
  rw [PhiA1_eq]; show PhiS1 V c _ ⊢ _; unfold PhiS1
  iintro ⟨%s, -, HS0, HS1, Hr, Hg⟩
  iframe Hr Hg
  isplitl [HS0]; · iexists _; iexact HS0
  iexists _; iexact HS1

end Cert.KernelIdeal.Hand

end
-- ==== Proof.KI.R2Body.lean ====
import proofs.«428353_j4698694222361_2_alg».proof.Proof.Gen.KernelIdeal.Launch
import proofs.«428353_j4698694222361_2_alg».proof.Proof.Gen.KernelIdeal.Skeleton
import proofs.«428353_j4698694222361_2_alg».proof.Proof.KI.Sched
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem hz2 : (![0, 0] : Fin 2 → Nat) = fun _ => 0 := funext fun a => by fin_cases a <;> rfl

abbrev r2_a : Rect S2048x64 := Rect.unit (s := S2048x64) ![0, 0] S2048x64.size inb_S2048x64_S2048x64_0_0
abbrev r2_d : Rect S2048x1 := Rect.unit (s := S2048x1) ![0, 0] S2048x1.size inb_S2048x1_S2048x1_0_0
abbrev r2_m : Rect S64x64 := Rect.unit (s := S64x64) ![0, 0] S64x64.size inb_S64x64_S64x64_0_0
abbrev r2_b : Rect S1x64 := Rect.unit (s := S1x64) ![0, 0] S1x64.size inb_S1x64_S1x64_0_0
abbrev r2_o : Rect S2048x64 := Rect.unit (s := S2048x64) ![0, 0] S2048x64.size inb_S2048x64_S2048x64_0_0

section
variable (x0 x1 : Vec F S2048x64 .f32) (x2 : Vec F S2048x1 .f32) (x3 : Vec F S64x64 .f32) (x4 : Vec F S1x64 .f32) (x5 : Vec F S64x64 .f32)

/-- The output buffer after the body: its one whole store, the payload of the six whole loads. -/
def out2_6 : Vec F S2048x64 .f32 :=
  View.canon [⟨r2_o, k2_pay1 (View.ld x1 r2_a) (View.ld x2 r2_d) (View.ld x0 r2_a) (View.ld x3 r2_m) (View.ld x5 r2_m) (View.ld x4 r2_b)⟩]

/-- A whole load reads the block itself and one whole store leaves its payload. -/
theorem out2_6_eq : out2_6 x0 x1 x2 x3 x4 x5 = k2_pay1 x1 x2 x0 x3 x5 x4 := by
  unfold out2_6
  rw [View.canon_unit_zero hz2, View.ld_unit_zero hz2, View.ld_unit_zero hz2, View.ld_unit_zero hz2,
    View.ld_unit_zero hz2, View.ld_unit_zero hz2, View.ld_unit_zero hz2]

set_option maxHeartbeats 1000000 in
theorem sound_kernel2 (c : Dev nD) (E : Set ℕ) (i : grid2.Coords) (arg1 : Memref sig .tc .vmem S2048x64 .f32) (harg1 : arg1.IsWhole) (arg2 : Memref sig .tc .vmem S2048x64 .f32) (harg2 : arg2.IsWhole) (arg3 : Memref sig .tc .vmem S2048x1 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S2048x64 .f32) (harg7 : arg7.IsWhole)
    (K : PUnit → sProp 𝕄) :
    iprop(owns c arg1 fullShare x0 ∗ owns c arg2 fullShare x1 ∗ owns c arg3 fullShare x2 ∗ owns c arg4 fullShare x3 ∗ owns c arg5 fullShare x4 ∗ owns c arg6 fullShare x5 ∗ (∃ d, owns c arg7 fullShare d)
        ∗ (iprop(owns c arg1 fullShare x0 ∗ owns c arg2 fullShare x1 ∗ owns c arg3 fullShare x2 ∗ owns c arg4 fullShare x3 ∗ owns c arg5 fullShare x4 ∗ owns c arg6 fullShare x5 ∗ owns c arg7 fullShare (out2_6 x0 x1 x2 x3 x4 x5)) -∗ K ⟨⟩))
      ⊢ wp frame (wpE (defs₀ (F := F)) Variants.none c none) E (cc2__combine_kernel i arg1 harg1 arg2 harg2 arg3 harg3 arg4 harg4 arg5 harg5 arg6 harg6 arg7 harg7) K := by
  simp only [cc2__combine_kernel_eq_skeleton]; unfold cc2__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]; · iexists f0; iframe; ipureintro; rfl
  isplitl [H1]; · iexists f1; iframe; ipureintro; rfl
  isplitl [H2]; · iexists f2; iframe; ipureintro; rfl
  isplitl [H3]; · iexists f3; iframe; ipureintro; rfl
  isplitl [H4]; · iexists f4; iframe; ipureintro; rfl
  isplitl [H5]; · iexists f5; iframe; ipureintro; rfl
  iexists _; iframe; ipureintro
  exact View.read_writes_eq_canon _ _ _ (View.cover_of_tiled [⟨r2_o, _⟩] S2048x64.size (by rfl))

end

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by dsimp only [dat2]
theorem q_eq2 (c : Dev nD) (w : Fin cfg2.W) : (dat2 V c).q w = fullShare := by dsimp only [dat2]
theorem owed_eq2 (c : Dev nD) (t : Fin (cfg2.N + 1)) : (dat2 V c).owed t = 0 := by dsimp only [dat2]
theorem recorded_eq2 (c : Dev nD) (t : Fin (cfg2.N + 1)) : (dat2 V c).recorded t = Set.univ := by dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

theorem before2 (c : Dev nD) (t : Fin cfg2.N) :
    (∀ d, (dat2 V c).before 0 t d = iblk2 V c 0 t) ∧ (∀ d, (dat2 V c).before 1 t d = iblk2 V c 1 t)
    ∧ (∀ d, (dat2 V c).before 2 t d = iblk2 V c 2 t) ∧ (∀ d, (dat2 V c).before 3 t d = iblk2 V c 3 t)
    ∧ (∀ d, (dat2 V c).before 4 t d = iblk2 V c 4 t) ∧ (∀ d, (dat2 V c).before 5 t d = iblk2 V c 5 t) := by
  refine ⟨?_, ?_, ?_, ?_, ?_, ?_⟩ <;> intro d <;>
    exact ((dat2 V c).before_in_eq_fetched _ rfl (fun _ => rfl) (fun _ _ _ => rfl) (fun t => by dsimp only [dat2]; rfl) t d).trans
      (by dsimp only [dat2]; rfl)

theorem body_obligation2 (c : Dev nD) : BodyObligation (dat2 (F := F) V c) (defs₀ (F := F)) Variants.none () Set.univ := fun t => by
  rw [bigSep_W2, bigSep_W2]
  obtain ⟨b0, b1, b2, b3, b4, b5⟩ := before2 V c t
  simp only [b0, b1, b2, b3, b4, b5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  show _ ⊢ wp frame _ _ (bodyAt2 t) _
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 (iblk2 V c 0 t) (iblk2 V c 1 t) (iblk2 V c 2 t) (iblk2 V c 3 t) (iblk2 V c 4 t) (iblk2 V c 5 t) c Set.univ)
  iframe H0 H1 H2 H3 H4 H5
  isplitl [H6]; · iexists _; iexact H6
  iintro ⟨H0, H1, H2, H3, H4, H5, H6⟩
  iframe

theorem hin2 (c : Dev nD) : Pipeline.ΦA spec2 c ⊢ (dat2 V c).Φ 0 := BIBase.Entails.rfl
theorem hout2 (c : Dev nD) : (dat2 V c).Φ (Fin.last cfg2.N) ⊢ Pipeline.ΦA spec2 c := BIBase.Entails.rfl

end Cert.KernelIdeal.Hand

end
-- ==== Proof.KI.R3Runs.lean ====
import proofs.«428353_j4698694222361_2_alg».proof.Proof.Gen.KernelIdeal.Launch
import proofs.«428353_j4698694222361_2_alg».proof.Proof.Gen.KernelIdeal.Skeleton
import proofs.«428353_j4698694222361_2_alg».proof.Proof.KI.Sched
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe
open Idealize.SL Idealize.SL.RA Idealize.SL.BI Idealize.SL.BI.BIBase Idealize.SL.Sem
open scoped Idealize.SL.BI

variable {F : FTy → Type} [FloatOps F]

local notation "𝕄" => MT nD τ sig Unit (Elt F) ℕ (UR sig nD τ) ℕ

theorem coords3_1 (t : Fin cfg3.N) : ((grid3.coords t) 1).val = t.val % 49 := by
  show t.val / grid3.stride 1 % grid3.bound 1 = t.val % 49
  have hs : grid3.stride 1 = 1 := by decide
  have hb : grid3.bound 1 = 49 := rfl
  rw [hs, hb, Nat.div_one]

abbrev cond3_0 (i : grid3.Coords) : Prop :=
  (Scalar.cmpi .ne (Scalar.extui (Scalar.cmpi .eq (BitVec.ofNat 32 (i 1).val) 0#32)) 0#32) = 1#1

theorem cond3_0_val : ∀ k : Fin 49,
    (Scalar.cmpi .ne (Scalar.extui (Scalar.cmpi .eq (BitVec.ofNat 32 k.val) 0#32)) 0#32) = 1#1 ↔ k.val = 0 := by
  decide +kernel

theorem hcond3_0 (t : Fin cfg3.N) : cond3_0 (grid3.coords t) ↔ t.val % 49 = 0 :=
  (cond3_0_val ((grid3.coords t) 1)).trans (iff_of_eq (congrArg (· = 0) (coords3_1 t)))

abbrev cond3_1 (i : grid3.Coords) : Prop := k3_cond2 i = 1#1

theorem cond3_1_val : ∀ k : Fin 49,
    (Scalar.cmpi .ne (Scalar.extui (Scalar.cmpi .eq (BitVec.ofNat 32 k.val) 48#32)) 0#32) = 1#1 ↔ k.val = 48 := by
  decide +kernel

theorem hcond3_1 (t : Fin cfg3.N) : cond3_1 (grid3.coords t) ↔ t.val % 49 = 48 :=
  (cond3_1_val ((grid3.coords t) 1)).trans (iff_of_eq (congrArg (· = 48) (coords3_1 t)))

theorem liveAt3_0 (t : Fin cfg3.N) : cfg3.idle 0 (grid3.coords t) = false := rfl
theorem liveAt3_1 (t : Fin cfg3.N) : cfg3.idle 1 (grid3.coords t) = false := rfl

theorem idleAt3_2 (i : grid3.Coords) (h : ¬cond3_1 i) : cfg3.idle 2 i = true := by
  have e : cfg3.idle 2 i = !(k3_cond2 i == 1#1) := rfl
  rw [e, Bool.not_eq_true', beq_eq_false_iff_ne]; exact h

theorem liveAt3_2 (i : grid3.Coords) (h : cond3_1 i) : cfg3.idle 2 i = false := by
  have e : cfg3.idle 2 i = !(k3_cond2 i == 1#1) := rfl
  rw [e, Bool.not_eq_false', beq_iff_eq]; exact h

theorem noFlush3_2 (t : Fin cfg3.N) (h : ¬cond3_1 (grid3.coords t)) : (cfg3.win 2).flush t = false :=
  Bool.eq_false_iff.mpr fun hf => h ((hcond3_1 t).mpr ((flush3_2 t).mp hf))

abbrev ms3_0 (t : Fin cfg3.N) : Memref sig .tc .vmem S2048x1 .i32 := win3_0.stage (cfg3.slots t 0)
abbrev ms3_1 (t : Fin cfg3.N) : Memref sig .tc .vmem S2048x64 .bf16 := win3_1.stage (cfg3.slots t 1)
abbrev ms3_2 (t : Fin cfg3.N) : Memref sig .tc .vmem S2048x64 .bf16 := win3_2.stage (cfg3.slots t 2)

abbrev scM3_0 : Memref sig .tc .vmem S2048x64 .f32 := Memref.whole cc3_scratch0

abbrev rest3 (c : Dev nD) : sProp 𝕄 :=
  Pipeline.scopedRestBut (Ix := Unit) (Name := ℕ) (U := UR sig nD τ) (Lvl := ℕ) (Val := Elt F) spec3 c [cc3_scratch0]

theorem PhiA3_eq (c : Dev nD) :
    (Pipeline.ΦA spec3 c : sProp 𝕄)
      = iprop(iprop(iprop(∃ d, owns (c : Thread nD τ) scM3_0 fullShare d) ∗ rest3 c) ∗ (∃ r, prngReg c r)) := by
  unfold Pipeline.ΦA; rw [scopedRest3_split]; simp only [scM3_0, owns_whole]; try rfl

end Cert.KernelIdeal.Hand

end
-- ==== Proof.KI.R3Body.lean ====
import proofs.«428353_j4698694222361_2_alg».proof.Proof.KI.R3Runs
import proofs.«428353_j4698694222361_2_alg».proof.Proof.KI.R0RunA

noncomputable section

namespace Cert.KernelIdeal.Hand

open Cert.KernelIdeal Cert.KernelIdeal.Gen
open Idealize.ShloMosaic Idealize.ShloMosaic.TcCoe
open Idealize.SL Idealize.SL.RA Idealize.SL.BI Idealize.SL.BI.BIBase Idealize.SL.Sem
open scoped Idealize.SL.BI
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

-- (output block, accumulator) after the body at position `n`: the runs iterated; what the first starts from is never read
def outsAt3 (c : Dev nD) : (n : ℕ) → n < cfg3.N → Vec F S2048x64 .bf16 × Vec F S2048x64 .f32
  | 0, hn => step0 (grid3.coords ⟨0, hn⟩) (iblk3 V c 0 ⟨0, hn⟩) (iblk3 V c 1 ⟨0, hn⟩) (k0_pay3 k0_pay1) k0_pay1
  | n + 1, hn => step0 (grid3.coords ⟨n + 1, hn⟩) (iblk3 V c 0 ⟨n + 1, hn⟩) (iblk3 V c 1 ⟨n + 1, hn⟩)
      (outsAt3 c n (Nat.lt_of_succ_lt hn)).1 (outsAt3 c n (Nat.lt_of_succ_lt hn)).2

theorem outsAt3_first (c : Dev nD) (t : Fin cfg3.N) (h0 : t.val % 49 = 0) :
    (outsAt3 V c t.val t.isLt).2 = k0_pay2 (grid3.coords t) (iblk3 V c 0 t) (iblk3 V c 1 t) k0_pay1 := by
  obtain ⟨n, hn⟩ := t
  cases n <;> (dsimp only; rw [outsAt3, step0, if_pos ((hcond3_0 _).mpr h0)])

theorem outsAt3_next (c : Dev nD) (t : Fin cfg3.N) (h0 : ¬t.val % 49 = 0) :
    (outsAt3 V c t.val t.isLt).2 = k0_pay2 (grid3.coords t) (iblk3 V c 0 t) (iblk3 V c 1 t) (outsAt3 V c (t.val - 1) (Nat.lt_of_le_of_lt (Nat.sub_le _ _) t.isLt)).2 := by
  obtain ⟨n, hn⟩ := t
  cases n with
  | zero => exact absurd (Nat.zero_mod _) h0
  | succ n => dsimp only; rw [outsAt3, step0, if_neg (mt (hcond3_0 _).mp h0)] <;> try rfl

theorem outsAt3_last (c : Dev nD) (t : Fin cfg3.N) (h48 : t.val % 49 = 48) :
    (outsAt3 V c t.val t.isLt).1 = k0_pay3 (outsAt3 V c t.val t.isLt).2 := by
  obtain ⟨n, hn⟩ := t
  cases n <;> (dsimp only; rw [outsAt3, step0, if_pos (show cond0_1 _ from (hcond3_1 _).mpr h48)])

-- the accumulator is carried between points: after the first point it holds what the point before left
def PhiS3 (c : Dev nD) (n : ℕ) (hn : n ≤ cfg3.N) : sProp 𝕄 :=
  iprop(iprop(iprop(∃ d, ⌜∀ h : n ≠ 0, d = (outsAt3 V c (n - 1) (by omega)).2⌝ ∗ owns (c : Thread nD τ) scM3_0 fullShare d) ∗ rest3 c) ∗ (∃ r, prngReg c r))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem q_eq3 (c : Dev nD) (w : Fin cfg3.W) : (dat3 V c).q w = fullShare := rfl
theorem owed_eq3 (c : Dev nD) (t : Fin (cfg3.N + 1)) : (dat3 V c).owed t = 0 := rfl
theorem recorded_eq3 (c : Dev nD) (t : Fin (cfg3.N + 1)) : (dat3 V c).recorded t = Set.univ := rfl

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt).1 := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)

theorem acc3 (c : Dev nD) (t : Fin cfg3.N) (o : Vec F S2048x64 .bf16) (d : Vec F S2048x64 .f32)
    (hd : ∀ h : t.val ≠ 0, d = (outsAt3 V c (t.val - 1) (by omega)).2) :
    (step0 (grid3.coords t) (iblk3 V c 0 t) (iblk3 V c 1 t) o d).2 = (outsAt3 V c t.val t.isLt).2 := by
  by_cases h0 : t.val % 49 = 0
  · rw [outsAt3_first V c t h0, step0, if_pos ((hcond3_0 t).mpr h0)]
  · rw [outsAt3_next V c t h0, step0, if_neg (mt (hcond3_0 t).mp h0), hd fun e => h0 (by rw [e])]

theorem out3 (c : Dev nD) (t : Fin cfg3.N) (d2) (d : Vec F S2048x64 .f32)
    (hd : ∀ h : t.val ≠ 0, d = (outsAt3 V c (t.val - 1) (by omega)).2) :
    owns (c : Thread nD τ) (ms3_2 t) fullShare (step0 (grid3.coords t) (iblk3 V c 0 t) (iblk3 V c 1 t) ((dat3 V c).before 2 t d2) d).1
      ⊢ (dat3 V c).leavesExact 2 t := by
  by_cases h1 : t.val % 49 = 48
  · rw [show (dat3 V c).leavesExact 2 t = owns (c : Thread nD τ) (ms3_2 t) fullShare ((dat3 V c).after 2 t) from by
        unfold Dat.leavesExact; rw [liveAt3_2 _ ((hcond3_1 t).mpr h1)], after3_2, outsAt3_last V c t h1, ← acc3 V c t _ d hd, step0, if_pos (show cond0_1 _ from (hcond3_1 t).mpr h1)]
  · rw [Dat.leavesExact_idle (dat3 V c) 2 t (idleAt3_2 _ (mt (hcond3_1 t).mp h1)) (noFlush3_2 t (mt (hcond3_1 t).mp h1)), step0, if_neg (show ¬cond0_1 _ from mt (hcond3_1 t).mp h1)]
    iintro H; iexists _; iexact H

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  rw [show cc3__gather_kernel (F := F) = kern0 from rfl]
  simp only [before3_0, before3_1]
  rw [show (dat3 V c).owesAt () t.succ = (dat3 V c).owesAt () t.castSucc from rfl]
  rw [show (dat3 V c).Φ t.succ = PhiS3 V c (t.val + 1) t.isLt from rfl,
    show (dat3 V c).Φ t.castSucc = PhiS3 V c t.val (Nat.le_of_lt t.isLt) from by dsimp only [dat3]; simp only [Fin.coe_castSucc]]
  unfold PhiS3
  rw [show (dat3 V c).leavesExact 0 t = owns (c : Thread nD τ) (ms3_0 t) fullShare ((dat3 V c).after 0 t) from by
          unfold Dat.leavesExact; rw [liveAt3_0 t], after3_0]
  rw [show (dat3 V c).leavesExact 1 t = owns (c : Thread nD τ) (ms3_1 t) fullShare ((dat3 V c).after 1 t) from by
          unfold Dat.leavesExact; rw [liveAt3_1 t], after3_1]
  iintro ⟨⟨⟨⟨%ds, %hds, HS⟩, HR⟩, Hg⟩, Ho, ⟨%d0, H0⟩, ⟨%d1, H1⟩, ⟨%d2, H2⟩⟩
  iapply (run0 c (grid3.coords t) _ _ _ _ _ _ _ _ (iblk3 V c 0 t) (iblk3 V c 1 t) ((dat3 V c).before 2 t d2) ds Set.univ _)
  iframe H0 H1 H2 HS
  iintro ⟨H0, H1, H2, HS⟩
  iframe HR Hg Ho H0 H1
  isplitl [HS]
  · iexists _; isplitr; swap; · iexact HS
    ipureintro; exact fun _ => acc3 V c t _ ds hds
  iapply out3 V c t d2 ds hds $$ H2

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = PhiS3 V c 0 (Nat.zero_le _) from rfl, PhiA3_eq]; unfold PhiS3
  iintro ⟨⟨⟨%d, HS⟩, HR⟩, Hg⟩
  iframe HR Hg
  iexists d; isplitr
  · ipureintro; exact fun h => absurd rfl h
  iexact HS

theorem hout3 (c : Dev nD) : (dat3 V c).Φ (Fin.last cfg3.N) ⊢ Pipeline.ΦA spec3 c := by
  rw [show (dat3 V c).Φ (Fin.last cfg3.N) = PhiS3 V c cfg3.N (Nat.le_refl _) from rfl, PhiA3_eq]; unfold PhiS3
  iintro ⟨⟨⟨%d, -, HS⟩, HR⟩, Hg⟩
  iframe HR Hg
  iexists _; iexact HS

end Cert.KernelIdeal.Hand

end
-- ==== Proof.KI.R4Runs.lean ====
import proofs.«428353_j4698694222361_2_alg».proof.Proof.Gen.KernelIdeal.Launch
import proofs.«428353_j4698694222361_2_alg».proof.Proof.Gen.KernelIdeal.Skeleton
import proofs.«428353_j4698694222361_2_alg».proof.Proof.KI.Sched
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

theorem coords4_1 (t : Fin grid4.N) : (grid4.coords t 1).val = t.val % 782 := by
  show t.val / grid4.stride 1 % grid4.bound 1 = t.val % 782
  rw [show grid4.stride 1 = 1 from by decide, Nat.div_one]; rfl

abbrev cond4_0 (i : grid4.Coords) : Prop := (Scalar.cmpi .ne (Scalar.extui (Scalar.cmpi .eq (BitVec.ofNat 32 (i 1).val) 0#32)) 0#32) = 1#1

abbrev cond4_1 (i : grid4.Coords) : Prop := k4_cond2 i = 1#1

/-- Over the inner coordinate's 782 values: the first condition holds exactly at 0, the second exactly at 781. -/
theorem cond4_iff : ∀ k : Fin 782, ((Scalar.cmpi .ne (Scalar.extui (Scalar.cmpi .eq (BitVec.ofNat 32 k.val) 0#32)) 0#32) = 1#1 ↔ k.val = 0)
    ∧ ((Scalar.cmpi .ne (Scalar.extui (Scalar.cmpi .eq (BitVec.ofNat 32 k.val) 781#32)) 0#32) = 1#1 ↔ k.val = 781) := by
  decide +kernel

theorem hcond4_0 (t : Fin cfg4.N) : cond4_0 (grid4.coords t) ↔ t.val % 782 = 0 :=
  (cond4_iff (grid4.coords t 1)).1.trans (by rw [coords4_1])
theorem hcond4_1 (t : Fin cfg4.N) : cond4_1 (grid4.coords t) ↔ t.val % 782 = 781 :=
  (cond4_iff (grid4.coords t 1)).2.trans (by rw [coords4_1])

abbrev scM4_0 : Memref sig .tc .vmem S2048x64 .f32 := Memref.whole cc4_scratch0
abbrev scM4_1 : Memref sig .tc .vmem S2048x1 .f32 := Memref.whole cc4_scratch1

theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1])
          ∗ (∃ r, prngReg c r)) := by
  unfold Pipeline.ΦA; rw [scopedRest4_split]; simp only [scM4_0, scM4_1, owns_whole]; try rfl

theorem leaves4 {c : Dev nD} (dat : Dat τ (Elt F) Unit ℕ (UR sig nD τ) ℕ cfg4 c) (w : Fin cfg4.W) (hi : ∀ i, cfg4.idle w i = !decide (cond4_1 i))
    (hf : ∀ t : Fin cfg4.N, (cfg4.win w).flush t = true ↔ t.val % 782 = 781) (t : Fin cfg4.N) (d Y) (hY : cond4_1 (grid4.coords t) → Y = dat.after w t) :
    owns (c : Thread nD τ) ((cfg4.win w).stage (cfg4.slots t w)) fullShare (if cond4_1 (grid4.coords t) then Y else dat.before w t d) ⊢ dat.leavesExact w t := by
  by_cases h : cond4_1 (grid4.coords t)
  · rw [if_pos h, hY h]; unfold Dat.leavesExact; rw [(hi _).trans (congrArg (!·) (decide_eq_true h))]; exact Entails.refl _
  · rw [if_neg h, dat.leavesExact_idle w t ((hi _).trans (congrArg (!·) (decide_eq_false h))) (Bool.eq_false_iff.mpr fun e => h ((hcond4_1 t).mpr ((hf t).mp e)))]
    iintro H; iexists d; iexact H

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_of {c : Dev nD} (dat : Dat τ (Elt F) Unit ℕ (UR sig nD τ) ℕ cfg4 c) (hA : ∀ w, dat.A w = V c (Pipeline.arrRef spec4 w))
    (h0 : ∀ t, dat.after 0 t = iblk4 V c 0 t) (h1 : ∀ t, dat.after 1 t = iblk4 V c 1 t) :
    (∀ t d, dat.before 0 t d = iblk4 V c 0 t) ∧ ∀ t d, dat.before 1 t d = iblk4 V c 1 t := by
  constructor <;> intro t d <;>
  exact (dat.before_in_eq_fetched _ rfl (fun _ => rfl) (fun _ _ _ => rfl) (fun t => by (first | rw [h0] | rw [h1]); unfold Dat.blockOf iblk4; rw [hA]; try rfl) t d).trans
    (by unfold Dat.fetched Dat.blockOf iblk4; rw [hA]; try rfl)

end Cert.KernelIdeal.Hand

end
-- ==== Proof.KI.R4Body.lean ====
import proofs.«428353_j4698694222361_2_alg».proof.Proof.KI.R4Runs
import proofs.«428353_j4698694222361_2_alg».proof.Proof.KI.R1RunA

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def step4 (c : Dev nD) (t : Fin cfg4.N) (p : (Vec F S2048x64 .f32 × Vec F S2048x1 .f32) × (Vec F S2048x64 .f32 × Vec F S2048x1 .f32)) : (Vec F S2048x64 .f32 × Vec F S2048x1 .f32) × (Vec F S2048x64 .f32 × Vec F S2048x1 .f32) :=
  ((if cond4_1 (grid4.coords t) then (scr1 (grid4.coords t) (iblk4 V c 0 t) (iblk4 V c 1 t) p.2).1 else p.1.1,
    if cond4_1 (grid4.coords t) then (scr1 (grid4.coords t) (iblk4 V c 0 t) (iblk4 V c 1 t) p.2).2 else p.1.2),
    scr1 (grid4.coords t) (iblk4 V c 0 t) (iblk4 V c 1 t) p.2)

/-- The two output buffers, then the two scratches, after the body at position `n`, starting from zeros. -/
def outsAt4 (c : Dev nD) (n : ℕ) (hn : n < cfg4.N) : (Vec F S2048x64 .f32 × Vec F S2048x1 .f32) × (Vec F S2048x64 .f32 × Vec F S2048x1 .f32) :=
  step4 V c ⟨n, hn⟩ (match n, hn with
    | 0, _ => ((k4_pay1, k4_pay2), (k4_pay1, k4_pay2))
    | k + 1, h => outsAt4 c k (Nat.lt_of_succ_lt h))

theorem outs4_last (c : Dev nD) (t : Fin cfg4.N) (h : cond4_1 (grid4.coords t)) : (outsAt4 V c t.val t.isLt).1 = (outsAt4 V c t.val t.isLt).2 := by
  unfold outsAt4 step4; dsimp only; rw [if_pos h, if_pos h]

def PhiS4 (c : Dev nD) (n : ℕ) : sProp 𝕄 :=
  iprop(∃ s : Vec F S2048x64 .f32 × Vec F S2048x1 .f32,
    ⌜∀ h : n < cfg4.N, scr1 (grid4.coords ⟨n, h⟩) (iblk4 V c 0 ⟨n, h⟩) (iblk4 V c 1 ⟨n, h⟩) s = (outsAt4 V c n h).2⌝
    ∗ owns (c : Thread nD τ) scM4_0 fullShare s.1 ∗ owns (c : Thread nD τ) scM4_1 fullShare s.2
    ∗ Pipeline.scopedRestBut (Ix := Unit) (Name := ℕ) (U := UR sig nD τ) (Lvl := ℕ) (Val := Elt F) spec4 c [cc4_scratch0, cc4_scratch1] ∗ (∃ r, prngReg c r))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1.1
    | ⟨3, _⟩ => (outsAt4 V c t.val t.isLt).1.2
  Φ t := PhiS4 V c t.val
  q _ := fullShare
  owed _ := 0

theorem A_eq4 (c : Dev nD) (w : Fin cfg4.W) : (dat4 V c).A w = V c (Pipeline.arrRef spec4 w) := rfl
theorem q_eq4 (c : Dev nD) (w : Fin cfg4.W) : (dat4 V c).q w = fullShare := rfl
theorem owed_eq4 (c : Dev nD) (t : Fin (cfg4.N + 1)) : (dat4 V c).owed t = 0 := rfl
theorem recorded_eq4 (c : Dev nD) (t : Fin (cfg4.N + 1)) : (dat4 V c).recorded t = Set.univ := rfl
theorem after4_2 (c : Dev nD) (t : Fin cfg4.N) : (dat4 V c).after 2 t = (outsAt4 V c t.val t.isLt).1.1 := rfl
theorem after4_3 (c : Dev nD) (t : Fin cfg4.N) : (dat4 V c).after 3 t = (outsAt4 V c t.val t.isLt).1.2 := rfl

theorem body_obligation4 (c : Dev nD) : BodyObligation (dat4 (F := F) V c) (defs₀ (F := F)) Variants.none () Set.univ := fun t => by
  rw [bigSep_W4, bigSep_W4]
  show _ ⊢ wp _ _ _ (bodyAt4 t) _
  unfold bodyAt4; rw [show cc4__scatter_kernel (F := F) = kern1 from rfl]
  obtain ⟨b0, b1⟩ := before4_of V (dat4 V c) (fun _ => rfl) (fun _ => rfl) fun _ => rfl
  simp only [b0, b1]
  rw [show (dat4 V c).Φ t.castSucc = PhiS4 V c t.val from rfl, show (dat4 V c).Φ t.succ = PhiS4 V c (t.val + 1) from rfl,
    show (dat4 V c).owesAt () t.succ = (dat4 V c).owesAt () t.castSucc from rfl]
  unfold PhiS4
  iintro ⟨⟨%s, %hs, HS0, HS1, Hr, Hg⟩, Ho, ⟨%d0, H0⟩, ⟨%d1, H1⟩, ⟨%d2, H2⟩, ⟨%d3, H3⟩⟩
  iapply run1 c (grid4.coords t) _ _ _ _ _ _ _ _ _ _ _ _ (iblk4 V c 0 t) (iblk4 V c 1 t) _ _ s Set.univ _
  iframe H0 H1 H2 H3 HS0 HS1
  rw [hs t.isLt]
  iintro ⟨H0, H1, H2, H3, HS0, HS1⟩
  isplitl [HS0 HS1 Hr Hg]
  · iexists (outsAt4 V c t.val t.isLt).2; isplitr; · ipureintro; exact fun _ => rfl
    iframe
  iframe Ho
  isplitl [H0]; · iexact H0
  isplitl [H1]; · iexact H1
  isplitl [H2]
  · iapply leaves4 (dat4 V c) 2 (fun _ => rfl) flush4_2 t d2 _ fun h => (congrArg Prod.fst (outs4_last V c t h)).symm
    iexact H2
  iapply leaves4 (dat4 V c) 3 (fun _ => rfl) flush4_3 t d3 _ fun h => (congrArg Prod.snd (outs4_last V c t h)).symm
  iexact H3

theorem hin4 (c : Dev nD) : Pipeline.ΦA spec4 c ⊢ (dat4 V c).Φ 0 := by
  rw [PhiA4_eq]; show _ ⊢ PhiS4 V c 0; unfold PhiS4
  iintro ⟨⟨⟨⟨%d0, HS0⟩, ⟨%d1, HS1⟩⟩, Hr⟩, Hg⟩
  iexists (d0, d1); isplitr
  · ipureintro; intro h; show scr1 _ _ _ _ = scr1 _ _ _ _; unfold scr1; simp only [if_pos ((hcond4_0 ⟨0, h⟩).mpr rfl)]
  iframe

theorem hout4 (c : Dev nD) : (dat4 V c).Φ (Fin.last cfg4.N) ⊢ Pipeline.ΦA spec4 c := by
  rw [PhiA4_eq]; show PhiS4 V c _ ⊢ _; unfold PhiS4
  iintro ⟨%s, -, HS0, HS1, Hr, Hg⟩
  iframe Hr Hg
  isplitl [HS0]; · iexists _; iexact HS0
  iexists _; iexact HS1

end Cert.KernelIdeal.Hand

end
-- ==== Proof.KI.R5Body.lean ====
import proofs.«428353_j4698694222361_2_alg».proof.Proof.Gen.KernelIdeal.Launch
import proofs.«428353_j4698694222361_2_alg».proof.Proof.Gen.KernelIdeal.Skeleton
import proofs.«428353_j4698694222361_2_alg».proof.Proof.KI.Sched
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem hz5 : (![0, 0] : Fin 2 → Nat) = fun _ => 0 := funext fun a => by fin_cases a <;> rfl

abbrev r5_a : Rect S2048x64 := Rect.unit (s := S2048x64) ![0, 0] S2048x64.size inb_S2048x64_S2048x64_0_0
abbrev r5_d : Rect S2048x1 := Rect.unit (s := S2048x1) ![0, 0] S2048x1.size inb_S2048x1_S2048x1_0_0
abbrev r5_m : Rect S64x40 := Rect.unit (s := S64x40) ![0, 0] S64x40.size inb_S64x40_S64x40_0_0
abbrev r5_b : Rect S1x40 := Rect.unit (s := S1x40) ![0, 0] S1x40.size inb_S1x40_S1x40_0_0
abbrev r5_o : Rect S2048x40 := Rect.unit (s := S2048x40) ![0, 0] S2048x40.size inb_S2048x40_S2048x40_0_0

section
variable (x0 x1 : Vec F S2048x64 .f32) (x2 : Vec F S2048x1 .f32) (x3 : Vec F S64x40 .f32) (x4 : Vec F S1x40 .f32) (x5 : Vec F S64x40 .f32)

/-- The output buffer after the body: its one whole store, the payload of the six whole loads. -/
def out5_6 : Vec F S2048x40 .f32 :=
  View.canon [⟨r5_o, k5_pay1 (View.ld x1 r5_a) (View.ld x2 r5_d) (View.ld x0 r5_a) (View.ld x3 r5_m) (View.ld x5 r5_m) (View.ld x4 r5_b)⟩]

/-- A whole load reads the block itself and one whole store leaves its payload. -/
theorem out5_6_eq : out5_6 x0 x1 x2 x3 x4 x5 = k5_pay1 x1 x2 x0 x3 x5 x4 := by
  unfold out5_6
  rw [View.canon_unit_zero hz5, View.ld_unit_zero hz5, View.ld_unit_zero hz5, View.ld_unit_zero hz5,
    View.ld_unit_zero hz5, View.ld_unit_zero hz5, View.ld_unit_zero hz5]

set_option maxHeartbeats 1000000 in
theorem sound_kernel5 (c : Dev nD) (E : Set ℕ) (i : grid5.Coords) (arg1 : Memref sig .tc .vmem S2048x64 .f32) (harg1 : arg1.IsWhole) (arg2 : Memref sig .tc .vmem S2048x64 .f32) (harg2 : arg2.IsWhole) (arg3 : Memref sig .tc .vmem S2048x1 .f32) (harg3 : arg3.IsWhole) (arg4 : Memref sig .tc .vmem S64x40 .f32) (harg4 : arg4.IsWhole) (arg5 : Memref sig .tc .vmem S1x40 .f32) (harg5 : arg5.IsWhole) (arg6 : Memref sig .tc .vmem S64x40 .f32) (harg6 : arg6.IsWhole) (arg7 : Memref sig .tc .vmem S2048x40 .f32) (harg7 : arg7.IsWhole)
    (K : PUnit → sProp 𝕄) :
    iprop(owns c arg1 fullShare x0 ∗ owns c arg2 fullShare x1 ∗ owns c arg3 fullShare x2 ∗ owns c arg4 fullShare x3 ∗ owns c arg5 fullShare x4 ∗ owns c arg6 fullShare x5 ∗ (∃ d, owns c arg7 fullShare d)
        ∗ (iprop(owns c arg1 fullShare x0 ∗ owns c arg2 fullShare x1 ∗ owns c arg3 fullShare x2 ∗ owns c arg4 fullShare x3 ∗ owns c arg5 fullShare x4 ∗ owns c arg6 fullShare x5 ∗ owns c arg7 fullShare (out5_6 x0 x1 x2 x3 x4 x5)) -∗ K ⟨⟩))
      ⊢ wp frame (wpE (defs₀ (F := F)) Variants.none c none) E (cc5__combine_kernel i arg1 harg1 arg2 harg2 arg3 harg3 arg4 harg4 arg5 harg5 arg6 harg6 arg7 harg7) K := by
  simp only [cc5__combine_kernel_eq_skeleton]; unfold cc5__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]; · iexists f0; iframe; ipureintro; rfl
  isplitl [H1]; · iexists f1; iframe; ipureintro; rfl
  isplitl [H2]; · iexists f2; iframe; ipureintro; rfl
  isplitl [H3]; · iexists f3; iframe; ipureintro; rfl
  isplitl [H4]; · iexists f4; iframe; ipureintro; rfl
  isplitl [H5]; · iexists f5; iframe; ipureintro; rfl
  iexists _; iframe; ipureintro
  exact View.read_writes_eq_canon _ _ _ (View.cover_of_tiled [⟨r5_o, _⟩] S2048x40.size (by rfl))

end

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

theorem A_eq5 (c : Dev nD) (w : Fin cfg5.W) : (dat5 V c).A w = V c (Pipeline.arrRef spec5 w) := by dsimp only [dat5]
theorem q_eq5 (c : Dev nD) (w : Fin cfg5.W) : (dat5 V c).q w = fullShare := by dsimp only [dat5]
theorem owed_eq5 (c : Dev nD) (t : Fin (cfg5.N + 1)) : (dat5 V c).owed t = 0 := by dsimp only [dat5]
theorem recorded_eq5 (c : Dev nD) (t : Fin (cfg5.N + 1)) : (dat5 V c).recorded t = Set.univ := by dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = out5_6 (iblk5 V c 0 t) (iblk5 V c 1 t) (iblk5 V c 2 t) (iblk5 V c 3 t) (iblk5 V c 4 t) (iblk5 V c 5 t) := by dsimp only [dat5]

theorem before5 (c : Dev nD) (t : Fin cfg5.N) :
    (∀ d, (dat5 V c).before 0 t d = iblk5 V c 0 t) ∧ (∀ d, (dat5 V c).before 1 t d = iblk5 V c 1 t)
    ∧ (∀ d, (dat5 V c).before 2 t d = iblk5 V c 2 t) ∧ (∀ d, (dat5 V c).before 3 t d = iblk5 V c 3 t)
    ∧ (∀ d, (dat5 V c).before 4 t d = iblk5 V c 4 t) ∧ (∀ d, (dat5 V c).before 5 t d = iblk5 V c 5 t) := by
  refine ⟨?_, ?_, ?_, ?_, ?_, ?_⟩ <;> intro d <;>
    exact ((dat5 V c).before_in_eq_fetched _ rfl (fun _ => rfl) (fun _ _ _ => rfl) (fun t => by dsimp only [dat5]; rfl) t d).trans
      (by dsimp only [dat5]; rfl)

theorem body_obligation5 (c : Dev nD) : BodyObligation (dat5 (F := F) V c) (defs₀ (F := F)) Variants.none () Set.univ := fun t => by
  rw [bigSep_W5, bigSep_W5]
  obtain ⟨b0, b1, b2, b3, b4, b5⟩ := before5 V c t
  simp only [b0, b1, b2, b3, b4, b5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  show _ ⊢ wp frame _ _ (bodyAt5 t) _
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 (iblk5 V c 0 t) (iblk5 V c 1 t) (iblk5 V c 2 t) (iblk5 V c 3 t) (iblk5 V c 4 t) (iblk5 V c 5 t) c Set.univ)
  iframe H0 H1 H2 H3 H4 H5
  isplitl [H6]; · iexists _; iexact H6
  iintro ⟨H0, H1, H2, H3, H4, H5, H6⟩
  iframe

theorem hin5 (c : Dev nD) : Pipeline.ΦA spec5 c ⊢ (dat5 V c).Φ 0 := BIBase.Entails.rfl
theorem hout5 (c : Dev nD) : (dat5 V c).Φ (Fin.last cfg5.N) ⊢ Pipeline.ΦA spec5 c := BIBase.Entails.rfl

end Cert.KernelIdeal.Hand

end
-- ==== Proof.KI.Run.lean ====
import proofs.«428353_j4698694222361_2_alg».proof.Proof.KI.R0Body
import proofs.«428353_j4698694222361_2_alg».proof.Proof.KI.R1Body
import proofs.«428353_j4698694222361_2_alg».proof.Proof.KI.R2Body
import proofs.«428353_j4698694222361_2_alg».proof.Proof.KI.R3Body
import proofs.«428353_j4698694222361_2_alg».proof.Proof.KI.R4Body
import proofs.«428353_j4698694222361_2_alg».proof.Proof.KI.R5Body
import proofs.«428353_j4698694222361_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem owesAt_of_zero {cfg : Cfg sig Λ₀} {c : Dev nD} (dat : Dat τ (Elt F) Unit ℕ (UR sig nD τ) ℕ cfg c) (t : Fin (cfg.N + 1))
    (h0 : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin
  rw [h0]
  iintro ⟨%W, HO⟩; iexists W; isplitr
  · ipureintro; intro x _; exact Or.inl (hr ▸ Set.mem_univ x)
  iexact HO

theorem zero_of_owesAt {cfg : Cfg sig Λ₀} {c : Dev nD} (dat : Dat τ (Elt F) Unit ℕ (UR sig nD τ) ℕ cfg c) (t : Fin (cfg.N + 1))
    (h0 : dat.owed t = 0) :
    dat.owesAt () t ⊢ (iprop(∃ W, owes (c : Thread nD τ) (0 : CellTallies nD τ sig Unit) W) : sProp 𝕄) := by
  unfold Pipeline.Dat.owesAt Pipeline.owesWithin
  rw [h0]
  iintro ⟨%W, -, HO⟩; iexists W; iexact HO

abbrev W0 : Dev nD → Valuation τ sig (Elt F) := fun c b => m ((c : Dev nD), b)
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev W4 : Dev nD → Valuation τ sig (Elt F) := fun c => StableHlo.after hostOps0_3 (W3 m c)
abbrev W5 : Dev nD → Valuation τ sig (Elt F) := fun c => StableHlo.after hostOps0_4 (W4 m c)
abbrev W6 : Dev nD → Valuation τ sig (Elt F) := fun c => StableHlo.after hostOps0_5 (W5 m c)
abbrev W7 : Dev nD → Valuation τ sig (Elt F) := fun c => StableHlo.after hostOps0_6 (W6 m c)
abbrev Vin0 : (c : Dev nD) → (b : Ref sig .tc) → Buf (Elt F) ((c : Thread nD τ).loc b) := fun c b => W7 m c b

def W8 (c : Dev nD) : Valuation τ sig (Elt F) :=
  Pipeline.withArrays spec0 c (W7 m c) fun w => (dat0 (Vin0 m) c).arrAt w cfg0.N
theorem W8_arr (c : Dev nD) (w : Fin cfg0.W) :
    W8 m c (Proc.devRef .tc (Pipeline.arrRef spec0 w)) = (dat0 (Vin0 m) c).arrAt w cfg0.N :=
  Pipeline.withArrays_arr spec0 launch0.win.arr_inj c _ _ w

abbrev Vin1 : (c : Dev nD) → (b : Ref sig .tc) → Buf (Elt F) ((c : Thread nD τ).loc b) := fun c b => W8 m c b
def W9 (c : Dev nD) : Valuation τ sig (Elt F) :=
  Pipeline.withArrays spec1 c (W8 m c) fun w => (dat1 (Vin1 m) c).arrAt w cfg1.N
theorem W9_arr (c : Dev nD) (w : Fin cfg1.W) :
    W9 m c (Proc.devRef .tc (Pipeline.arrRef spec1 w)) = (dat1 (Vin1 m) c).arrAt w cfg1.N :=
  Pipeline.withArrays_arr spec1 launch1.win.arr_inj c _ _ w

abbrev W10 : Dev nD → Valuation τ sig (Elt F) := fun c => StableHlo.after hostOps2 (W9 m c)
abbrev Vin2 : (c : Dev nD) → (b : Ref sig .tc) → Buf (Elt F) ((c : Thread nD τ).loc b) := fun c b => W10 m c b
def W11 (c : Dev nD) : Valuation τ sig (Elt F) :=
  Pipeline.withArrays spec2 c (W10 m c) fun w => (dat2 (Vin2 m) c).arrAt w cfg2.N
theorem W11_arr (c : Dev nD) (w : Fin cfg2.W) :
    W11 m c (Proc.devRef .tc (Pipeline.arrRef spec2 w)) = (dat2 (Vin2 m) c).arrAt w cfg2.N :=
  Pipeline.withArrays_arr spec2 launch2.win.arr_inj c _ _ w

abbrev W12 : Dev nD → Valuation τ sig (Elt F) := fun c => StableHlo.after hostOps3 (W11 m c)
abbrev Vin3 : (c : Dev nD) → (b : Ref sig .tc) → Buf (Elt F) ((c : Thread nD τ).loc b) := fun c b => W12 m c b
def W13 (c : Dev nD) : Valuation τ sig (Elt F) :=
  Pipeline.withArrays spec3 c (W12 m c) fun w => (dat3 (Vin3 m) c).arrAt w cfg3.N
theorem W13_arr (c : Dev nD) (w : Fin cfg3.W) :
    W13 m c (Proc.devRef .tc (Pipeline.arrRef spec3 w)) = (dat3 (Vin3 m) c).arrAt w cfg3.N :=
  Pipeline.withArrays_arr spec3 launch3.win.arr_inj c _ _ w

abbrev Vin4 : (c : Dev nD) → (b : Ref sig .tc) → Buf (Elt F) ((c : Thread nD τ).loc b) := fun c b => W13 m c b
def W14 (c : Dev nD) : Valuation τ sig (Elt F) :=
  Pipeline.withArrays spec4 c (W13 m c) fun w => (dat4 (Vin4 m) c).arrAt w cfg4.N
theorem W14_arr (c : Dev nD) (w : Fin cfg4.W) :
    W14 m c (Proc.devRef .tc (Pipeline.arrRef spec4 w)) = (dat4 (Vin4 m) c).arrAt w cfg4.N :=
  Pipeline.withArrays_arr spec4 launch4.win.arr_inj c _ _ w

abbrev W15 : Dev nD → Valuation τ sig (Elt F) := fun c => StableHlo.after hostOps5 (W14 m c)
abbrev Vin5 : (c : Dev nD) → (b : Ref sig .tc) → Buf (Elt F) ((c : Thread nD τ).loc b) := fun c b => W15 m c b
def W16 (c : Dev nD) : Valuation τ sig (Elt F) :=
  Pipeline.withArrays spec5 c (W15 m c) fun w => (dat5 (Vin5 m) c).arrAt w cfg5.N
theorem W16_arr (c : Dev nD) (w : Fin cfg5.W) :
    W16 m c (Proc.devRef .tc (Pipeline.arrRef spec5 w)) = (dat5 (Vin5 m) c).arrAt w cfg5.N :=
  Pipeline.withArrays_arr spec5 launch5.win.arr_inj c _ _ w

abbrev W17 : Dev nD → Valuation τ sig (Elt F) := fun c => StableHlo.after hostOps6 (W16 m c)

section Launch

variable (c : Dev nD) (r : Ref sig .tc)

abbrev Unwritten7 : Prop := r ∉ hostOps0_W ∧ r ∉ hostOps0_1_W ∧ r ∉ hostOps0_2_W ∧ r ∉ hostOps0_3_W ∧ r ∉ hostOps0_4_W
  ∧ r ∉ hostOps0_5_W ∧ r ∉ hostOps0_6_W
abbrev Unwritten9 : Prop := Unwritten7 r ∧ (∀ w, Pipeline.arrRef spec0 w ≠ r) ∧ ∀ w, Pipeline.arrRef spec1 w ≠ r
abbrev Unwritten14 : Prop := Unwritten9 r ∧ r ∉ hostOps2_W ∧ r ∉ hostOps3_W ∧ (∀ w, Pipeline.arrRef spec2 w ≠ r)
  ∧ (∀ w, Pipeline.arrRef spec3 w ≠ r) ∧ ∀ w, Pipeline.arrRef spec4 w ≠ r
abbrev Unwritten17 : Prop := Unwritten14 r ∧ r ∉ hostOps5_W ∧ r ∉ hostOps6_W ∧ ∀ w, Pipeline.arrRef spec5 w ≠ r

theorem W7_launch : Unwritten7 r → W7 m c (Proc.devRef .tc r) = m ((c : Thread nD τ).loc r)
  | ⟨a0, a1, a2, a3, a4, a5, a6⟩ =>
    (V7_of m c r a6).trans <| (V6_of m c r a5).trans <| (V5_of m c r a4).trans <| (V4_of m c r a3).trans <|
    (V3_of m c r a2).trans <| (V2_of m c r a1).trans (V1_of m c r a0)

theorem W9_launch : Unwritten9 r → W9 m c (Proc.devRef .tc r) = m ((c : Thread nD τ).loc r)
  | ⟨h, b0, b1⟩ => (Pipeline.withArrays_of_ne spec1 c _ _ r b1).trans <| (Pipeline.withArrays_of_ne spec0 c _ _ r b0).trans (W7_launch m c r h)

theorem W14_launch : Unwritten14 r → W14 m c (Proc.devRef .tc r) = m ((c : Thread nD τ).loc r)
  | ⟨h, a9, a11, b2, b3, b4⟩ =>
    (Pipeline.withArrays_of_ne spec4 c _ _ r b4).trans <| (Pipeline.withArrays_of_ne spec3 c _ _ r b3).trans <| (StableHlo.after_of_writes_sub hostOps3 _ hostOps3_writes a11).trans <|
    (Pipeline.withArrays_of_ne spec2 c _ _ r b2).trans <| (StableHlo.after_of_writes_sub hostOps2 _ hostOps2_writes a9).trans (W9_launch m c r h)

theorem W17_launch : Unwritten17 r → W17 m c (Proc.devRef .tc r) = m ((c : Thread nD τ).loc r)
  | ⟨h, a14, a16, b5⟩ =>
    (StableHlo.after_of_writes_sub hostOps6 _ hostOps6_writes a16).trans <| (Pipeline.withArrays_of_ne spec5 c _ _ r b5).trans <|
    (StableHlo.after_of_writes_sub hostOps5 _ hostOps5_writes a14).trans (W14_launch m c r h)

end Launch

theorem W17_arg0 (c : Dev nD) : W17 m c (Proc.devRef .tc main_arg0) = m ((c : Thread nD τ).loc main_arg0) :=
  W17_launch m c _ (by decide)
theorem W17_arg1 (c : Dev nD) : W17 m c (Proc.devRef .tc main_arg1) = m ((c : Thread nD τ).loc main_arg1) :=
  W17_launch m c _ (by decide)
theorem W17_arg2 (c : Dev nD) : W17 m c (Proc.devRef .tc main_arg2) = m ((c : Thread nD τ).loc main_arg2) :=
  W17_launch m c _ (by decide)
theorem W17_arg3 (c : Dev nD) : W17 m c (Proc.devRef .tc main_arg3) = m ((c : Thread nD τ).loc main_arg3) :=
  W17_launch m c _ (by decide)
theorem W17_arg4 (c : Dev nD) : W17 m c (Proc.devRef .tc main_arg4) = m ((c : Thread nD τ).loc main_arg4) :=
  W17_launch m c _ (by decide)
theorem W17_arg5 (c : Dev nD) : W17 m c (Proc.devRef .tc main_arg5) = m ((c : Thread nD τ).loc main_arg5) :=
  W17_launch m c _ (by decide)
theorem W17_arg6 (c : Dev nD) : W17 m c (Proc.devRef .tc main_arg6) = m ((c : Thread nD τ).loc main_arg6) :=
  W17_launch m c _ (by decide)
theorem W17_arg7 (c : Dev nD) : W17 m c (Proc.devRef .tc main_arg7) = m ((c : Thread nD τ).loc main_arg7) :=
  W17_launch m c _ (by decide)

def pdats : (p : Fin 6) → (c : Dev nD) → Dat τ (Elt F) Unit ℕ (UR sig nD τ) ℕ (Pipeline.pin (pcfgs (F := F)) adm p) c
  | ⟨0, _⟩ => fun c => dat0 (Vin0 m) c
  | ⟨1, _⟩ => fun c => dat1 (Vin1 m) c
  | ⟨2, _⟩ => fun c => dat2 (Vin2 m) c
  | ⟨3, _⟩ => fun c => dat3 (Vin3 m) c
  | ⟨4, _⟩ => fun c => dat4 (Vin4 m) c
  | ⟨5, _⟩ => fun c => dat5 (Vin5 m) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W17 m c) ∗ ∃ r, prngReg c r)

section RegionSteps

variable (pd : (p : Fin 6) → (c : Dev nD) → Dat τ (Elt F) Unit ℕ (UR sig nD τ) ℕ (Pipeline.pin (pcfgs (F := F)) adm p) c) (p : Fin 6)
  (hw : Pipeline.WinFacts (Pipeline.pin (pcfgs (F := F)) adm p).spec)
  (harr : ∀ w, ((Pipeline.pin (pcfgs (F := F)) adm p).spec w).arr.IsWhole)
  (c : Dev nD) (Wv Wv' : Valuation τ sig (Elt F))

set_option backward.isDefEq.respectTransparency.types false in
include hw harr in

theorem region_entry
    (hA : ∀ w, (pd p c).A w = Wv (Proc.devRef .tc (Pipeline.arrRef (Pipeline.pin (pcfgs (F := F)) adm p).spec w)))
    (hq : ∀ w, (pd p c).q w = fullShare) (h0 : (pd p c).owed 0 = 0) (hr : (pd p c).recorded 0 = Set.univ) :
    iprop(iprop(StableHlo.held (c : Thread nD τ) (Pipeline.ucRefs τ sig) Wv ∗ R c)
        ∗ Pipeline.ownSems0 (Ix := Unit) (Val := Elt F) (Name := ℕ) (U := UR sig nD τ) (Lvl := ℕ) (fun k : PEmpty => k.elim) c ∗ levAts L lv)
      ⊢ |={Set.univ}=> iprop((pd p c).arrays ((pd p c).arrAt · 0) ∗ Pipeline.prefHeld (pcfgs (F := F) p).pre c (fun _ => fullShare) (adm p).1
        ∗ (pd p c).owesAt () 0 ∗ (∃ r, prngReg c r)
        ∗ Pipeline.unscopedRest (Ix := Unit) (Name := ℕ) (U := UR sig nD τ) (Lvl := ℕ) (Pipeline.pin (pcfgs (F := F)) adm p).spec c (fun b => Wv b)) := by
  have hsplit := Pipeline.arrays_of_unscopedBufs (p := p) (pcfgs (F := F)) adm pd hw harr c ((pd p c).share_full hq) (fun b => Wv b) hA
  rw [Pipeline.unscopedBufs_held] at hsplit
  have hO := owesAt_of_zero (pd p c) 0 h0 hr
  iintro ⟨⟨Hub, Hp, HO⟩, -, -⟩
  ihave H := hsplit $$ Hub
  icases H with ⟨Ha, Hrest⟩
  imodintro
  isplitl [Ha]; · iexact Ha
  isplitr; · unfold Pipeline.prefHeld; rw [show (Finset.univ : Finset (Fin 0)) = ∅ from rfl, BI.bigSep_empty]; iempintro
  isplitl [HO]; · iapply hO; iexact HO
  isplitl [Hp]; · iexact Hp
  iexact Hrest

theorem region_in (hΦ : Pipeline.ΦA (Pipeline.pin (pcfgs (F := F)) adm p).spec c ⊢ (pd p c).Φ 0) :
    iprop((∃ r, prngReg c r) ∗ Pipeline.prefHeld (pcfgs (F := F) p).pre c (fun _ => fullShare) (adm p).1
        ∗ Pipeline.scopedRest (Pipeline.pin (pcfgs (F := F)) adm p).spec c) ⊢ (pd p c).Φ 0 := by
  refine BIBase.Entails.trans ?_ hΦ
  unfold Pipeline.ΦA
  iintro ⟨Hp, -, Hr⟩
  isplitl [Hr]; · iexact Hr
  iexact Hp

theorem region_out (hΦ : (pd p c).Φ (Fin.last (Pipeline.pin (pcfgs (F := F)) adm p).N) ⊢ Pipeline.ΦA (Pipeline.pin (pcfgs (F := F)) adm p).spec c) :
    (pd p c).Φ (Fin.last (Pipeline.pin (pcfgs (F := F)) adm p).N)
      ⊢ iprop((∃ r, prngReg c r) ∗ Pipeline.ownSems0 (fun k : PEmpty => k.elim) c ∗ Pipeline.scopedRest (Pipeline.pin (pcfgs (F := F)) adm p).spec c) := by
  rw [Pipeline.ownSems0_none]
  refine BIBase.Entails.trans hΦ ?_
  unfold Pipeline.ΦA
  iintro ⟨Hr, Hp⟩
  isplitl [Hp]; · iexact Hp
  isplitr; · iempintro
  iexact Hr

set_option backward.isDefEq.respectTransparency.types false in
include hw harr in

theorem region_exit (hq : ∀ w, (pd p c).q w = fullShare) (h0 : (pd p c).owed (Fin.last _) = 0)
    (hF : ∀ w, Wv' (Proc.devRef .tc (Pipeline.arrRef (Pipeline.pin (pcfgs (F := F)) adm p).spec w)) = (pd p c).arrAt w (Pipeline.pin (pcfgs (F := F)) adm p).N)
    (hne : ∀ b : Ref sig .tc, (∀ w, Pipeline.arrRef (Pipeline.pin (pcfgs (F := F)) adm p).spec w ≠ b) → Wv' (Proc.devRef .tc b) = Wv (Proc.devRef .tc b)) :
    iprop((pd p c).arrays ((pd p c).arrAt · (Pipeline.pin (pcfgs (F := F)) adm p).N) ∗ (pd p c).owesAt () (Fin.last (Pipeline.pin (pcfgs (F := F)) adm p).N)
        ∗ (∃ r, prngReg c r)
        ∗ Pipeline.unscopedRest (Ix := Unit) (Name := ℕ) (U := UR sig nD τ) (Lvl := ℕ) (Pipeline.pin (pcfgs (F := F)) adm p).spec c (fun b => Wv b))
      ⊢ |={Set.univ}=> iprop(StableHlo.held (c : Thread nD τ) (Pipeline.ucRefs τ sig) Wv' ∗ R c) := by
  have hjoin := Pipeline.unscopedBufs_of_arrays (p := p) (pcfgs (F := F)) adm (Ix := Unit) (Name := ℕ) (U := UR sig nD τ) (Lvl := ℕ)
    hw harr c pd ((pd p c).share_full hq) (fun b => Wv b) (fun b => Wv' b) ((pd p c).arrAt · (Pipeline.pin (pcfgs (F := F)) adm p).N)
    (fun w => (hF w).symm) fun b hb => hne b fun w e => hb (Finset.mem_image.mpr ⟨w, Finset.mem_univ _, e⟩)
  rw [Pipeline.unscopedBufs_held] at hjoin
  have hO := zero_of_owesAt (pd p c) (Fin.last _) h0
  iintro ⟨Ha, HO, HY, Hrest⟩
  imodintro
  isplitl [Ha Hrest]
  · iapply hjoin; isplitl [Ha] <;> iassumption
  isplitl [HY]; · iexact HY
  iapply hO; iexact HO

end RegionSteps

set_option backward.isDefEq.respectTransparency.types false in
def regOf (p : Fin 6) (lf : Pipeline.LaunchFacts (nD := nD) (τ := τ) cfgs p) (Wv Wv' : Dev nD → Valuation τ sig (Elt F))
    (hbody : ∀ c, Pipeline.BodyObligationLoose (pdats m p c) (defs₀ (F := F)) 𝒱₀ () Set.univ)
    (hA : ∀ c w, (pdats m p c).A w = Wv c (Proc.devRef .tc (Pipeline.arrRef (cfgs p).spec w)))
    (hq : ∀ c w, (pdats m p c).q w = fullShare) (h0 : ∀ c t, (pdats m p c).owed t = 0)
    (hr : ∀ c t, (pdats m p c).recorded t = Set.univ)
    (hin : ∀ c, Pipeline.ΦA (cfgs p).spec c ⊢ (pdats m p c).Φ 0)
    (hout : ∀ c, (pdats m p c).Φ (Fin.last (cfgs p).N) ⊢ Pipeline.ΦA (cfgs p).spec c)
    (hF : ∀ c w, Wv' c (Proc.devRef .tc (Pipeline.arrRef (cfgs p).spec w)) = (pdats m p c).arrAt w (cfgs p).N)
    (hne : ∀ c (b : Ref sig .tc), (∀ w, Pipeline.arrRef (cfgs p).spec w ≠ b) → Wv' c (Proc.devRef .tc b) = Wv c (Proc.devRef .tc b)) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ L lv p h0
  pre c := iprop(StableHlo.held (c : Thread nD τ) (Pipeline.ucRefs τ sig) (Wv c) ∗ R c)
  post c := iprop(StableHlo.held (c : Thread nD τ) (Pipeline.ucRefs τ sig) (Wv' c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => Wv c b
  hentry c := region_entry (pdats m) p lf.win lf.arr_whole c (Wv c) (hA c) (hq c) (h0 c 0) (hr c 0)
  hin c := region_in (pdats m) p c (hin c)
  hout c := region_out (pdats m) p c (hout c)
  hexit c := region_exit (pdats m) p lf.win lf.arr_whole c (Wv c) (Wv' c) (hq c) (h0 c _) (hF c) (hne c)

set_option backward.isDefEq.respectTransparency.types false in
abbrev runSegs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .host (hseg hostOps0_5 hostOps0_5_sub hostOps0_5_fresh (W5 m)),
    .host (hseg hostOps0_6 hostOps0_6_sub hostOps0_6_fresh (W6 m)),
    .region (regOf m 0 launch0 (W7 m) (W8 m) (fun c => (body_obligation0 (Vin0 m) c).loose) (A_eq0 (Vin0 m))
      (q_eq0 (Vin0 m)) (owed_eq0 (Vin0 m)) (recorded_eq0 (Vin0 m)) (hin0 (Vin0 m)) (hout0 (Vin0 m)) (W8_arr m) fun c => Pipeline.withArrays_of_ne spec0 c _ _),
    .region (regOf m 1 launch1 (W8 m) (W9 m) (fun c => (body_obligation1 (Vin1 m) c).loose) (A_eq1 (Vin1 m))
      (q_eq1 (Vin1 m)) (owed_eq1 (Vin1 m)) (recorded_eq1 (Vin1 m)) (hin1 (Vin1 m)) (hout1 (Vin1 m)) (W9_arr m) fun c => Pipeline.withArrays_of_ne spec1 c _ _),
    .host (hseg hostOps2 hostOps2_sub hostOps2_fresh (W9 m)),
    .region (regOf m 2 launch2 (W10 m) (W11 m) (fun c => (body_obligation2 (Vin2 m) c).loose) (A_eq2 (Vin2 m))
      (q_eq2 (Vin2 m)) (owed_eq2 (Vin2 m)) (recorded_eq2 (Vin2 m)) (hin2 (Vin2 m)) (hout2 (Vin2 m)) (W11_arr m) fun c => Pipeline.withArrays_of_ne spec2 c _ _),
    .host (hseg hostOps3 hostOps3_sub hostOps3_fresh (W11 m)),
    .region (regOf m 3 launch3 (W12 m) (W13 m) (fun c => (body_obligation3 (Vin3 m) c).loose) (A_eq3 (Vin3 m))
      (q_eq3 (Vin3 m)) (owed_eq3 (Vin3 m)) (recorded_eq3 (Vin3 m)) (hin3 (Vin3 m)) (hout3 (Vin3 m)) (W13_arr m) fun c => Pipeline.withArrays_of_ne spec3 c _ _),
    .region (regOf m 4 launch4 (W13 m) (W14 m) (fun c => (body_obligation4 (Vin4 m) c).loose) (A_eq4 (Vin4 m))
      (q_eq4 (Vin4 m)) (owed_eq4 (Vin4 m)) (recorded_eq4 (Vin4 m)) (hin4 (Vin4 m)) (hout4 (Vin4 m)) (W14_arr m) fun c => Pipeline.withArrays_of_ne spec4 c _ _),
    .host (hseg hostOps5 hostOps5_sub hostOps5_fresh (W14 m)),
    .region (regOf m 5 launch5 (W15 m) (W16 m) (fun c => (body_obligation5 (Vin5 m) c).loose) (A_eq5 (Vin5 m))
      (q_eq5 (Vin5 m)) (owed_eq5 (Vin5 m)) (recorded_eq5 (Vin5 m)) (hin5 (Vin5 m)) (hout5 (Vin5 m)) (W16_arr m) fun c => Pipeline.withArrays_of_ne spec5 c _ _),
    .host (hseg hostOps6 hostOps6_sub hostOps6_fresh (W16 m)) ]

theorem main_run (c : Dev nD) : main (F := F) c = Pipeline.Seg.run (runSegs m) := (main_chain c).trans (by chain_rfl)

theorem last_state (c : Dev nD) :
    iprop(StableHlo.held (c : Thread nD τ) (Pipeline.ucRefs τ sig) (W17 m c) ∗ R c)
      ⊢ (iprop(Tₙ m c ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

set_option backward.isDefEq.respectTransparency.types false in

theorem run_all (ρ : Dev nD → PrngReg) : θ_run defs (onTc (τ := τ) (main (F := F))) ⟨m, fun _ => 0, ρ⟩
    (fun r => ∀ c : Dev nD, ∀ b ∈ Pipeline.ucRefs τ sig, r.2.mem ((c : Thread nD τ).1, b) = W17 m c b) :=
  Pipeline.θ_run_regions_kit (pcfgs (F := F)) adm (pdats m) () cellOf_inj emb₁ defs₀ 𝒱₀ L lv m ρ main (runSegs m)
    (fun c Q => by rw [main_run m c])
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun c => last_state m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m c b)
    (hfin := fun c s' => by
      iintro ⟨⟨Hh, -⟩, HSI⟩
      unfold StableHlo.held
      imodintro
      iapply (pointsTo_read_all (Pipeline.ucRefs τ sig) (fun b => (((c : Thread nD τ)).1, b)) (W17 m c) s')
      isplitl [Hh] <;> iassumption)
    (hQ := fun s h => h)

end Cert.KernelIdeal.Hand

end
-- ==== Proof.KI.Carry.lean ====
import proofs.«428353_j4698694222361_2_alg».proof.Proof.KI.Run

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ) (c : Dev nD)

theorem W17_eq : W17 m c = StableHlo.after hostOps6 (W16 m c) := rfl

theorem carry8_v8 : W8 m c (Proc.devRef .tc main_v8) = W7 m c (Proc.devRef .tc main_v8) :=
  Pipeline.withArrays_of_ne spec0 c _ _ _ (by decide)

theorem carry10_v0 : W10 m c (Proc.devRef .tc main_v0) = W7 m c (Proc.devRef .tc main_v0) :=
  (StableHlo.after_of_writes_sub hostOps2 _ hostOps2_writes (by decide)).trans <| (Pipeline.withArrays_of_ne spec1 c _ _ _ (by decide)).trans (Pipeline.withArrays_of_ne spec0 c _ _ _ (by decide))

theorem carry10_agg : W10 m c (Proc.devRef .tc main_v11_0) = W9 m c (Proc.devRef .tc main_v11_0) :=
  StableHlo.after_of_writes_sub hostOps2 _ hostOps2_writes (by decide)
theorem carry10_deg : W10 m c (Proc.devRef .tc main_v11_1) = W9 m c (Proc.devRef .tc main_v11_1) :=
  StableHlo.after_of_writes_sub hostOps2 _ hostOps2_writes (by decide)

theorem carry9_arg2 : W9 m c (Proc.devRef .tc main_arg2) = m ((c : Thread nD τ).loc main_arg2) := W9_launch m c _ (by decide)
theorem carry9_arg3 : W9 m c (Proc.devRef .tc main_arg3) = m ((c : Thread nD τ).loc main_arg3) := W9_launch m c _ (by decide)
theorem carry9_arg4 : W9 m c (Proc.devRef .tc main_arg4) = m ((c : Thread nD τ).loc main_arg4) := W9_launch m c _ (by decide)

theorem carry12_v6 : W12 m c (Proc.devRef .tc main_v6) = W7 m c (Proc.devRef .tc main_v6) :=
  (StableHlo.after_of_writes_sub hostOps3 _ hostOps3_writes (by decide)).trans <| (Pipeline.withArrays_of_ne spec2 c _ _ _ (by decide)).trans <|
  (StableHlo.after_of_writes_sub hostOps2 _ hostOps2_writes (by decide)).trans <| (Pipeline.withArrays_of_ne spec1 c _ _ _ (by decide)).trans <|
  (W8_arr m c 0).trans (((dat0 (Vin0 m) c).arrAt_in 0 rfl _).trans (A_eq0 (Vin0 m) c 0))

theorem carry13_v8 : W13 m c (Proc.devRef .tc main_v8) = W7 m c (Proc.devRef .tc main_v8) :=
  (Pipeline.withArrays_of_ne spec3 c _ _ _ (by decide)).trans <| (StableHlo.after_of_writes_sub hostOps3 _ hostOps3_writes (by decide)).trans <|
  (Pipeline.withArrays_of_ne spec2 c _ _ _ (by decide)).trans <| (StableHlo.after_of_writes_sub hostOps2 _ hostOps2_writes (by decide)).trans <|
  (W9_arr m c 0).trans <| ((dat1 (Vin1 m) c).arrAt_in 0 rfl _).trans <| (A_eq1 (Vin1 m) c 0).trans (Pipeline.withArrays_of_ne spec0 c _ _ _ (by decide))

theorem carry15_v15 : W15 m c (Proc.devRef .tc main_v15) = W11 m c (Proc.devRef .tc main_v15) :=
  (StableHlo.after_of_writes_sub hostOps5 _ hostOps5_writes (by decide)).trans <| (Pipeline.withArrays_of_ne spec4 c _ _ _ (by decide)).trans <|
  (Pipeline.withArrays_of_ne spec3 c _ _ _ (by decide)).trans (StableHlo.after_of_writes_sub hostOps3 _ hostOps3_writes (by decide))

theorem carry15_agg : W15 m c (Proc.devRef .tc main_v18_0) = W14 m c (Proc.devRef .tc main_v18_0) :=
  StableHlo.after_of_writes_sub hostOps5 _ hostOps5_writes (by decide)
theorem carry15_deg : W15 m c (Proc.devRef .tc main_v18_1) = W14 m c (Proc.devRef .tc main_v18_1) :=
  StableHlo.after_of_writes_sub hostOps5 _ hostOps5_writes (by decide)

theorem carry14_arg5 : W14 m c (Proc.devRef .tc main_arg5) = m ((c : Thread nD τ).loc main_arg5) := W14_launch m c _ (by decide)
theorem carry14_arg6 : W14 m c (Proc.devRef .tc main_arg6) = m ((c : Thread nD τ).loc main_arg6) := W14_launch m c _ (by decide)
theorem carry14_arg7 : W14 m c (Proc.devRef .tc main_arg7) = m ((c : Thread nD τ).loc main_arg7) := W14_launch m c _ (by decide)

end Cert.KernelIdeal.Hand

end
-- ==== Proof.Spec.lean ====
import Idealize.ShloMosaic.PureOps.Ideal
import Idealize.ShloMosaic.Lib.ValueIdx

noncomputable section

namespace Cert.Spec

open Idealize.ShloMosaic Idealize.ShloMosaic.ValueIdx

def ind (a b : BitVec 32) : EReal := if a = b then 1 else 0

def gatherK (src : Fin 1601536 → BitVec 32) (tab : Fin 100352 → Fin 64 → EReal) (e : Fin 1601536) (d : Fin 64) : EReal :=
  ∑ n : Fin 100352, ind (src e) (BitVec.ofNat 32 n.val) * tab n d

def scatterK (dst : Fin 1601536 → BitVec 32) (msgs : Fin 1601536 → Fin 64 → EReal) (n : Fin 100352) (d : Fin 64) : EReal :=
  ∑ e : Fin 1601536, ind (BitVec.ofNat 32 n.val) (dst e) * msgs e d

def degK (dst : Fin 1601536 → BitVec 32) (n : Fin 100352) : EReal :=
  ∑ e : Fin 1601536, ind (BitVec.ofNat 32 n.val) (dst e)

def linK {M D : ℕ} (xin agg : Fin M → Fin 64 → EReal) (deg : Fin M → EReal)
    (wl : Fin 64 → Fin D → EReal) (bl : Fin D → EReal) (wr : Fin 64 → Fin D → EReal) (n : Fin M) (j : Fin D) : EReal :=
  ((∑ k : Fin 64, Ideal.div (agg n k) (max (deg n) 1) * wl k j) + bl j) + ∑ k : Fin 64, xin n k * wr k j

def reluK (z : EReal) : EReal := max z 0

def rowMax {D : ℕ} (z : Fin D → EReal) : EReal := Finset.univ.sup z

def logSoftmaxK {D : ℕ} (z : Fin D → EReal) (j : Fin D) : EReal :=
  (z j - rowMax z) - Ideal.log (∑ j' : Fin D, Ideal.exp (z j' - rowMax z))

def layer1 (src dst : Fin 1601536 → BitVec 32) (xp : Fin 100352 → Fin 64 → EReal)
    (wl : Fin 64 → Fin 64 → EReal) (bl : Fin 64 → EReal) (wr : Fin 64 → Fin 64 → EReal) (n : Fin 100352) (j : Fin 64) : EReal :=
  reluK (linK xp (scatterK dst (gatherK src xp)) (degK dst) wl bl wr n j)

def layer2 (src dst : Fin 1601536 → BitVec 32) (h : Fin 100352 → Fin 64 → EReal)
    (wl : Fin 64 → Fin 40 → EReal) (bl : Fin 40 → EReal) (wr : Fin 64 → Fin 40 → EReal) (n : Fin 100352) (j : Fin 40) : EReal :=
  logSoftmaxK (fun j' => linK h (scatterK dst (gatherK src h)) (degK dst) wl bl wr n j') j

abbrev EdgeIx : Type := (⟨2, ![2, 1600000]⟩ : Shape).Idx → BitVec 32

def srcP (ei : EdgeIx) (e : Fin 1601536) : BitVec 32 :=
  if h : e.val < 1600000 then ei (ix2 (0 : Fin 2) (⟨e.val, h⟩ : Fin 1600000)) else 100352#32

def dstP (ei : EdgeIx) (e : Fin 1601536) : BitVec 32 :=
  if h : e.val < 1600000 then ei (ix2 (1 : Fin 2) (⟨e.val, h⟩ : Fin 1600000)) else 100352#32

def padRows (x : Fin 100000 → Fin 64 → EReal) (n : Fin 100352) (d : Fin 64) : EReal :=
  if h : n.val < 100000 then x ⟨n.val, h⟩ d else 0

def refRow (w : BitVec 32) : Fin 100000 :=
  ⟨min ((if w.toInt < 0 then w + 100000#32 else w).toInt.toNat) 99999, by omega⟩

def refAgg (ei : EdgeIx) (xin : Fin 100000 → Fin 64 → EReal) (n : Fin 100000) (d : Fin 64) : EReal :=
  ∑ e ∈ Finset.univ.filter (fun e : Fin 1600000 => (ei (ix2 (1 : Fin 2) e)).toInt = (n.val : ℤ)),
    xin (refRow (ei (ix2 (0 : Fin 2) e))) d

def refDeg (ei : EdgeIx) (n : Fin 100000) : EReal :=
  ∑ _e ∈ Finset.univ.filter (fun e : Fin 1600000 => (ei (ix2 (1 : Fin 2) e)).toInt = (n.val : ℤ)), (1 : EReal)

def refLayer1 (ei : EdgeIx) (x : Fin 100000 → Fin 64 → EReal)
    (wl : Fin 64 → Fin 64 → EReal) (bl : Fin 64 → EReal) (wr : Fin 64 → Fin 64 → EReal) (n : Fin 100000) (j : Fin 64) : EReal :=
  reluK (linK x (refAgg ei x) (refDeg ei) wl bl wr n j)

def refLayer2 (ei : EdgeIx) (h : Fin 100000 → Fin 64 → EReal)
    (wl : Fin 64 → Fin 40 → EReal) (bl : Fin 40 → EReal) (wr : Fin 64 → Fin 40 → EReal) (n : Fin 100000) (j : Fin 40) : EReal :=
  logSoftmaxK (fun j' => linK h (refAgg ei h) (refDeg ei) wl bl wr n j') j

def SrcInRange (ei : EdgeIx) : Prop :=
  ∀ e : Fin 1600000, 0 ≤ (ei (ix2 (0 : Fin 2) e)).toInt ∧ (ei (ix2 (0 : Fin 2) e)).toInt < 100000

end Cert.Spec

end
-- ==== Proof.Val.Host.lean ====
import proofs.«428353_j4698694222361_2_alg».proof.Proof.Gen.KernelIdeal.Regions
import proofs.«428353_j4698694222361_2_alg».proof.Proof.Spec
import Idealize.ShloMosaic.Lib.Pipeline.Value
import Idealize.ShloMosaic.Lib.KernelVsHost
import Idealize.ShloMosaic.Lib.ValueLayout
import Idealize.ShloMosaic.Lib.StableHlo.Run
import Idealize.ShloMosaic.PureOps.Ideal.Laws

noncomputable section

namespace Cert.KernelIdeal.Val

open Idealize.ShloMosaic Idealize.ShloMosaic.TcCoe Idealize.ShloMosaic.ValueIdx Idealize.SL.Sem
open Cert.KernelIdeal Cert.KernelIdeal.Gen Cert.Spec

section Pure
variable {α : Type}

theorem padTab_apply (x : S100000x64.Idx → α) (v : S_.Idx → α)
    (hp : S100000x64.Pads (![0, 0] : Fin 2 → Nat) ![352, 0] ![0, 0] S100352x64) (hu : 0 < S_.numel)
    (n : Fin 100352) (d : Fin 64) :
    pad S100352x64 ![0, 0] ![352, 0] ![0, 0] x v hp hu (ix2 n d)
      = if h : n.val < 100000 then x (ix2 (⟨n.val, h⟩ : Fin 100000) d) else v ix0 := by
  split
  · next h =>
    exact pad_apply_of_inside _ _ _ x v hp hu _ (ix2 (⟨n.val, h⟩ : Fin 100000) d) fun a => match a with
      | ⟨0, _⟩ => by show n.val = 0 + n.val * (0 + 1); omega
      | ⟨1, _⟩ => by show d.val = 0 + d.val * (0 + 1); omega
  · next h =>
    exact (pad_apply_of_not_inside _ _ _ x v hp hu (ix2 n d) (0 : Fin 2) fun hin =>
      h ((Nat.div_one _).symm.trans_lt (show n.val / 1 < 100000 from hin.2.2))).trans (congrArg v (eq_ix0 _))

/-- Row o of the edge list, flattened and padded: inside the first 1600000 entries the entry (o, e), beyond them the padding word. -/
theorem padRow_apply (o : Nat) (ho : o < 2) (ei : S2x1600000.Idx → α) (hs : S2x1600000.Slices ![o, 0] S1x1600000)
    (hc : S1x1600000.ShapeCasts S1600000) (v : S_.Idx → α)
    (hp : S1600000.Pads (![0] : Fin 1 → Nat) ![1536] ![0] S1601536) (hu : 0 < S_.numel) (e : Fin 1601536) :
    pad S1601536 ![0] ![1536] ![0] (shapeCast S1600000 (extractStridedSlice S1x1600000 ![o, 0] ei hs) hc) v hp hu (ix1 e)
      = if h : e.val < 1600000 then ei (ix2 (⟨o, ho⟩ : Fin 2) (⟨e.val, h⟩ : Fin 1600000)) else v ix0 := by
  split
  · next h =>
    refine (pad_apply_of_inside _ _ _ _ v hp hu _ (ix1 (⟨e.val, h⟩ : Fin 1600000)) fun a => match a with
      | ⟨0, _⟩ => by show e.val = 0 + e.val * (0 + 1); omega).trans ?_
    exact (shapeCast_1a_a_apply _ hc _).trans (slice2_axis0_apply o ei hs 0 _ ⟨o, ho⟩ rfl)
  · next h =>
    exact (pad_apply_of_not_inside _ _ _ _ v hp hu (ix1 e) (0 : Fin 1) fun hin =>
      h ((Nat.div_one _).symm.trans_lt (show e.val / 1 < 1600000 from hin.2.2))).trans (congrArg v (eq_ix0 _))

theorem asColumn_apply (y : S1601536.Idx → α) (hc : S1601536.ShapeCasts S1601536x1) (e : Fin 1601536) :
    shapeCast S1601536x1 y hc (ix2 e (0 : Fin 1)) = y (ix1 e) := by
  refine shapeCast_apply y hc _ (ix1 e) ?_
  rw [Shape.rowMajor_val_two, Shape.rowMajor_val_one]
  show e.val = e.val * 1 + 0
  omega

/-- What equals a transposed matrix reads at (k, j) the matrix at (j, k). -/
theorem read_transpose {a b : Nat} {A : (⟨2, ![b, a]⟩ : Shape).Idx → α} {x : (⟨2, ![a, b]⟩ : Shape).Idx → α}
    {h : (⟨2, ![a, b]⟩ : Shape).Transposes [1, 0] ⟨2, ![b, a]⟩} (e : A = transpose ⟨2, ![b, a]⟩ [1, 0] x h) (k : Fin b) (j : Fin a) :
    A (ix2 k j) = x (ix2 j k) := e ▸ transpose_ix2_apply x h k j

/-- What equals a vector seen as one row reads, in column j, the vector's entry j. -/
theorem read_row {n : Nat} {A : (⟨2, ![1, n]⟩ : Shape).Idx → α} {y : (⟨1, ![n]⟩ : Shape).Idx → α}
    {h : (⟨1, ![n]⟩ : Shape).ShapeCasts ⟨2, ![1, n]⟩} (e : A = shapeCast ⟨2, ![1, n]⟩ y h) (j : Fin n) :
    A (ix2 (0 : Fin 1) j) = y (ix1 j) := e ▸ shapeCast_a_1a_apply y h 0 j

end Pure
section Stretches

variable (Vv : Valuation τ sig (Elt Ideal))

theorem s0_c : (StableHlo.after (hostOps0 (F := Ideal)) Vv main_c : IVec S_ 32) = constantI S_ 32 0#32 := by
  after_results <;> rfl

theorem s1_v0 : (StableHlo.after (hostOps0_1 (F := Ideal)) Vv main_v0 : FVec Ideal S100352x64 .f32)
    = pad S100352x64 ![0, 0] ![352, 0] ![0, 0] (Vv main_arg0 : FVec Ideal S100000x64 .f32)
        (sitofp .f32 (Vv main_c : IVec S_ 32) : FVec Ideal S_ .f32) pads_S100000x64_S100352x64_03520_000 h_S_ := by
  after_results <;> rfl

theorem s2_v2 : (StableHlo.after (hostOps0_2 (F := Ideal)) Vv main_v2 : IVec S1600000 32)
    = shapeCast S1600000 (extractStridedSlice S1x1600000 ![0, 0] (Vv main_arg1 : IVec S2x1600000 32) slices_S2x1600000_S1x1600000_0_0)
        shapeCasts_S1x1600000_S1600000 := by
  after_results <;> rfl
theorem s2_v4 : (StableHlo.after (hostOps0_2 (F := Ideal)) Vv main_v4 : IVec S1600000 32)
    = shapeCast S1600000 (extractStridedSlice S1x1600000 ![1, 0] (Vv main_arg1 : IVec S2x1600000 32) slices_S2x1600000_S1x1600000_1_0)
        shapeCasts_S1x1600000_S1600000 := by
  after_results <;> rfl
theorem s2_c0 : (StableHlo.after (hostOps0_2 (F := Ideal)) Vv main_c_0 : IVec S_ 32) = constantI S_ 32 100352#32 := by
  after_results <;> rfl

theorem s3_v5 : (StableHlo.after (hostOps0_3 (F := Ideal)) Vv main_v5 : IVec S1601536 32)
    = pad S1601536 ![0] ![1536] ![0] (Vv main_v2 : IVec S1600000 32) (Vv main_c_0 : IVec S_ 32)
        pads_S1600000_S1601536_015360 h_S_ := by
  after_results <;> rfl

theorem s4_v6 : (StableHlo.after (hostOps0_4 (F := Ideal)) Vv main_v6 : IVec S1601536x1 32)
    = shapeCast S1601536x1 (Vv main_v5 : IVec S1601536 32) shapeCasts_S1601536_S1601536x1 := by
  after_results <;> rfl
theorem s4_c1 : (StableHlo.after (hostOps0_4 (F := Ideal)) Vv main_c_1 : IVec S_ 32) = constantI S_ 32 100352#32 := by
  after_results <;> rfl

theorem s5_v7 : (StableHlo.after (hostOps0_5 (F := Ideal)) Vv main_v7 : IVec S1601536 32)
    = pad S1601536 ![0] ![1536] ![0] (Vv main_v4 : IVec S1600000 32) (Vv main_c_1 : IVec S_ 32)
        pads_S1600000_S1601536_015360 h_S_ := by
  after_results <;> rfl

theorem s6_v8 : (StableHlo.after (hostOps0_6 (F := Ideal)) Vv main_v8 : IVec S1x1601536 32)
    = shapeCast S1x1601536 (Vv main_v7 : IVec S1601536 32) shapeCasts_S1601536_S1x1601536 := by
  after_results <;> rfl
theorem s6_v9 : (StableHlo.after (hostOps0_6 (F := Ideal)) Vv main_v9 : S100352x64.Idx → EReal)
    = (Vv main_v0 : S100352x64.Idx → EReal) := by
  after_results <;> rfl

end Stretches

section Launch

variable (m : (ℓ : Loc nD τ sig) → Buf (Elt Ideal) ℓ) (c : Dev nD)

/-- The edge list and the node table as the specification reads them. -/
abbrev argE : EdgeIx := m ((c.tc : Thread nD τ).loc main_arg1)
abbrev argX : Fin 100000 → Fin 64 → EReal := fun r d => (m ((c.tc : Thread nD τ).loc main_arg0) : S100000x64.Idx → EReal) (ix2 r d)

/-- What the second stretch left in the padded table's buffer is the zero-padded table: the integer 0 converts to 0. -/
theorem xpad_of {f : S100352x64.Idx → EReal} (hf : f = (Gen.V2 (F := Ideal) m c main_v0 : S100352x64.Idx → EReal))
    (n : Fin 100352) (d : Fin 64) : f (ix2 n d) = padRows (argX m c) n d := by
  subst hf
  refine (congrFun (s1_v0 (Gen.V1 (F := Ideal) m c)) (ix2 n d)).trans ((padTab_apply _ _ _ _ n d).trans
    (dite_congr rfl (fun h => by rw [(Gen.V1_of m c main_arg0 (by decide)).trans rfl]) fun _ => ?_))
  show FloatOps.sitofp (F := Ideal) .f32 ((Gen.V1 (F := Ideal) m c main_c : IVec S_ 32) ix0) = 0
  rw [show (Gen.V1 (F := Ideal) m c main_c : IVec S_ 32) = constantI S_ 32 0#32 from s0_c (Gen.V0 (F := Ideal) m c)]
  exact sitofp_zero

theorem V2_arg1 : Gen.V2 (F := Ideal) m c main_arg1 = m ((c.tc : Thread nD τ).loc main_arg1) :=
  (Gen.V2_of m c main_arg1 (by decide)).trans ((Gen.V1_of m c main_arg1 (by decide)).trans rfl)

theorem V4_src (e : Fin 1601536) : (Gen.V4 (F := Ideal) m c main_v5 : IVec S1601536 32) (ix1 e) = srcP (argE m c) e := by
  refine (congrFun (s3_v5 (Gen.V3 (F := Ideal) m c)) (ix1 e)).trans ?_
  rw [show (Gen.V3 (F := Ideal) m c main_v2 : IVec S1600000 32) = _ from s2_v2 (Gen.V2 (F := Ideal) m c), V2_arg1, padRow_apply 0 (by omega)]
  exact dite_congr rfl (fun _ => rfl) fun _ => congrFun (s2_c0 (Gen.V2 (F := Ideal) m c)) ix0

theorem V6_dst (e : Fin 1601536) : (Gen.V6 (F := Ideal) m c main_v7 : IVec S1601536 32) (ix1 e) = dstP (argE m c) e := by
  refine (congrFun (s5_v7 (Gen.V5 (F := Ideal) m c)) (ix1 e)).trans ?_
  rw [(Gen.V5_of m c main_v4 (by decide)).trans (Gen.V4_of m c main_v4 (by decide)),
    show (Gen.V3 (F := Ideal) m c main_v4 : IVec S1600000 32) = _ from s2_v4 (Gen.V2 (F := Ideal) m c), V2_arg1, padRow_apply 1 (by omega)]
  exact dite_congr rfl (fun _ => rfl) fun _ => congrFun (s4_c1 (Gen.V4 (F := Ideal) m c)) ix0

theorem src_of {f : S1601536x1.Idx → BitVec 32} (hf : f = (Gen.V7 (F := Ideal) m c main_v6 : S1601536x1.Idx → BitVec 32)) :
    (fun e => f (ix2 e (0 : Fin 1))) = srcP (argE m c) := by
  subst hf
  rw [(Gen.V7_of m c main_v6 (by decide)).trans (Gen.V6_of m c main_v6 (by decide))]
  exact funext fun e => (congrFun (s4_v6 (Gen.V4 (F := Ideal) m c)) _).trans ((asColumn_apply _ _ e).trans (V4_src m c e))

/-- THE DESTINATIONS' ROW: the same for the destinations, in column e. -/
theorem dst_of {f : S1x1601536.Idx → BitVec 32} (hf : f = (Gen.V7 (F := Ideal) m c main_v8 : S1x1601536.Idx → BitVec 32)) :
    (fun e => f (ix2 (0 : Fin 1) e)) = dstP (argE m c) := by
  subst hf
  exact funext fun e => (read_row (s6_v8 (Gen.V6 (F := Ideal) m c)) e).trans (V6_dst m c e)

/-- THE PADDED TABLE, and the same in the narrow format, before the first region: not written again after the second stretch. -/
theorem V6_v0 : Gen.V6 (F := Ideal) m c main_v0 = Gen.V2 (F := Ideal) m c main_v0 :=
  (Gen.V6_of m c main_v0 (by decide)).trans <| (Gen.V5_of m c main_v0 (by decide)).trans <|
    (Gen.V4_of m c main_v0 (by decide)).trans (Gen.V3_of m c main_v0 (by decide))
theorem v7_v0 : Gen.V7 (F := Ideal) m c main_v0 = Gen.V2 (F := Ideal) m c main_v0 :=
  (Gen.V7_of m c main_v0 (by decide)).trans (V6_v0 m c)
theorem v7_v9 : (Gen.V7 (F := Ideal) m c main_v9 : S100352x64.Idx → EReal) = (Gen.V2 (F := Ideal) m c main_v0 : S100352x64.Idx → EReal) :=
  (s6_v9 (Gen.V6 (F := Ideal) m c)).trans (congrArg (fun b : S100352x64.Idx → EReal => b) (V6_v0 m c))

end Launch

section Between

variable (Vv : Valuation τ sig (Elt Ideal))

/-- The first layer's weights, transposed, and its bias as one row. -/
theorem h2_wl (k j : Fin 64) :
    (StableHlo.after (hostOps2 (F := Ideal)) Vv main_v12 : S64x64.Idx → EReal) (ix2 k j)
      = (Vv main_arg2 : S64x64.Idx → EReal) (ix2 j k) :=
  read_transpose (h := transposes_S64x64_S64x64_1_0) (by after_results <;> rfl) k j
theorem h2_wr (k j : Fin 64) :
    (StableHlo.after (hostOps2 (F := Ideal)) Vv main_v13 : S64x64.Idx → EReal) (ix2 k j)
      = (Vv main_arg4 : S64x64.Idx → EReal) (ix2 j k) :=
  read_transpose (h := transposes_S64x64_S64x64_1_0) (by after_results <;> rfl) k j
theorem h2_b (j : Fin 64) :
    (StableHlo.after (hostOps2 (F := Ideal)) Vv main_v14 : S1x64.Idx → EReal) (ix2 (0 : Fin 1) j)
      = (Vv main_arg3 : S64.Idx → EReal) (ix1 j) :=
  read_row (h := shapeCasts_S64_S1x64) (by after_results <;> rfl) j

theorem h3_bf : (StableHlo.after (hostOps3 (F := Ideal)) Vv main_v16 : S100352x64.Idx → EReal)
    = (Vv main_v15 : S100352x64.Idx → EReal) := by
  after_results <;> rfl

/-- The second layer's weights, transposed, and its bias as one row. -/
theorem h5_wl (k : Fin 64) (j : Fin 40) :
    (StableHlo.after (hostOps5 (F := Ideal)) Vv main_v19 : S64x40.Idx → EReal) (ix2 k j)
      = (Vv main_arg5 : S40x64.Idx → EReal) (ix2 j k) :=
  read_transpose (h := transposes_S40x64_S64x40_1_0) (by after_results <;> rfl) k j
theorem h5_wr (k : Fin 64) (j : Fin 40) :
    (StableHlo.after (hostOps5 (F := Ideal)) Vv main_v20 : S64x40.Idx → EReal) (ix2 k j)
      = (Vv main_arg7 : S40x64.Idx → EReal) (ix2 j k) :=
  read_transpose (h := transposes_S40x64_S64x40_1_0) (by after_results <;> rfl) k j
theorem h5_b (j : Fin 40) :
    (StableHlo.after (hostOps5 (F := Ideal)) Vv main_v21 : S1x40.Idx → EReal) (ix2 (0 : Fin 1) j)
      = (Vv main_arg6 : S40.Idx → EReal) (ix1 j) :=
  read_row (h := shapeCasts_S40_S1x40) (by after_results <;> rfl) j

theorem h6_out (n : Fin 100000) (j : Fin 40) :
    (StableHlo.after (hostOps6 (F := Ideal)) Vv main_v23 : S100000x40.Idx → EReal) (ix2 n j)
      = (Vv main_v22 : S100352x40.Idx → EReal) (ix2 (⟨n.val, by omega⟩ : Fin 100352) j) := by
  have e : (StableHlo.after (hostOps6 (F := Ideal)) Vv main_v23 : FVec Ideal S100000x40 .f32)
      = extractStridedSlice S100000x40 ![0, 0] (Vv main_v22 : FVec Ideal S100352x40 .f32) slices_S100352x40_S100000x40_0_0 := by
    after_results <;> rfl
  exact (congrFun e (ix2 n j)).trans (slice2_axis0_apply 0 _ _ n j _ (Nat.zero_add _).symm)

end Between

end Cert.KernelIdeal.Val

end
-- ==== Proof.Val.Pay0.lean ====
import proofs.«428353_j4698694222361_2_alg».proof.Proof.Gen.KernelIdeal.Skeleton
import proofs.«428353_j4698694222361_2_alg».proof.Proof.Spec
import proofs.«428353_j4698694222361_2_alg».proof.Proof.Gen.KernelIdeal.Launch
import Idealize.ShloMosaic.Lib.ValueIdx
import Idealize.ShloMosaic.Lib.ValueLayout
import Idealize.ShloMosaic.Lib.Pipeline.Value
import Idealize.ShloMosaic.PureOps.Ideal.Laws
import Mathlib.Algebra.BigOperators.Fin
import Mathlib.Logic.Equiv.Fin.Basic
import Mathlib.Data.Fintype.BigOperators

noncomputable section

namespace Cert.KernelIdeal.Val

open Idealize.ShloMosaic Idealize.ShloMosaic.ValueIdx Cert.KernelIdeal Cert.KernelIdeal.Gen

-- Row q of block k of an array of T rows cut into blocks of 2048 rows.
def blkRow (T : ℕ) [NeZero T] (k : ℕ) (q : Fin 2048) : Fin T := ⟨(2048 * k + q.val) % T, Nat.mod_lt _ (NeZero.pos T)⟩

-- (k, q) ↦ 2048·k + q is a bijection of the K blocks' rows onto the array's rows.
theorem sum_blkRow (K : ℕ) [NeZero (K * 2048)] {M : Type} [AddCommMonoid M] (F : ℕ → Fin (K * 2048) → M) :
    ∑ k ∈ Finset.range K, ∑ q : Fin 2048, F (2048 * k + q.val) (blkRow (K * 2048) k q) = ∑ e, F e.val e := by
  rw [Finset.sum_range, ← Equiv.sum_comp finProdFinEquiv fun e => F e.val e, Fintype.sum_prod_type]
  refine Finset.sum_congr rfl fun k _ => Finset.sum_congr rfl fun q _ => ?_
  have hk := k.isLt
  have hq := q.isLt
  have e : blkRow (K * 2048) k q = finProdFinEquiv (k, q) := Fin.ext (by
    show (2048 * k.val + q.val) % (K * 2048) = q.val + 2048 * k.val
    rw [Nat.mod_eq_of_lt (by omega)]
    omega)
  rw [e]
  exact congrArg (F · _) (Nat.add_comm _ _)

-- Restarting at each multiple of K and adding one addend a point gives the partial sums of a row of K points.
theorem rowAcc {M : Type} [AddCommMonoid M] {K N : ℕ} (f : (n : ℕ) → n < N → M) (g : ℕ → ℕ → M)
    (h0 : ∀ (n : ℕ) (h : n < N), n % K = 0 → f n h = g (n / K) 0)
    (hs : ∀ (n : ℕ) (h : n + 1 < N), ¬(n + 1) % K = 0 →
      f (n + 1) h = f n (Nat.lt_of_succ_lt h) + g ((n + 1) / K) ((n + 1) % K)) :
    ∀ (n : ℕ) (h : n < N), f n h = ∑ s ∈ Finset.range (n % K + 1), g (n / K) s
  | 0, h => by rw [h0 0 h (Nat.zero_mod K), Nat.zero_mod, Finset.sum_range_one]
  | n + 1, h => by
    by_cases hm : (n + 1) % K = 0
    · rw [h0 _ h hm, hm, Finset.sum_range_one]
    · have hd : (n + 1) / K = n / K := Nat.succ_div_of_not_dvd fun hd => hm (Nat.mod_eq_zero_of_dvd hd)
      have e1 := Nat.div_add_mod (n + 1) K
      have e2 := Nat.div_add_mod n K
      rw [hd] at e1
      have e3 : (n + 1) % K = n % K + 1 := by omega
      rw [hs n h hm, rowAcc f g h0 hs n (Nat.lt_of_succ_lt h), hd, e3, Finset.sum_range_succ _ (n % K + 1)]

-- Words add and multiply as the naturals do modulo 2³².
theorem word_sum (k q : Nat) :
    IntOp.addi (BitVec.ofNat 32 q) (Scalar.muli (BitVec.ofNat 32 k) 2048#32) = BitVec.ofNat 32 (2048 * k + q) := by
  show BitVec.ofNat 32 q + BitVec.ofNat 32 k * BitVec.ofNat 32 2048 = BitVec.ofNat 32 (2048 * k + q)
  rw [BitVec.ofNat_add, BitVec.ofNat_mul, BitVec.add_comm, BitVec.mul_comm]

-- The comparison bit, widened and converted, is 1 or 0.
theorem word_ind (a b : BitVec 32) :
    (FloatOps.sitofp .f32 ((IntOp.cmpi .eq a b).setWidth 32) : Ideal .f32) = Cert.Spec.ind a b := by
  show ((((BitVec.ofBool (a == b)).setWidth 32).toInt : ℝ) : EReal) = if a = b then 1 else 0
  by_cases h : a = b
  · rw [if_pos h, beq_iff_eq.2 h, show ((BitVec.ofBool true).setWidth 32).toInt = 1 by decide, Int.cast_one, EReal.coe_one]
  · rw [if_neg h, beq_eq_false_iff_ne.2 h, show ((BitVec.ofBool false).setWidth 32).toInt = 0 by decide, Int.cast_zero,
      EReal.coe_zero]

theorem bcol_apply {α : Type} (v : S2048x1.Idx → α) (h : S2048x1.Broadcasts S2048x2048) (r q : Fin 2048) :
    broadcastTo S2048x2048 v h (ix2 r q) = v (ix2 r (0 : Fin 1)) := by
  refine broadcastTo_apply v h (ix2 r q) (ix2 r (0 : Fin 1)) fun ax => ?_
  match ax with
  | ⟨0, _⟩ => rfl
  | ⟨1, _⟩ => rfl

theorem mm_apply (L : FVec Ideal S2048x2048 .bf16) (R : FVec Ideal S2048x64 .bf16) (r : Fin 2048) (d : Fin 64) :
    matmul dot_S2048x2048_S2048x64_S2048x64_1_0_0_1_n_n none L R (constant (F := Ideal) S2048x64 .f32 0x00000000#32) (ix2 r d)
      = ∑ q : Fin 2048, L (ix2 r q) * R (ix2 q d) := by
  refine (Ideal.matmul_constant_zero_apply dot_S2048x2048_S2048x64_S2048x64_1_0_0_1_n_n none L R (ix2 r d)).trans ?_
  rw [← Equiv.sum_comp (contrEquiv1 dot_S2048x2048_S2048x64_S2048x64_1_0_0_1_n_n 2048 rfl rfl).symm]
  refine Finset.sum_congr rfl fun k _ => ?_
  have hk := contrEquiv1_symm_val dot_S2048x2048_S2048x64_S2048x64_1_0_0_1_n_n 2048 rfl rfl k
  refine congrArg₂ (· * ·) (congrArg L (funext fun a => Fin.ext ?_)) (congrArg R (funext fun a => Fin.ext ?_))
  · match a with
    | ⟨0, _⟩ => rfl
    | ⟨1, _⟩ => exact (DotDims.lhsIdx_val_of_single _ rfl _ _).trans hk
  · match a with
    | ⟨0, _⟩ => exact (DotDims.rhsIdx_val_of_single _ rfl _ _).trans hk
    | ⟨1, _⟩ => rfl

-- A reshaped splat of the zero word is zero everywhere.
theorem zeroSplat_apply (s : Shape) (h : s.ShapeCasts s) (y : s.Idx) :
    shapeCast s (broadcast s (Scalar.ofBits (F := Ideal) .f32 0x00000000#32)) h y = 0 :=
  (congrFun (shapeCast_self _ h) y).trans Ideal.ofBits_zero_f32

theorem pay0_zero (y : S2048x64.Idx) : k0_pay1 (F := Ideal) y = 0 := zeroSplat_apply _ _ y

theorem pay0_acc (i : grid0.Coords) (v7 : Vec Ideal S2048x1 .i32) (v14 : Vec Ideal S2048x64 .bf16) (v17 : Vec Ideal S2048x64 .f32) (r : Fin 2048) (d : Fin 64) :
    k0_pay2 i v7 v14 v17 (ix2 r d) = v17 (ix2 r d) + ∑ q : Fin 2048, Cert.Spec.ind (v7 (ix2 r (0 : Fin 1))) (BitVec.ofNat 32 (2048 * (i 1).val + q.val)) * v14 (ix2 q d) := by
  unfold k0_pay2
  refine (congrFun (shapeCast_self _ _) (ix2 r d)).trans ((addf_apply _ _ _).trans (congrArg (v17 (ix2 r d) + ·) ?_))
  refine (mm_apply _ _ r d).trans (Finset.sum_congr rfl fun q _ => congrArg₂ (· * ·) ?_ (congrFun (shapeCast_self v14 _) (ix2 q d)))
  show (FloatOps.sitofp .f32 ((IntOp.cmpi .eq (broadcastTo S2048x2048 (shapeCast S2048x1 v7 _) _ (ix2 r q))
      (IntOp.addi (iota .tc S2048x2048 32 [1] _ (ix2 r q)) (Scalar.muli (BitVec.ofNat 32 (i 1).val) 2048#32))).setWidth 32) : Ideal .f32) = _
  rw [bcol_apply, shapeCast_self, iota_single_apply, word_sum]
  exact word_ind _ _

-- The emitted payload is the accumulator: the change of format is the identity on the extended reals.
theorem gather_out (v25 : Vec Ideal S2048x64 .f32) : k0_pay3 (F := Ideal) v25 = v25 := rfl

-- Point t = 49·i + k works on block i of the source rows and of the output, and on block k of the table.
theorem gather_idx (t : Fin cfg0.N) : win0_0.index t (0 : Fin 2) = t.val / 49 ∧ win0_1.index t (0 : Fin 2) = t.val % 49
    ∧ win0_2.index t (0 : Fin 2) = t.val / 49 ∧ ((grid0.coords t) 1).val = t.val % 49 := by
  have hN : t.val < 38318 := lt_of_lt_of_eq t.isLt N_0
  have hi : (BitVec.ofNat 32 (t.val / 49 % 782)).toNat = t.val / 49 := by rw [BitVec.toNat_ofNat]; omega
  refine ⟨hi, ?_, hi, ?_⟩
  · show (BitVec.ofNat 32 (t.val / 1 % 49)).toNat = t.val % 49
    rw [BitVec.toNat_ofNat]
    omega
  · show t.val / 1 % 49 = t.val % 49
    omega

theorem gather_embSrc (t : Fin cfg0.N) (r : Fin 2048) :
    (((cfg0.win 0).blk t).view.emb (ix2 r (0 : Fin 1)) : S1601536x1.Idx) = ix2 (blkRow 1601536 (t.val / 49) r) (0 : Fin 1) := by
  have hN : t.val < 38318 := lt_of_lt_of_eq t.isLt N_0
  have hr := r.isLt
  refine funext fun a => Fin.ext ?_
  match a with
  | ⟨0, _⟩ =>
    show win0_0.index t (0 : Fin 2) * 2048 + 1 * r.val = (2048 * (t.val / 49) + r.val) % 1601536
    rw [(gather_idx t).1]
    omega
  | ⟨1, _⟩ => rfl

theorem gather_embTab (t : Fin cfg0.N) (q : Fin 2048) (d : Fin 64) :
    (((cfg0.win 1).blk t).view.emb (ix2 q d) : S100352x64.Idx) = ix2 (blkRow 100352 (t.val % 49) q) d := by
  have hq := q.isLt
  have hd := d.isLt
  refine funext fun a => Fin.ext ?_
  match a with
  | ⟨0, _⟩ =>
    show win0_1.index t (0 : Fin 2) * 2048 + 1 * q.val = (2048 * (t.val % 49) + q.val) % 100352
    rw [(gather_idx t).2.1]
    omega
  | ⟨1, _⟩ =>
    show win0_1.index t (1 : Fin 2) * 64 + 1 * d.val = d.val
    rw [show win0_1.index t (1 : Fin 2) = 0 from rfl]
    omega

theorem gather_embOut (t : Fin cfg0.N) (r : Fin 2048) (d : Fin 64) :
    (((cfg0.win 2).blk t).view.emb (ix2 r d) : S1601536x64.Idx) = ix2 (blkRow 1601536 (t.val / 49) r) d := by
  have hN : t.val < 38318 := lt_of_lt_of_eq t.isLt N_0
  have hr := r.isLt
  refine funext fun a => Fin.ext ?_
  match a with
  | ⟨0, _⟩ =>
    show win0_2.index t (0 : Fin 2) * 2048 + 1 * r.val = (2048 * (t.val / 49) + r.val) % 1601536
    rw [(gather_idx t).2.2.1]
    omega
  | ⟨1, _⟩ =>
    show win0_2.index t (1 : Fin 2) * 64 + 1 * d.val = d.val
    rw [show win0_2.index t (1 : Fin 2) = 0 from rfl]
    omega

-- Row x of the output lies in block x / 2048, and point 49·(x / 2048) + 48 ends that block's row of the grid.
theorem gather_cover (i : S1601536x64.Idx) : ∃ t : Fin cfg0.N, t.val % 49 = 48 ∧ i ∈ ((cfg0.win 2).blk t).view.set := by
  have hi0 : (i 0).val < 1601536 := idx2_lt0 i
  have hi1 : (i 1).val < 64 := idx2_lt1 i
  obtain ⟨t, hm, hx⟩ : ∃ t : Fin cfg0.N, t.val % 49 = 48 ∧ t.val / 49 * 2048 ≤ (i 0).val ∧ (i 0).val < t.val / 49 * 2048 + 2048 :=
    ⟨⟨49 * ((i 0).val / 2048) + 48, by rw [show cfg0.N = 38318 from N_0]; omega⟩, by
      show (49 * ((i 0).val / 2048) + 48) % 49 = 48 ∧ (49 * ((i 0).val / 2048) + 48) / 49 * 2048 ≤ (i 0).val
        ∧ (i 0).val < (49 * ((i 0).val / 2048) + 48) / 49 * 2048 + 2048
      omega⟩
  refine ⟨t, hm, ?_⟩
  show i ∈ ((View.whole main_v10).slice (win0_2.rect t)).set
  rw [View.set_slice_whole, Rect.mem_set_unit]
  intro a
  match a with
  | ⟨0, _⟩ =>
    show win0_2.index t (0 : Fin 2) * 2048 ≤ (i 0).val ∧ (i 0).val < win0_2.index t (0 : Fin 2) * 2048 + 2048
    rw [(gather_idx t).2.2.1]
    exact hx
  | ⟨1, _⟩ =>
    show win0_2.index t (1 : Fin 2) * 64 ≤ (i 1).val ∧ (i 1).val < win0_2.index t (1 : Fin 2) * 64 + 64
    rw [show win0_2.index t (1 : Fin 2) = 0 from rfl]
    omega

-- The gather's payload folded along a row of 49 points: the sum over the table's 49 blocks, which is the gather.
theorem gather_row {N : ℕ} (src : Fin 1601536 → BitVec 32) (tab : Fin 100352 → Fin 64 → EReal)
    (co : Fin N → grid0.Coords) (sb : Fin N → Vec Ideal S2048x1 .i32) (tb : Fin N → Vec Ideal S2048x64 .bf16)
    (scr : (n : ℕ) → n < N → Vec Ideal S2048x64 .f32)
    (hco : ∀ t, ((co t) 1).val = t.val % 49)
    (hsb : ∀ t r, sb t (ix2 r (0 : Fin 1)) = src (blkRow 1601536 (t.val / 49) r))
    (htb : ∀ t q d, tb t (ix2 q d) = tab (blkRow 100352 (t.val % 49) q) d)
    (h0 : ∀ t : Fin N, t.val % 49 = 0 → scr t.val t.isLt = k0_pay2 (co t) (sb t) (tb t) (k0_pay1 (F := Ideal)))
    (hs : ∀ t : Fin N, ¬t.val % 49 = 0 →
      scr t.val t.isLt = k0_pay2 (co t) (sb t) (tb t) (scr (t.val - 1) (Nat.lt_of_le_of_lt (Nat.sub_le _ _) t.isLt)))
    (t : Fin N) (h48 : t.val % 49 = 48) (r : Fin 2048) (d : Fin 64) :
    scr t.val t.isLt (ix2 r d) = Cert.Spec.gatherK src tab (blkRow 1601536 (t.val / 49) r) d := by
  have step : ∀ (t : Fin N) (acc : Vec Ideal S2048x64 .f32), k0_pay2 (co t) (sb t) (tb t) acc (ix2 r d)
      = acc (ix2 r d) + ∑ q : Fin 2048, Cert.Spec.ind (src (blkRow 1601536 (t.val / 49) r))
          (BitVec.ofNat 32 (2048 * (t.val % 49) + q.val)) * tab (blkRow 100352 (t.val % 49) q) d := fun t acc => by
    rw [pay0_acc, hsb, hco]
    exact congrArg (acc (ix2 r d) + ·) (Finset.sum_congr rfl fun q _ => by rw [htb])
  rw [rowAcc (K := 49) (fun n h => scr n h (ix2 r d)) (fun i k => ∑ q : Fin 2048,
      Cert.Spec.ind (src (blkRow 1601536 i r)) (BitVec.ofNat 32 (2048 * k + q.val)) * tab (blkRow 100352 k q) d)
    (fun n h hm => by rw [show scr n h = _ from h0 ⟨n, h⟩ hm, step, pay0_zero, zero_add, hm])
    (fun n h hm => (congrFun (hs ⟨n + 1, h⟩ hm) (ix2 r d)).trans (step ⟨n + 1, h⟩ _)) t.val t.isLt, h48]
  exact sum_blkRow 49 fun n e => Cert.Spec.ind (src (blkRow 1601536 (t.val / 49) r)) (BitVec.ofNat 32 n) * tab e d

end Cert.KernelIdeal.Val

end
-- ==== Proof.Val.R0Val.lean ====
import proofs.«428353_j4698694222361_2_alg».proof.Proof.KI.R0Body
import proofs.«428353_j4698694222361_2_alg».proof.Proof.Val.Pay0

noncomputable section

namespace Cert.KernelIdeal.Val

open Cert.KernelIdeal Cert.KernelIdeal.Gen Cert.KernelIdeal.Hand Cert.KernelIdeal.Val
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

namespace R0

abbrev src (c : Dev nD) : Fin 1601536 → BitVec 32 := fun e => (V c main_v6 : S1601536x1.Idx → BitVec 32) (ix2 e (0 : Fin 1))
abbrev tab (c : Dev nD) : Fin 100352 → Fin 64 → EReal := fun n d => (V c main_v9 : S100352x64.Idx → EReal) (ix2 n d)
abbrev gathered (c : Dev nD) : S1601536x64.Idx → EReal := fun i => Cert.Spec.gatherK (src V c) (tab V c) (i 0) (i 1)

theorem srcBlk_apply (c : Dev nD) (t : Fin cfg0.N) (r : Fin 2048) :
    iblk0 V c 0 t (ix2 r (0 : Fin 1)) = src V c (blkRow 1601536 (t.val / 49) r) :=
  congrArg (V c main_v6 : S1601536x1.Idx → BitVec 32) (gather_embSrc t r)

theorem tabBlk_apply (c : Dev nD) (t : Fin cfg0.N) (q : Fin 2048) (d : Fin 64) :
    iblk0 V c 1 t (ix2 q d) = tab V c (blkRow 100352 (t.val % 49) q) d :=
  congrArg (V c main_v9 : S100352x64.Idx → EReal) (gather_embTab t q d)

theorem read_blk (t : Fin cfg0.N) (A : S1601536x64.Idx → EReal) (r : Fin 2048) (d : Fin 64) :
    ((cfg0.win 2).blk t).view.read (Elt Ideal) A (ix2 r d) = A (((cfg0.win 2).blk t).view.emb (ix2 r d)) := rfl

-- What the point that ends a row of the grid hands to the output is its block of the gathered messages.
theorem flushed_eq (c : Dev nD) (t : Fin cfg0.N) (hf : (cfg0.win 2).flush t = true) :
    (dat0 V c).flushed 2 t = ((cfg0.win 2).blk t).view.read (Elt Ideal) (gathered V c) := by
  have h48 : t.val % 49 = 48 := (flush0_2 t).mp hf
  funext j
  obtain ⟨r, d, rfl⟩ : ∃ (r : Fin 2048) (d : Fin 64), j = ix2 r d := ⟨j 0, j 1, eq_ix2 (n0 := 2048) (n1 := 64) j⟩
  rw [read_blk]
  refine Eq.trans ?_ (congrArg (gathered V c) (gather_embOut t r d)).symm
  show (cfg0.win 2).cut (grid0.coords t) ((dat0 V c).after 2 t) (ix2 r d) = _
  rw [after0_2, outsAt0_last V c t h48]
  refine (congrFun (gather_out _) (ix2 r d)).trans ?_
  exact gather_row (src V c) (tab V c) grid0.coords (iblk0 V c 0) (iblk0 V c 1) (fun n h => (outsAt0 V c n h).2)
    (fun t => (gather_idx t).2.2.2) (srcBlk_apply V c) (tabBlk_apply V c) (outsAt0_first V c) (outsAt0_next V c) t h48 r d

theorem cover (i : S1601536x64.Idx) : ∃ t : Fin cfg0.N, (cfg0.win 2).flush t = true ∧ i ∈ ((cfg0.win 2).blk t).view.set :=
  let ⟨t, hm, hi⟩ := gather_cover i
  ⟨t, (flush0_2 t).mpr hm, hi⟩

end R0

theorem arr0 (c : Dev nD) (e : Fin 1601536) (d : Fin 64) :
    (Hand.dat0 (F := Ideal) V c).arrAt 2 cfg0.N (ix2 e d)
      = Cert.Spec.gatherK (fun e' => (V c main_v6 : S1601536x1.Idx → BitVec 32) (ix2 e' (0 : Fin 1)))
          (fun n d' => (V c main_v9 : S100352x64.Idx → EReal) (ix2 n d')) e d :=
  congrFun ((dat0 V c).arrAt_eq_of_cover 2 (R0.gathered V c) (R0.flushed_eq V c) R0.cover) (ix2 e d)

end Cert.KernelIdeal.Val

end
-- ==== Proof.KI.R1Eqs.lean ====
import proofs.«428353_j4698694222361_2_alg».proof.Proof.KI.R1Body

noncomputable section

namespace Cert.KernelIdeal.Hand

open Cert.KernelIdeal Cert.KernelIdeal.Gen
open Idealize.ShloMosaic Idealize.ShloMosaic.TcCoe

variable {F : FTy → Type} [FloatOps F]

variable (V : (c : Dev nD) → (b : Ref sig .tc) → Buf (Elt F) ((c : Thread nD τ).loc b))

theorem outsAt1_first_agg (c : Dev nD) (t : Fin cfg1.N) (h0 : t.val % 782 = 0) :
    (outsAt1 V c t.val t.isLt).2.1 = k1_pay4 (grid1.coords t) (iblk1 V c 0 t) (iblk1 V c 1 t) (k1_pay1 (F := F)) := by
  unfold outsAt1; exact congrArg (k1_pay4 _ _ _) (if_pos ((hcond1_0 t).mpr h0))

theorem outsAt1_first_deg (c : Dev nD) (t : Fin cfg1.N) (h0 : t.val % 782 = 0) :
    (outsAt1 V c t.val t.isLt).2.2 = k1_pay5 (grid1.coords t) (iblk1 V c 0 t) (k1_pay2 (F := F)) := by
  unfold outsAt1; exact congrArg (k1_pay5 _ _) (if_pos ((hcond1_0 t).mpr h0))

theorem outsAt1_next_agg (c : Dev nD) (t : Fin cfg1.N) (h0 : ¬t.val % 782 = 0) :
    (outsAt1 V c t.val t.isLt).2.1 = k1_pay4 (grid1.coords t) (iblk1 V c 0 t) (iblk1 V c 1 t) (outsAt1 V c (t.val - 1) (Nat.lt_of_le_of_lt (Nat.sub_le _ _) t.isLt)).2.1 := by
  obtain ⟨_ | n, hn⟩ := t
  · exact absurd rfl h0
  · show (step1 V c ⟨n + 1, hn⟩ (outsAt1 V c n _)).2.1 = k1_pay4 _ _ _ (outsAt1 V c n _).2.1
    exact congrArg (k1_pay4 _ _ _) (if_neg fun h => h0 ((hcond1_0 _).mp h))

theorem outsAt1_next_deg (c : Dev nD) (t : Fin cfg1.N) (h0 : ¬t.val % 782 = 0) :
    (outsAt1 V c t.val t.isLt).2.2 = k1_pay5 (grid1.coords t) (iblk1 V c 0 t) (outsAt1 V c (t.val - 1) (Nat.lt_of_le_of_lt (Nat.sub_le _ _) t.isLt)).2.2 := by
  obtain ⟨_ | n, hn⟩ := t
  · exact absurd rfl h0
  · show (step1 V c ⟨n + 1, hn⟩ (outsAt1 V c n _)).2.2 = k1_pay5 _ _ (outsAt1 V c n _).2.2
    exact congrArg (k1_pay5 _ _) (if_neg fun h => h0 ((hcond1_0 _).mp h))

theorem outsAt1_last_agg (c : Dev nD) (t : Fin cfg1.N) (h781 : t.val % 782 = 781) :
    (outsAt1 V c t.val t.isLt).1.1 = (outsAt1 V c t.val t.isLt).2.1 :=
  congrArg Prod.fst (outs1_last V c t ((hcond1_1 t).mpr h781))

theorem outsAt1_last_deg (c : Dev nD) (t : Fin cfg1.N) (h781 : t.val % 782 = 781) :
    (outsAt1 V c t.val t.isLt).1.2 = (outsAt1 V c t.val t.isLt).2.2 :=
  congrArg Prod.snd (outs1_last V c t ((hcond1_1 t).mpr h781))

end Cert.KernelIdeal.Hand

end
-- ==== Proof.Val.Pay1.lean ====
import proofs.«428353_j4698694222361_2_alg».proof.Proof.Val.Pay0

noncomputable section

namespace Cert.KernelIdeal.Val

open Idealize.ShloMosaic Idealize.ShloMosaic.ValueIdx Cert.KernelIdeal Cert.KernelIdeal.Gen

theorem dstRow_apply (v7 : Vec Ideal S1x2048 .i32) (h : S1x2048.ShapeCasts S1x2048) (hb : S1x2048.Broadcasts S2048x2048)
    (p q : Fin 2048) :
    broadcastTo S2048x2048 (shapeCast S1x2048 v7 h) hb (ix2 p q) = v7 (ix2 (0 : Fin 1) q) :=
  (congrArg (fun x => broadcastTo S2048x2048 x hb (ix2 p q)) (shapeCast_self v7 h)).trans
    (broadcastTo_1b_ab_apply v7 hb p q)

theorem column_apply {α : Type} (x : S2048.Idx → α) (h : S2048.ShapeCasts S2048x1) (r : Fin 2048) :
    shapeCast S2048x1 x h (ix2 r (0 : Fin 1)) = x (ix1 r) :=
  shapeCast_apply x h _ _ (by
    rw [Shape.rowMajor_val_one, Shape.rowMajor_val_two]
    show r.val = r.val * 1 + 0
    omega)

theorem laneSum_apply (src : FVec Ideal S2048x2048 .f32) (h : S2048x2048.Reduces [1] S2048) (hφ : FKind.Formats .f32)
    (hacc : (0x00000000#32 : BitVec 32) = 0x00000000#32) (r : Fin 2048) :
    multiReduction (F := Ideal) .add [1] S2048 src 0x00000000#32 h hφ hacc (ix1 r) = ∑ q : Fin 2048, src (ix2 r q) := by
  refine (Ideal.multiReduction_add_single src 0x00000000#32 h hφ hacc (ix1 r)).trans ?_
  refine Finset.sum_congr rfl fun q _ => congrArg src (funext fun c => Fin.ext ?_)
  match c with
  | ⟨0, _⟩ => rfl
  | ⟨1, _⟩ => rfl

theorem pay1_zero64 (y : S2048x64.Idx) : k1_pay1 (F := Ideal) y = 0 := zeroSplat_apply _ _ y

theorem pay1_zero1 (y : S2048x1.Idx) : k1_pay2 (F := Ideal) y = 0 := zeroSplat_apply _ _ y

theorem pay1_onehot (i : grid1.Coords) (v7 : Vec Ideal S1x2048 .i32) (p q : Fin 2048) :
    k1_pay3 i v7 (ix2 p q)
      = Cert.Spec.ind (BitVec.ofNat 32 (2048 * (i 0).val + p.val)) (v7 (ix2 (0 : Fin 1) q)) := by
  show (FloatOps.sitofp .f32 ((IntOp.cmpi .eq (IntOp.addi (iota .tc S2048x2048 32 [0] _ (ix2 p q))
      (Scalar.muli (BitVec.ofNat 32 (i 0).val) 2048#32))
      (broadcastTo S2048x2048 (shapeCast S1x2048 v7 _) _ (ix2 p q))).setWidth 32) : Ideal .f32) = _
  rw [iota_single_apply, dstRow_apply, word_sum]
  exact word_ind _ _

theorem pay1_agg (i : grid1.Coords) (v7 : Vec Ideal S1x2048 .i32) (v14 : Vec Ideal S2048x64 .bf16)
    (v17 : Vec Ideal S2048x64 .f32) (r : Fin 2048) (d : Fin 64) :
    k1_pay4 i v7 v14 v17 (ix2 r d)
      = v17 (ix2 r d) + ∑ q : Fin 2048,
          Cert.Spec.ind (BitVec.ofNat 32 (2048 * (i 0).val + r.val)) (v7 (ix2 (0 : Fin 1) q)) * v14 (ix2 q d) := by
  unfold k1_pay4
  refine (congrFun (shapeCast_self _ _) (ix2 r d)).trans ((addf_apply _ _ _).trans (congrArg (v17 (ix2 r d) + ·) ?_))
  exact (mm_apply _ _ r d).trans (Finset.sum_congr rfl fun q _ =>
    congrArg₂ (· * ·) (pay1_onehot i v7 r q) (congrFun (shapeCast_self v14 _) (ix2 q d)))

theorem pay1_deg (i : grid1.Coords) (v7 : Vec Ideal S1x2048 .i32) (v22 : Vec Ideal S2048x1 .f32) (r : Fin 2048) :
    k1_pay5 i v7 v22 (ix2 r (0 : Fin 1))
      = v22 (ix2 r (0 : Fin 1)) + ∑ q : Fin 2048,
          Cert.Spec.ind (BitVec.ofNat 32 (2048 * (i 0).val + r.val)) (v7 (ix2 (0 : Fin 1) q)) := by
  unfold k1_pay5
  refine (congrFun (shapeCast_self _ _) (ix2 r (0 : Fin 1))).trans
    ((addf_apply _ _ _).trans (congrArg (v22 (ix2 r (0 : Fin 1)) + ·) ?_))
  exact (column_apply _ _ r).trans ((laneSum_apply _ _ _ _ r).trans (Finset.sum_congr rfl fun q _ => pay1_onehot i v7 r q))

-- Point t = 782·i + k works on block k of the edges and on block i of the aggregate's and the degree's rows.
theorem scatter_idx (t : Fin cfg1.N) : win1_0.index t (1 : Fin 2) = t.val % 782 ∧ win1_1.index t (0 : Fin 2) = t.val % 782
    ∧ win1_2.index t (0 : Fin 2) = t.val / 782 ∧ win1_3.index t (0 : Fin 2) = t.val / 782
    ∧ ((grid1.coords t) 0).val = t.val / 782 := by
  have hN : t.val < 38318 := lt_of_lt_of_eq t.isLt N_1
  have hk : (BitVec.ofNat 32 (t.val / 1 % 782)).toNat = t.val % 782 := by rw [BitVec.toNat_ofNat]; omega
  have hi : (BitVec.ofNat 32 (t.val / 782 % 49)).toNat = t.val / 782 := by rw [BitVec.toNat_ofNat]; omega
  refine ⟨hk, hk, hi, hi, ?_⟩
  show t.val / 782 % 49 = t.val / 782
  omega

theorem scatter_embDst (t : Fin cfg1.N) (q : Fin 2048) :
    (((cfg1.win 0).blk t).view.emb (ix2 (0 : Fin 1) q) : S1x1601536.Idx) = ix2 (0 : Fin 1) (blkRow 1601536 (t.val % 782) q) := by
  have hq := q.isLt
  refine funext fun a => Fin.ext ?_
  match a with
  | ⟨0, _⟩ => rfl
  | ⟨1, _⟩ =>
    show win1_0.index t (1 : Fin 2) * 2048 + 1 * q.val = (2048 * (t.val % 782) + q.val) % 1601536
    rw [(scatter_idx t).1]
    omega

theorem scatter_embMsg (t : Fin cfg1.N) (q : Fin 2048) (d : Fin 64) :
    (((cfg1.win 1).blk t).view.emb (ix2 q d) : S1601536x64.Idx) = ix2 (blkRow 1601536 (t.val % 782) q) d := by
  have hq := q.isLt
  have hd := d.isLt
  refine funext fun a => Fin.ext ?_
  match a with
  | ⟨0, _⟩ =>
    show win1_1.index t (0 : Fin 2) * 2048 + 1 * q.val = (2048 * (t.val % 782) + q.val) % 1601536
    rw [(scatter_idx t).2.1]
    omega
  | ⟨1, _⟩ =>
    show win1_1.index t (1 : Fin 2) * 64 + 1 * d.val = d.val
    rw [show win1_1.index t (1 : Fin 2) = 0 from rfl]
    omega

theorem scatter_embAgg (t : Fin cfg1.N) (r : Fin 2048) (d : Fin 64) (hrow : 2048 * (t.val / 782) + r.val < 100352) :
    (((cfg1.win 2).blk t).view.emb (ix2 r d) : S100352x64.Idx) = ix2 (⟨_, hrow⟩ : Fin 100352) d := by
  have hd := d.isLt
  refine funext fun a => Fin.ext ?_
  match a with
  | ⟨0, _⟩ =>
    show win1_2.index t (0 : Fin 2) * 2048 + 1 * r.val = 2048 * (t.val / 782) + r.val
    rw [(scatter_idx t).2.2.1]
    omega
  | ⟨1, _⟩ =>
    show win1_2.index t (1 : Fin 2) * 64 + 1 * d.val = d.val
    rw [show win1_2.index t (1 : Fin 2) = 0 from rfl]
    omega

theorem scatter_embDeg (t : Fin cfg1.N) (r : Fin 2048) (hrow : 2048 * (t.val / 782) + r.val < 100352) :
    (((cfg1.win 3).blk t).view.emb (ix2 r (0 : Fin 1)) : S100352x1.Idx) = ix2 (⟨_, hrow⟩ : Fin 100352) (0 : Fin 1) := by
  refine funext fun a => Fin.ext ?_
  match a with
  | ⟨0, _⟩ =>
    show win1_3.index t (0 : Fin 2) * 2048 + 1 * r.val = 2048 * (t.val / 782) + r.val
    rw [(scatter_idx t).2.2.2.1]
    omega
  | ⟨1, _⟩ => rfl

-- Row x of either array lies in block x / 2048, and point 782·(x / 2048) + 781 ends that block's row of the grid.
theorem scatter_last (x : ℕ) (hx : x < 100352) :
    ∃ t : Fin cfg1.N, t.val % 782 = 781 ∧ t.val / 782 * 2048 ≤ x ∧ x < t.val / 782 * 2048 + 2048 :=
  ⟨⟨782 * (x / 2048) + 781, by rw [show cfg1.N = 38318 from N_1]; omega⟩, by
    show (782 * (x / 2048) + 781) % 782 = 781 ∧ (782 * (x / 2048) + 781) / 782 * 2048 ≤ x ∧ x < (782 * (x / 2048) + 781) / 782 * 2048 + 2048
    omega⟩

theorem scatter_coverAgg (i : S100352x64.Idx) : ∃ t : Fin cfg1.N, t.val % 782 = 781 ∧ i ∈ ((cfg1.win 2).blk t).view.set := by
  obtain ⟨t, hm, hx⟩ := scatter_last (i 0).val (idx2_lt0 i)
  have hi1 : (i 1).val < 64 := idx2_lt1 i
  refine ⟨t, hm, ?_⟩
  show i ∈ ((View.whole main_v11_0).slice (win1_2.rect t)).set
  rw [View.set_slice_whole, Rect.mem_set_unit]
  intro a
  match a with
  | ⟨0, _⟩ =>
    show win1_2.index t (0 : Fin 2) * 2048 ≤ (i 0).val ∧ (i 0).val < win1_2.index t (0 : Fin 2) * 2048 + 2048
    rw [(scatter_idx t).2.2.1]
    exact hx
  | ⟨1, _⟩ =>
    show win1_2.index t (1 : Fin 2) * 64 ≤ (i 1).val ∧ (i 1).val < win1_2.index t (1 : Fin 2) * 64 + 64
    rw [show win1_2.index t (1 : Fin 2) = 0 from rfl]
    omega

theorem scatter_coverDeg (i : S100352x1.Idx) : ∃ t : Fin cfg1.N, t.val % 782 = 781 ∧ i ∈ ((cfg1.win 3).blk t).view.set := by
  obtain ⟨t, hm, hx⟩ := scatter_last (i 0).val (idx2_lt0 i)
  have hi1 : (i 1).val < 1 := idx2_lt1 i
  refine ⟨t, hm, ?_⟩
  show i ∈ ((View.whole main_v11_1).slice (win1_3.rect t)).set
  rw [View.set_slice_whole, Rect.mem_set_unit]
  intro a
  match a with
  | ⟨0, _⟩ =>
    show win1_3.index t (0 : Fin 2) * 2048 ≤ (i 0).val ∧ (i 0).val < win1_3.index t (0 : Fin 2) * 2048 + 2048
    rw [(scatter_idx t).2.2.2.1]
    exact hx
  | ⟨1, _⟩ =>
    show win1_3.index t (1 : Fin 2) * 1 ≤ (i 1).val ∧ (i 1).val < win1_3.index t (1 : Fin 2) * 1 + 1
    rw [show win1_3.index t (1 : Fin 2) = 0 from rfl]
    omega

-- The scatter's payloads folded along a row of 782 points: the sums over the 782 blocks of edges, which are all the edges.
theorem agg_row {N : ℕ} (dst : Fin 1601536 → BitVec 32) (msg : Fin 1601536 → Fin 64 → EReal)
    (co : Fin N → grid1.Coords) (db : Fin N → Vec Ideal S1x2048 .i32) (mb : Fin N → Vec Ideal S2048x64 .bf16)
    (scr : (n : ℕ) → n < N → Vec Ideal S2048x64 .f32)
    (hco : ∀ t, ((co t) 0).val = t.val / 782)
    (hdb : ∀ t q, db t (ix2 (0 : Fin 1) q) = dst (blkRow 1601536 (t.val % 782) q))
    (hmb : ∀ t q d, mb t (ix2 q d) = msg (blkRow 1601536 (t.val % 782) q) d)
    (h0 : ∀ t : Fin N, t.val % 782 = 0 → scr t.val t.isLt = k1_pay4 (co t) (db t) (mb t) (k1_pay1 (F := Ideal)))
    (hs : ∀ t : Fin N, ¬t.val % 782 = 0 →
      scr t.val t.isLt = k1_pay4 (co t) (db t) (mb t) (scr (t.val - 1) (Nat.lt_of_le_of_lt (Nat.sub_le _ _) t.isLt)))
    (t : Fin N) (hm : t.val % 782 = 781) (r : Fin 2048) (d : Fin 64) (hrow : 2048 * (t.val / 782) + r.val < 100352) :
    scr t.val t.isLt (ix2 r d) = Cert.Spec.scatterK dst msg ⟨_, hrow⟩ d := by
  have step : ∀ (t : Fin N) (acc : Vec Ideal S2048x64 .f32), k1_pay4 (co t) (db t) (mb t) acc (ix2 r d)
      = acc (ix2 r d) + ∑ q : Fin 2048, Cert.Spec.ind (BitVec.ofNat 32 (2048 * (t.val / 782) + r.val))
          (dst (blkRow 1601536 (t.val % 782) q)) * msg (blkRow 1601536 (t.val % 782) q) d := fun t acc => by
    rw [pay1_agg, hco]
    exact congrArg (acc (ix2 r d) + ·) (Finset.sum_congr rfl fun q _ => by rw [hdb, hmb])
  rw [rowAcc (K := 782) (fun n h => scr n h (ix2 r d)) (fun i k => ∑ q : Fin 2048,
      Cert.Spec.ind (BitVec.ofNat 32 (2048 * i + r.val)) (dst (blkRow 1601536 k q)) * msg (blkRow 1601536 k q) d)
    (fun n h h0' => by rw [show scr n h = _ from h0 ⟨n, h⟩ h0', step, pay1_zero64, zero_add, h0'])
    (fun n h h0' => (congrFun (hs ⟨n + 1, h⟩ h0') (ix2 r d)).trans (step ⟨n + 1, h⟩ _)) t.val t.isLt, hm]
  exact sum_blkRow 782 fun _ e => Cert.Spec.ind (BitVec.ofNat 32 (2048 * (t.val / 782) + r.val)) (dst e) * msg e d

theorem deg_row {N : ℕ} (dst : Fin 1601536 → BitVec 32)
    (co : Fin N → grid1.Coords) (db : Fin N → Vec Ideal S1x2048 .i32) (scr : (n : ℕ) → n < N → Vec Ideal S2048x1 .f32)
    (hco : ∀ t, ((co t) 0).val = t.val / 782)
    (hdb : ∀ t q, db t (ix2 (0 : Fin 1) q) = dst (blkRow 1601536 (t.val % 782) q))
    (h0 : ∀ t : Fin N, t.val % 782 = 0 → scr t.val t.isLt = k1_pay5 (co t) (db t) (k1_pay2 (F := Ideal)))
    (hs : ∀ t : Fin N, ¬t.val % 782 = 0 →
      scr t.val t.isLt = k1_pay5 (co t) (db t) (scr (t.val - 1) (Nat.lt_of_le_of_lt (Nat.sub_le _ _) t.isLt)))
    (t : Fin N) (hm : t.val % 782 = 781) (r : Fin 2048) (hrow : 2048 * (t.val / 782) + r.val < 100352) :
    scr t.val t.isLt (ix2 r (0 : Fin 1)) = Cert.Spec.degK dst ⟨_, hrow⟩ := by
  have step : ∀ (t : Fin N) (acc : Vec Ideal S2048x1 .f32), k1_pay5 (co t) (db t) acc (ix2 r (0 : Fin 1))
      = acc (ix2 r (0 : Fin 1)) + ∑ q : Fin 2048, Cert.Spec.ind (BitVec.ofNat 32 (2048 * (t.val / 782) + r.val))
          (dst (blkRow 1601536 (t.val % 782) q)) := fun t acc => by
    rw [pay1_deg, hco]
    exact congrArg (acc (ix2 r (0 : Fin 1)) + ·) (Finset.sum_congr rfl fun q _ => by rw [hdb])
  rw [rowAcc (K := 782) (fun n h => scr n h (ix2 r (0 : Fin 1))) (fun i k => ∑ q : Fin 2048,
      Cert.Spec.ind (BitVec.ofNat 32 (2048 * i + r.val)) (dst (blkRow 1601536 k q)))
    (fun n h h0' => by rw [show scr n h = _ from h0 ⟨n, h⟩ h0', step, pay1_zero1, zero_add, h0'])
    (fun n h h0' => (congrFun (hs ⟨n + 1, h⟩ h0') (ix2 r (0 : Fin 1))).trans (step ⟨n + 1, h⟩ _)) t.val t.isLt, hm]
  exact sum_blkRow 782 fun _ e => Cert.Spec.ind (BitVec.ofNat 32 (2048 * (t.val / 782) + r.val)) (dst e)

end Cert.KernelIdeal.Val

end
-- ==== Proof.Val.R1Val.lean ====
import proofs.«428353_j4698694222361_2_alg».proof.Proof.KI.R1Eqs
import proofs.«428353_j4698694222361_2_alg».proof.Proof.KI.Sched
import proofs.«428353_j4698694222361_2_alg».proof.Proof.Val.Pay1

noncomputable section

namespace Cert.KernelIdeal.Val

open Cert.KernelIdeal Cert.KernelIdeal.Gen Cert.KernelIdeal.Hand Cert.KernelIdeal.Val
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

namespace R1

abbrev dstOf (c : Dev nD) : Fin 1601536 → BitVec 32 := fun e => (V c main_v8 : S1x1601536.Idx → BitVec 32) (ix2 (0 : Fin 1) e)
abbrev msgOf (c : Dev nD) : Fin 1601536 → Fin 64 → EReal := fun e d => (V c main_v10 : S1601536x64.Idx → EReal) (ix2 e d)
abbrev aggArr (c : Dev nD) : S100352x64.Idx → EReal := fun i => Cert.Spec.scatterK (dstOf V c) (msgOf V c) (i 0) (i 1)
abbrev degArr (c : Dev nD) : S100352x1.Idx → EReal := fun i => Cert.Spec.degK (dstOf V c) (i 0)

theorem dstBlk_apply (c : Dev nD) (t : Fin cfg1.N) (q : Fin 2048) :
    iblk1 V c 0 t (ix2 (0 : Fin 1) q) = dstOf V c (blkRow 1601536 (t.val % 782) q) :=
  congrArg (V c main_v8 : S1x1601536.Idx → BitVec 32) (scatter_embDst t q)

theorem msgBlk_apply (c : Dev nD) (t : Fin cfg1.N) (q : Fin 2048) (d : Fin 64) :
    iblk1 V c 1 t (ix2 q d) = msgOf V c (blkRow 1601536 (t.val % 782) q) d :=
  congrArg (V c main_v10 : S1601536x64.Idx → EReal) (scatter_embMsg t q d)

theorem read_agg (t : Fin cfg1.N) (A : S100352x64.Idx → EReal) (r : Fin 2048) (d : Fin 64) :
    ((cfg1.win 2).blk t).view.read (Elt Ideal) A (ix2 r d) = A (((cfg1.win 2).blk t).view.emb (ix2 r d)) := rfl
theorem read_deg (t : Fin cfg1.N) (A : S100352x1.Idx → EReal) (r : Fin 2048) :
    ((cfg1.win 3).blk t).view.read (Elt Ideal) A (ix2 r (0 : Fin 1)) = A (((cfg1.win 3).blk t).view.emb (ix2 r (0 : Fin 1))) := rfl

-- What the last point of a row of the grid hands to the two outputs is the aggregate and the degree of its rows.
theorem flushed_agg (c : Dev nD) (t : Fin cfg1.N) (hf : (cfg1.win 2).flush t = true) :
    (dat1 V c).flushed 2 t = ((cfg1.win 2).blk t).view.read (Elt Ideal) (aggArr V c) := by
  have hm : t.val % 782 = 781 := (flush1_2 t).mp hf
  have hN : t.val < 38318 := lt_of_lt_of_eq t.isLt N_1
  funext j
  obtain ⟨r, d, rfl⟩ : ∃ (r : Fin 2048) (d : Fin 64), j = ix2 r d := ⟨j 0, j 1, eq_ix2 (n0 := 2048) (n1 := 64) j⟩
  have hr := r.isLt
  have hrow : 2048 * (t.val / 782) + r.val < 100352 := by omega
  rw [read_agg]
  refine Eq.trans ?_ (congrArg (aggArr V c) (scatter_embAgg t r d hrow)).symm
  show (cfg1.win 2).cut (grid1.coords t) ((dat1 V c).after 2 t) (ix2 r d) = _
  rw [after1_2]
  show (outsAt1 V c t.val t.isLt).1.1 (ix2 r d) = _
  rw [outsAt1_last_agg V c t hm]
  exact agg_row (dstOf V c) (msgOf V c) grid1.coords (iblk1 V c 0) (iblk1 V c 1) (fun n h => (outsAt1 V c n h).2.1)
    (fun t => (scatter_idx t).2.2.2.2) (dstBlk_apply V c) (msgBlk_apply V c) (outsAt1_first_agg V c) (outsAt1_next_agg V c) t hm r d hrow

theorem flushed_deg (c : Dev nD) (t : Fin cfg1.N) (hf : (cfg1.win 3).flush t = true) :
    (dat1 V c).flushed 3 t = ((cfg1.win 3).blk t).view.read (Elt Ideal) (degArr V c) := by
  have hm : t.val % 782 = 781 := (flush1_3 t).mp hf
  have hN : t.val < 38318 := lt_of_lt_of_eq t.isLt N_1
  funext j
  obtain ⟨r, z, rfl⟩ : ∃ (r : Fin 2048) (z : Fin 1), j = ix2 r z := ⟨j 0, j 1, eq_ix2 (n0 := 2048) (n1 := 1) j⟩
  obtain rfl : z = 0 := Subsingleton.elim _ _
  have hr := r.isLt
  have hrow : 2048 * (t.val / 782) + r.val < 100352 := by omega
  rw [read_deg]
  refine Eq.trans ?_ (congrArg (degArr V c) (scatter_embDeg t r hrow)).symm
  show (cfg1.win 3).cut (grid1.coords t) ((dat1 V c).after 3 t) (ix2 r (0 : Fin 1)) = _
  rw [after1_3]
  show (outsAt1 V c t.val t.isLt).1.2 (ix2 r (0 : Fin 1)) = _
  rw [outsAt1_last_deg V c t hm]
  exact deg_row (dstOf V c) grid1.coords (iblk1 V c 0) (fun n h => (outsAt1 V c n h).2.2)
    (fun t => (scatter_idx t).2.2.2.2) (dstBlk_apply V c) (outsAt1_first_deg V c) (outsAt1_next_deg V c) t hm r hrow

theorem cover_agg (i : S100352x64.Idx) :
    ∃ t : Fin cfg1.N, (cfg1.win 2).flush t = true ∧ i ∈ ((cfg1.win 2).blk t).view.set :=
  let ⟨t, hm, hi⟩ := scatter_coverAgg i
  ⟨t, (flush1_2 t).mpr hm, hi⟩

theorem cover_deg (i : S100352x1.Idx) :
    ∃ t : Fin cfg1.N, (cfg1.win 3).flush t = true ∧ i ∈ ((cfg1.win 3).blk t).view.set :=
  let ⟨t, hm, hi⟩ := scatter_coverDeg i
  ⟨t, (flush1_3 t).mpr hm, hi⟩

end R1

theorem arr1_agg (c : Dev nD) (n : Fin 100352) (d : Fin 64) :
    (dat1 (F := Ideal) V c).arrAt 2 cfg1.N (ix2 n d)
      = Cert.Spec.scatterK (fun e => (V c main_v8 : S1x1601536.Idx → BitVec 32) (ix2 (0 : Fin 1) e))
          (fun e d' => (V c main_v10 : S1601536x64.Idx → EReal) (ix2 e d')) n d :=
  congrFun ((dat1 V c).arrAt_eq_of_cover 2 (R1.aggArr V c) (R1.flushed_agg V c) R1.cover_agg) (ix2 n d)

theorem arr1_deg (c : Dev nD) (n : Fin 100352) :
    (dat1 (F := Ideal) V c).arrAt 3 cfg1.N (ix2 n (0 : Fin 1))
      = Cert.Spec.degK (fun e => (V c main_v8 : S1x1601536.Idx → BitVec 32) (ix2 (0 : Fin 1) e)) n :=
  congrFun ((dat1 V c).arrAt_eq_of_cover 3 (R1.degArr V c) (R1.flushed_deg V c) R1.cover_deg) (ix2 n (0 : Fin 1))

end Cert.KernelIdeal.Val

end
-- ==== Proof.Val.Combine.lean ====
import proofs.«428353_j4698694222361_2_alg».proof.Proof.Gen.KernelIdeal.Skeleton
import proofs.«428353_j4698694222361_2_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StackMember

noncomputable section

namespace Cert.KernelIdeal.Val

open Cert.KernelIdeal Cert.KernelIdeal.Gen Idealize.ShloMosaic Idealize.ShloMosaic.ValueIdx

theorem ofBits_one_f32 : Ideal.ofBits .f32 0x3F800000#32 = 1 := IdealRules.sign_bit.ideal_onePat .f32

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Into the zero block a [2048, 64] by [64, n] product reads, at (r, j), Σ_k a (r, k) · w (k, j). -/
theorem matmul_at {n : ℕ} {φ₁ φ₂ : FTy} (a : FVec Ideal S2048x64 φ₁) (w : FVec Ideal ⟨2, ![64, n]⟩ φ₂) (r : Fin 2048) (j : Fin n) :
    matmul (DotDims.plain 2048 64 n) none a w (constant (F := Ideal) ⟨2, ![2048, n]⟩ .f32 0x00000000#32) (ix2 r j)
      = ∑ k : Fin 64, a (ix2 r k) * w (ix2 k j) :=
  (congrFun (matmul_zero_eq_dotGeneral _ none a w) _).trans (StackMember.dotGeneral_plain_apply none a w r j)

variable {n : ℕ} (hb : (⟨2, ![1, n]⟩ : Shape).Broadcasts ⟨2, ![2048, n]⟩)

/-- The linear stage as both payloads spell it: the mean aggregate times the left weights, plus the bias row, plus the
    input rows times the right weights. -/
def linPay (agg : Vec Ideal S2048x64 .f32) (deg : Vec Ideal S2048x1 .f32) (x : Vec Ideal S2048x64 .f32)
    (wl wr : Vec Ideal ⟨2, ![64, n]⟩ .f32) (bl : Vec Ideal ⟨2, ![1, n]⟩ .f32) : FVec Ideal ⟨2, ![2048, n]⟩ .f32 :=
  addf
    (addf
      (matmul (DotDims.plain 2048 64 n) none
        (truncf .bf16 (divf agg (broadcastTo S2048x64
          (maximumf deg (broadcast S2048x1 (Scalar.ofBits (F := Ideal) .f32 0x3F800000#32))) broadcasts_S2048x1_S2048x64)) bitsLt_bf16_f32)
        (truncf .bf16 wl bitsLt_bf16_f32) (constant (F := Ideal) ⟨2, ![2048, n]⟩ .f32 0x00000000#32))
      (broadcastTo ⟨2, ![2048, n]⟩ bl hb))
    (matmul (DotDims.plain 2048 64 n) none (truncf .bf16 x bitsLt_bf16_f32) (truncf .bf16 wr bitsLt_bf16_f32)
      (constant (F := Ideal) ⟨2, ![2048, n]⟩ .f32 0x00000000#32))

theorem linPay_at (agg : Vec Ideal S2048x64 .f32) (deg : Vec Ideal S2048x1 .f32) (x : Vec Ideal S2048x64 .f32)
    (wl wr : Vec Ideal ⟨2, ![64, n]⟩ .f32) (bl : Vec Ideal ⟨2, ![1, n]⟩ .f32) (r : Fin 2048) (j : Fin n) :
    linPay hb agg deg x wl wr bl (ix2 r j)
      = Cert.Spec.linK (M := 2048) (fun r' k => x (ix2 r' k)) (fun r' k => agg (ix2 r' k)) (fun r' => deg (ix2 r' (0 : Fin 1)))
          (fun k j' => wl (ix2 k j')) (fun j' => bl (ix2 (0 : Fin 1) j')) (fun k j' => wr (ix2 k j')) r j := by
  unfold linPay Cert.Spec.linK
  refine (addf_apply _ _ _).trans (congrArg₂ (· + ·) ((addf_apply _ _ _).trans (congrArg₂ (· + ·) ?_
    (broadcastTo_1b_ab_apply _ hb r j))) (matmul_at _ _ r j))
  refine (matmul_at _ _ r j).trans (Finset.sum_congr rfl fun k _ => congrArg (· * wl (ix2 k j)) ?_)
  show Ideal.div (agg (ix2 r k)) (broadcastTo S2048x64 _ broadcasts_S2048x1_S2048x64 (ix2 r k)) = _
  rw [broadcastTo_a1_ab_apply]
  show Ideal.div (agg (ix2 r k)) (max (deg (ix2 r (0 : Fin 1))) (Ideal.ofBits .f32 0x3F800000#32)) = _
  rw [ofBits_one_f32]

/-- The linear stage at a row reads the input rows, the aggregate and the degree at that row only. -/
theorem linK_row {M M' D : ℕ} (xin agg : Fin M → Fin 64 → EReal) (deg : Fin M → EReal)
    (xin' agg' : Fin M' → Fin 64 → EReal) (deg' : Fin M' → EReal)
    (wl : Fin 64 → Fin D → EReal) (bl : Fin D → EReal) (wr : Fin 64 → Fin D → EReal) (n : Fin M) (n' : Fin M') (j : Fin D)
    (hx : ∀ k, xin n k = xin' n' k) (ha : ∀ k, agg n k = agg' n' k) (hd : deg n = deg' n') :
    Cert.Spec.linK xin agg deg wl bl wr n j = Cert.Spec.linK xin' agg' deg' wl bl wr n' j := by
  unfold Cert.Spec.linK
  simp only [hx, ha, hd]

end Cert.KernelIdeal.Val

end
-- ==== Proof.Val.Pay2.lean ====
import proofs.«428353_j4698694222361_2_alg».proof.Proof.Val.Combine

noncomputable section

namespace Cert.KernelIdeal.Val

open Cert.KernelIdeal Cert.KernelIdeal.Gen Idealize.ShloMosaic Idealize.ShloMosaic.ValueIdx

/-- The first combine kernel's stored block at (r, j): the linear stage, rectified. -/
theorem pay2_at (agg : Vec Ideal S2048x64 .f32) (deg : Vec Ideal S2048x1 .f32) (x : Vec Ideal S2048x64 .f32)
    (wl wr : Vec Ideal S64x64 .f32) (bl : Vec Ideal S1x64 .f32) (r : Fin 2048) (j : Fin 64) :
    k2_pay1 agg deg x wl wr bl (ix2 r j)
      = Cert.Spec.reluK (Cert.Spec.linK (M := 2048) (fun r' k => x (ix2 r' k)) (fun r' k => agg (ix2 r' k)) (fun r' => deg (ix2 r' (0 : Fin 1)))
          (fun k j' => wl (ix2 k j')) (fun j' => bl (ix2 (0 : Fin 1) j')) (fun k j' => wr (ix2 k j')) r j) := by
  unfold Gen.k2_pay1 Cert.Spec.reluK
  simp only [shapeCast_self]
  exact congrArg₂ max (linPay_at broadcasts_S1x64_S2048x64 agg deg x wl wr bl r j)
    Ideal.ofBits_zero_f32

end Cert.KernelIdeal.Val

end
-- ==== Proof.Val.R2Val.lean ====
import proofs.«428353_j4698694222361_2_alg».proof.Proof.KI.R2Body
import proofs.«428353_j4698694222361_2_alg».proof.Proof.Val.Pay2
import Idealize.ShloMosaic.Lib.Pipeline.Value
import Idealize.ShloMosaic.Lib.ValueIdx

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-- The three row windows and the output sit at block (t, 0) at point t; the weights and the bias at block (0, 0). -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Block row r of a row window at point t is array row 2048 t + r; the weights' and the bias's one block is the whole array. -/
theorem iblk2_at (c : Dev nD) (t : Fin cfg2.N) :
    (∀ (r : Fin 2048) (k : Fin 64) (n : Fin 100352), n.val = 2048 * t.val + r.val →
      (iblk2 V c 0 t : Vec Ideal S2048x64 .f32) (ix2 r k) = (V c main_v0 : S100352x64.Idx → EReal) (ix2 n k))
    ∧ (∀ (r : Fin 2048) (k : Fin 64) (n : Fin 100352), n.val = 2048 * t.val + r.val →
      (iblk2 V c 1 t : Vec Ideal S2048x64 .f32) (ix2 r k) = (V c main_v11_0 : S100352x64.Idx → EReal) (ix2 n k))
    ∧ (∀ (r : Fin 2048) (n : Fin 100352), n.val = 2048 * t.val + r.val →
      (iblk2 V c 2 t : Vec Ideal S2048x1 .f32) (ix2 r (0 : Fin 1)) = (V c main_v11_1 : S100352x1.Idx → EReal) (ix2 n (0 : Fin 1)))
    ∧ (iblk2 V c 3 t : Vec Ideal S64x64 .f32) = (V c main_v12 : Vec Ideal S64x64 .f32)
    ∧ (iblk2 V c 4 t : Vec Ideal S1x64 .f32) = (V c main_v14 : Vec Ideal S1x64 .f32)
    ∧ (iblk2 V c 5 t : Vec Ideal S64x64 .f32) = (V c main_v13 : Vec Ideal S64x64 .f32) := by
  obtain ⟨a0, a1, b0, b1, c0, c1, d0, d1, e0, e1, f0, f1, -⟩ := idx2 t
  unfold iblk2
  refine ⟨fun r k n hn => ?_, fun r k n hn => ?_, fun r n hn => ?_, funext fun y => ?_, funext fun y => ?_, funext fun y => ?_⟩ <;>
    rw [View.read_apply]
  · exact congrArg (V c main_v0 : S100352x64.Idx → EReal) (Shape.idx_ext₂
      (by show win2_0.index t (0 : Fin 2) * 2048 + 1 * r.val = n.val; omega)
      (by show win2_0.index t (1 : Fin 2) * 64 + 1 * k.val = k.val; omega))
  · exact congrArg (V c main_v11_0 : S100352x64.Idx → EReal) (Shape.idx_ext₂
      (by show win2_1.index t (0 : Fin 2) * 2048 + 1 * r.val = n.val; omega)
      (by show win2_1.index t (1 : Fin 2) * 64 + 1 * k.val = k.val; omega))
  · exact congrArg (V c main_v11_1 : S100352x1.Idx → EReal) (Shape.idx_ext₂
      (by show win2_2.index t (0 : Fin 2) * 2048 + 1 * r.val = n.val; omega)
      (by show win2_2.index t (1 : Fin 2) * 1 + 1 * (0 : Fin 1).val = (0 : Fin 1).val; omega))
  · exact congrArg (V c main_v12 : S64x64.Idx → EReal) (Shape.idx_ext₂
      (by show win2_3.index t (0 : Fin 2) * 64 + 1 * (y 0).val = (y 0).val; omega)
      (by show win2_3.index t (1 : Fin 2) * 64 + 1 * (y 1).val = (y 1).val; omega))
  · exact congrArg (V c main_v14 : S1x64.Idx → EReal) (Shape.idx_ext₂
      (by show win2_4.index t (0 : Fin 2) * 1 + 1 * (y 0).val = (y 0).val; omega)
      (by show win2_4.index t (1 : Fin 2) * 64 + 1 * (y 1).val = (y 1).val; omega))
  · exact congrArg (V c main_v13 : S64x64.Idx → EReal) (Shape.idx_ext₂
      (by show win2_5.index t (0 : Fin 2) * 64 + 1 * (y 0).val = (y 0).val; omega)
      (by show win2_5.index t (1 : Fin 2) * 64 + 1 * (y 1).val = (y 1).val; omega))

/-- The stage of the specification over the six arrays as the region finds them. -/
abbrev G2 (c : Dev nD) : S100352x64.Idx → EReal := fun i =>
  Cert.Spec.reluK (Cert.Spec.linK (M := 100352)
    (fun r k => (V c main_v0 : S100352x64.Idx → EReal) (ix2 r k))
    (fun r k => (V c main_v11_0 : S100352x64.Idx → EReal) (ix2 r k))
    (fun r => (V c main_v11_1 : S100352x1.Idx → EReal) (ix2 r (0 : Fin 1)))
    (fun k j' => (V c main_v12 : S64x64.Idx → EReal) (ix2 k j'))
    (fun j' => (V c main_v14 : S1x64.Idx → EReal) (ix2 (0 : Fin 1) j'))
    (fun k j' => (V c main_v13 : S64x64.Idx → EReal) (ix2 k j')) (i 0) (i 1))

/-- Block t of that array is the payload of the six blocks: the linear stage reads its row inputs at one row only. -/
theorem flushed2_eq (c : Dev nD) (t : Fin cfg2.N) :
    (dat2 (F := Ideal) V c).flushed 6 t = ((cfg2.win 6).blk t).view.read (Elt Ideal) (G2 V c) := by
  show (cfg2.win 6).cut (grid2.coords t) ((dat2 V c).after 6 t) = _
  rw [after2_6, out2_6_eq]
  obtain ⟨hx, ha, hd, hwl, hbl, hwr⟩ := iblk2_at V c t
  obtain ⟨-, -, -, -, -, -, -, -, -, -, -, -, e0, e1⟩ := idx2 t
  rw [hwl, hbl, hwr]
  funext y
  obtain ⟨r, j, rfl⟩ : ∃ (r : Fin 2048) (j : Fin 64), y = ix2 r j := ⟨y 0, y 1, eq_ix2 y⟩
  have hlt : 2048 * t.val + r.val < 100352 := by have := Nat.lt_of_lt_of_eq t.isLt N_2; omega
  refine (((pay2_at _ _ _ _ _ _ r j).trans (congrArg Cert.Spec.reluK (linK_row _ _ _ _ _ _ _ _ _ r ⟨_, hlt⟩ j (fun k => hx r k _ rfl) (fun k => ha r k _ rfl) (hd r _ rfl)))) :
    _ = G2 V c (ix2 ⟨2048 * t.val + r.val, hlt⟩ j)).trans ?_
  rw [View.read_apply]
  exact congrArg (G2 V c) (Shape.idx_ext₂
    (by show 2048 * t.val + r.val = win2_6.index t (0 : Fin 2) * 2048 + 1 * r.val; omega)
    (by show j.val = win2_6.index t (1 : Fin 2) * 64 + 1 * j.val; omega))

theorem cover2 (i : S100352x64.Idx) :
    ∃ t : Fin cfg2.N, (cfg2.win 6).flush t = true ∧ i ∈ ((cfg2.win 6).blk t).view.set := by
  have hi0 := idx2_lt0 i
  have hi1 := idx2_lt1 i
  obtain ⟨t, ht⟩ : ∃ t : Fin cfg2.N, t.val = (i 0).val / 2048 :=
    ⟨⟨(i 0).val / 2048, Nat.lt_of_lt_of_eq (by omega) N_2.symm⟩, rfl⟩
  obtain ⟨-, -, -, -, -, -, -, -, -, -, -, -, e0, e1⟩ := idx2 t
  refine ⟨t, flush2_6 t, ?_⟩
  show i ∈ ((View.whole main_v15).slice (win2_6.rect t)).set
  rw [View.set_slice_whole, Rect.mem_set_unit]
  intro a
  match a with
  | ⟨0, _⟩ => show win2_6.index t (0 : Fin 2) * 2048 ≤ (i 0).val ∧ (i 0).val < win2_6.index t (0 : Fin 2) * 2048 + 2048; omega
  | ⟨1, _⟩ => show win2_6.index t (1 : Fin 2) * 64 ≤ (i 1).val ∧ (i 1).val < win2_6.index t (1 : Fin 2) * 64 + 64; omega

theorem arr2 (c : Dev nD) (n : Fin 100352) (j : Fin 64) :
    (dat2 (F := Ideal) V c).arrAt 6 cfg2.N (ix2 n j)
      = Cert.Spec.reluK (Cert.Spec.linK (M := 100352)
          (fun r k => (V c main_v0 : S100352x64.Idx → EReal) (ix2 r k))
          (fun r k => (V c main_v11_0 : S100352x64.Idx → EReal) (ix2 r k))
          (fun r => (V c main_v11_1 : S100352x1.Idx → EReal) (ix2 r (0 : Fin 1)))
          (fun k j' => (V c main_v12 : S64x64.Idx → EReal) (ix2 k j'))
          (fun j' => (V c main_v14 : S1x64.Idx → EReal) (ix2 (0 : Fin 1) j'))
          (fun k j' => (V c main_v13 : S64x64.Idx → EReal) (ix2 k j')) n j) :=
  congrFun ((dat2 (F := Ideal) V c).arrAt_eq_of_cover 6 (G2 V c) (fun t _ => flushed2_eq V c t) (cover2)) (ix2 n j)

end Cert.KernelIdeal.Val

end
-- ==== Proof.Val.R3Val.lean ====
import proofs.«428353_j4698694222361_2_alg».proof.Proof.KI.R3Body
import proofs.«428353_j4698694222361_2_alg».proof.Proof.Val.Pay0

noncomputable section

namespace Cert.KernelIdeal.ValB

open Cert.KernelIdeal Cert.KernelIdeal.Gen Cert.KernelIdeal.Hand Cert.KernelIdeal.Val
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

namespace R3

abbrev src (c : Dev nD) : Fin 1601536 → BitVec 32 := fun e => (V c main_v6 : S1601536x1.Idx → BitVec 32) (ix2 e (0 : Fin 1))
abbrev tab (c : Dev nD) : Fin 100352 → Fin 64 → EReal := fun n d => (V c main_v16 : S100352x64.Idx → EReal) (ix2 n d)
abbrev gathered (c : Dev nD) : S1601536x64.Idx → EReal := fun i => Cert.Spec.gatherK (src V c) (tab V c) (i 0) (i 1)

theorem srcBlk_apply (c : Dev nD) (t : Fin cfg3.N) (r : Fin 2048) :
    iblk3 V c 0 t (ix2 r (0 : Fin 1)) = src V c (blkRow 1601536 (t.val / 49) r) :=
  congrArg (V c main_v6 : S1601536x1.Idx → BitVec 32) (gather_embSrc t r)

theorem tabBlk_apply (c : Dev nD) (t : Fin cfg3.N) (q : Fin 2048) (d : Fin 64) :
    iblk3 V c 1 t (ix2 q d) = tab V c (blkRow 100352 (t.val % 49) q) d :=
  congrArg (V c main_v16 : S100352x64.Idx → EReal) (gather_embTab t q d)

theorem read_blk (t : Fin cfg3.N) (A : S1601536x64.Idx → EReal) (r : Fin 2048) (d : Fin 64) :
    ((cfg3.win 2).blk t).view.read (Elt Ideal) A (ix2 r d) = A (((cfg3.win 2).blk t).view.emb (ix2 r d)) := rfl

-- What the point that ends a row of the grid hands to the output is its block of the gathered messages.
theorem flushed_eq (c : Dev nD) (t : Fin cfg3.N) (hf : (cfg3.win 2).flush t = true) :
    (dat3 V c).flushed 2 t = ((cfg3.win 2).blk t).view.read (Elt Ideal) (gathered V c) := by
  have h48 : t.val % 49 = 48 := (flush3_2 t).mp hf
  funext j
  obtain ⟨r, d, rfl⟩ : ∃ (r : Fin 2048) (d : Fin 64), j = ix2 r d := ⟨j 0, j 1, eq_ix2 (n0 := 2048) (n1 := 64) j⟩
  rw [read_blk]
  refine Eq.trans ?_ (congrArg (gathered V c) (gather_embOut t r d)).symm
  show (cfg3.win 2).cut (grid3.coords t) ((dat3 V c).after 2 t) (ix2 r d) = _
  rw [after3_2, outsAt3_last V c t h48]
  refine (congrFun (gather_out _) (ix2 r d)).trans ?_
  exact gather_row (src V c) (tab V c) grid3.coords (iblk3 V c 0) (iblk3 V c 1) (fun n h => (outsAt3 V c n h).2)
    (fun t => (gather_idx t).2.2.2) (srcBlk_apply V c) (tabBlk_apply V c) (outsAt3_first V c) (outsAt3_next V c) t h48 r d

theorem cover (i : S1601536x64.Idx) : ∃ t : Fin cfg3.N, (cfg3.win 2).flush t = true ∧ i ∈ ((cfg3.win 2).blk t).view.set :=
  let ⟨t, hm, hi⟩ := gather_cover i
  ⟨t, (flush3_2 t).mpr hm, hi⟩

end R3

theorem arr3 (c : Dev nD) (e : Fin 1601536) (d : Fin 64) :
    (Hand.dat3 (F := Ideal) V c).arrAt 2 cfg3.N (ix2 e d)
      = Cert.Spec.gatherK (fun e' => (V c main_v6 : S1601536x1.Idx → BitVec 32) (ix2 e' (0 : Fin 1)))
          (fun n d' => (V c main_v16 : S100352x64.Idx → EReal) (ix2 n d')) e d :=
  congrFun ((dat3 V c).arrAt_eq_of_cover 2 (R3.gathered V c) (R3.flushed_eq V c) R3.cover) (ix2 e d)

end Cert.KernelIdeal.ValB

end
-- ==== Proof.KI.R4Eqs.lean ====
import proofs.«428353_j4698694222361_2_alg».proof.Proof.KI.R4Body

noncomputable section

namespace Cert.KernelIdeal.Hand

open Cert.KernelIdeal Cert.KernelIdeal.Gen
open Idealize.ShloMosaic Idealize.ShloMosaic.TcCoe

variable {F : FTy → Type} [FloatOps F]

variable (V : (c : Dev nD) → (b : Ref sig .tc) → Buf (Elt F) ((c : Thread nD τ).loc b))

theorem outsAt4_first_agg (c : Dev nD) (t : Fin cfg4.N) (h0 : t.val % 782 = 0) :
    (outsAt4 V c t.val t.isLt).2.1 = k4_pay4 (grid4.coords t) (iblk4 V c 0 t) (iblk4 V c 1 t) (k4_pay1 (F := F)) := by
  unfold outsAt4; exact congrArg (k4_pay4 _ _ _) (if_pos ((hcond4_0 t).mpr h0))

theorem outsAt4_first_deg (c : Dev nD) (t : Fin cfg4.N) (h0 : t.val % 782 = 0) :
    (outsAt4 V c t.val t.isLt).2.2 = k4_pay5 (grid4.coords t) (iblk4 V c 0 t) (k4_pay2 (F := F)) := by
  unfold outsAt4; exact congrArg (k4_pay5 _ _) (if_pos ((hcond4_0 t).mpr h0))

theorem outsAt4_next_agg (c : Dev nD) (t : Fin cfg4.N) (h0 : ¬t.val % 782 = 0) :
    (outsAt4 V c t.val t.isLt).2.1 = k4_pay4 (grid4.coords t) (iblk4 V c 0 t) (iblk4 V c 1 t) (outsAt4 V c (t.val - 1) (Nat.lt_of_le_of_lt (Nat.sub_le _ _) t.isLt)).2.1 := by
  obtain ⟨_ | n, hn⟩ := t
  · exact absurd rfl h0
  · show (step4 V c ⟨n + 1, hn⟩ (outsAt4 V c n _)).2.1 = k4_pay4 _ _ _ (outsAt4 V c n _).2.1
    exact congrArg (k4_pay4 _ _ _) (if_neg fun h => h0 ((hcond4_0 _).mp h))

theorem outsAt4_next_deg (c : Dev nD) (t : Fin cfg4.N) (h0 : ¬t.val % 782 = 0) :
    (outsAt4 V c t.val t.isLt).2.2 = k4_pay5 (grid4.coords t) (iblk4 V c 0 t) (outsAt4 V c (t.val - 1) (Nat.lt_of_le_of_lt (Nat.sub_le _ _) t.isLt)).2.2 := by
  obtain ⟨_ | n, hn⟩ := t
  · exact absurd rfl h0
  · show (step4 V c ⟨n + 1, hn⟩ (outsAt4 V c n _)).2.2 = k4_pay5 _ _ (outsAt4 V c n _).2.2
    exact congrArg (k4_pay5 _ _) (if_neg fun h => h0 ((hcond4_0 _).mp h))

theorem outsAt4_last_agg (c : Dev nD) (t : Fin cfg4.N) (h781 : t.val % 782 = 781) :
    (outsAt4 V c t.val t.isLt).1.1 = (outsAt4 V c t.val t.isLt).2.1 :=
  congrArg Prod.fst (outs4_last V c t ((hcond4_1 t).mpr h781))

theorem outsAt4_last_deg (c : Dev nD) (t : Fin cfg4.N) (h781 : t.val % 782 = 781) :
    (outsAt4 V c t.val t.isLt).1.2 = (outsAt4 V c t.val t.isLt).2.2 :=
  congrArg Prod.snd (outs4_last V c t ((hcond4_1 t).mpr h781))

end Cert.KernelIdeal.Hand

end
-- ==== Proof.Val.R4Val.lean ====
import proofs.«428353_j4698694222361_2_alg».proof.Proof.KI.R4Eqs
import proofs.«428353_j4698694222361_2_alg».proof.Proof.KI.Sched
import proofs.«428353_j4698694222361_2_alg».proof.Proof.Val.Pay1

noncomputable section

namespace Cert.KernelIdeal.ValB

open Cert.KernelIdeal Cert.KernelIdeal.Gen Cert.KernelIdeal.Hand Cert.KernelIdeal.Val
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

namespace R4

abbrev dstOf (c : Dev nD) : Fin 1601536 → BitVec 32 := fun e => (V c main_v8 : S1x1601536.Idx → BitVec 32) (ix2 (0 : Fin 1) e)
abbrev msgOf (c : Dev nD) : Fin 1601536 → Fin 64 → EReal := fun e d => (V c main_v17 : S1601536x64.Idx → EReal) (ix2 e d)
abbrev aggArr (c : Dev nD) : S100352x64.Idx → EReal := fun i => Cert.Spec.scatterK (dstOf V c) (msgOf V c) (i 0) (i 1)
abbrev degArr (c : Dev nD) : S100352x1.Idx → EReal := fun i => Cert.Spec.degK (dstOf V c) (i 0)

theorem dstBlk_apply (c : Dev nD) (t : Fin cfg4.N) (q : Fin 2048) :
    iblk4 V c 0 t (ix2 (0 : Fin 1) q) = dstOf V c (blkRow 1601536 (t.val % 782) q) :=
  congrArg (V c main_v8 : S1x1601536.Idx → BitVec 32) (scatter_embDst t q)

theorem msgBlk_apply (c : Dev nD) (t : Fin cfg4.N) (q : Fin 2048) (d : Fin 64) :
    iblk4 V c 1 t (ix2 q d) = msgOf V c (blkRow 1601536 (t.val % 782) q) d :=
  congrArg (V c main_v17 : S1601536x64.Idx → EReal) (scatter_embMsg t q d)

theorem read_agg (t : Fin cfg4.N) (A : S100352x64.Idx → EReal) (r : Fin 2048) (d : Fin 64) :
    ((cfg4.win 2).blk t).view.read (Elt Ideal) A (ix2 r d) = A (((cfg4.win 2).blk t).view.emb (ix2 r d)) := rfl
theorem read_deg (t : Fin cfg4.N) (A : S100352x1.Idx → EReal) (r : Fin 2048) :
    ((cfg4.win 3).blk t).view.read (Elt Ideal) A (ix2 r (0 : Fin 1)) = A (((cfg4.win 3).blk t).view.emb (ix2 r (0 : Fin 1))) := rfl

-- What the last point of a row of the grid hands to the two outputs is the aggregate and the degree of its rows.
theorem flushed_agg (c : Dev nD) (t : Fin cfg4.N) (hf : (cfg4.win 2).flush t = true) :
    (dat4 V c).flushed 2 t = ((cfg4.win 2).blk t).view.read (Elt Ideal) (aggArr V c) := by
  have hm : t.val % 782 = 781 := (flush4_2 t).mp hf
  have hN : t.val < 38318 := lt_of_lt_of_eq t.isLt N_4
  funext j
  obtain ⟨r, d, rfl⟩ : ∃ (r : Fin 2048) (d : Fin 64), j = ix2 r d := ⟨j 0, j 1, eq_ix2 (n0 := 2048) (n1 := 64) j⟩
  have hr := r.isLt
  have hrow : 2048 * (t.val / 782) + r.val < 100352 := by omega
  rw [read_agg]
  refine Eq.trans ?_ (congrArg (aggArr V c) (scatter_embAgg t r d hrow)).symm
  show (cfg4.win 2).cut (grid4.coords t) ((dat4 V c).after 2 t) (ix2 r d) = _
  rw [after4_2]
  show (outsAt4 V c t.val t.isLt).1.1 (ix2 r d) = _
  rw [outsAt4_last_agg V c t hm]
  exact agg_row (dstOf V c) (msgOf V c) grid4.coords (iblk4 V c 0) (iblk4 V c 1) (fun n h => (outsAt4 V c n h).2.1)
    (fun t => (scatter_idx t).2.2.2.2) (dstBlk_apply V c) (msgBlk_apply V c) (outsAt4_first_agg V c) (outsAt4_next_agg V c) t hm r d hrow

theorem flushed_deg (c : Dev nD) (t : Fin cfg4.N) (hf : (cfg4.win 3).flush t = true) :
    (dat4 V c).flushed 3 t = ((cfg4.win 3).blk t).view.read (Elt Ideal) (degArr V c) := by
  have hm : t.val % 782 = 781 := (flush4_3 t).mp hf
  have hN : t.val < 38318 := lt_of_lt_of_eq t.isLt N_4
  funext j
  obtain ⟨r, z, rfl⟩ : ∃ (r : Fin 2048) (z : Fin 1), j = ix2 r z := ⟨j 0, j 1, eq_ix2 (n0 := 2048) (n1 := 1) j⟩
  obtain rfl : z = 0 := Subsingleton.elim _ _
  have hr := r.isLt
  have hrow : 2048 * (t.val / 782) + r.val < 100352 := by omega
  rw [read_deg]
  refine Eq.trans ?_ (congrArg (degArr V c) (scatter_embDeg t r hrow)).symm
  show (cfg4.win 3).cut (grid4.coords t) ((dat4 V c).after 3 t) (ix2 r (0 : Fin 1)) = _
  rw [after4_3]
  show (outsAt4 V c t.val t.isLt).1.2 (ix2 r (0 : Fin 1)) = _
  rw [outsAt4_last_deg V c t hm]
  exact deg_row (dstOf V c) grid4.coords (iblk4 V c 0) (fun n h => (outsAt4 V c n h).2.2)
    (fun t => (scatter_idx t).2.2.2.2) (dstBlk_apply V c) (outsAt4_first_deg V c) (outsAt4_next_deg V c) t hm r hrow

theorem cover_agg (i : S100352x64.Idx) :
    ∃ t : Fin cfg4.N, (cfg4.win 2).flush t = true ∧ i ∈ ((cfg4.win 2).blk t).view.set :=
  let ⟨t, hm, hi⟩ := scatter_coverAgg i
  ⟨t, (flush4_2 t).mpr hm, hi⟩

theorem cover_deg (i : S100352x1.Idx) :
    ∃ t : Fin cfg4.N, (cfg4.win 3).flush t = true ∧ i ∈ ((cfg4.win 3).blk t).view.set :=
  let ⟨t, hm, hi⟩ := scatter_coverDeg i
  ⟨t, (flush4_3 t).mpr hm, hi⟩

end R4

theorem arr4_agg (c : Dev nD) (n : Fin 100352) (d : Fin 64) :
    (dat4 (F := Ideal) V c).arrAt 2 cfg4.N (ix2 n d)
      = Cert.Spec.scatterK (fun e => (V c main_v8 : S1x1601536.Idx → BitVec 32) (ix2 (0 : Fin 1) e))
          (fun e d' => (V c main_v17 : S1601536x64.Idx → EReal) (ix2 e d')) n d :=
  congrFun ((dat4 V c).arrAt_eq_of_cover 2 (R4.aggArr V c) (R4.flushed_agg V c) R4.cover_agg) (ix2 n d)

theorem arr4_deg (c : Dev nD) (n : Fin 100352) :
    (dat4 (F := Ideal) V c).arrAt 3 cfg4.N (ix2 n (0 : Fin 1))
      = Cert.Spec.degK (fun e => (V c main_v8 : S1x1601536.Idx → BitVec 32) (ix2 (0 : Fin 1) e)) n :=
  congrFun ((dat4 V c).arrAt_eq_of_cover 3 (R4.degArr V c) (R4.flushed_deg V c) R4.cover_deg) (ix2 n (0 : Fin 1))

end Cert.KernelIdeal.ValB

end
-- ==== Proof.Val.Pay5.lean ====
import proofs.«428353_j4698694222361_2_alg».proof.Proof.Val.Combine
import Mathlib.Data.Finset.Fold
import Mathlib.Data.Finset.Lattice.Fold

noncomputable section

namespace Cert.KernelIdeal.Val

open Idealize.ShloMosaic Idealize.ShloMosaic.ValueIdx Cert.KernelIdeal Cert.KernelIdeal.Gen

theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem ofBits_neg_inf_f32 : Ideal.ofBits .f32 0xFF800000#32 = ⊥ := by
  simp [Ideal.ofBits, Ideal.ieee]

theorem lift40 (h : S2048x40.Reduces [1] S2048) (r : Fin 2048) (k : Fin 40) : h.lift (ix1 r) k = ix2 r k :=
  funext fun a => Fin.ext (by
    match a with
    | ⟨0, _⟩ => rfl
    | ⟨1, _⟩ => rfl)

/-- Folding max from the bottom element is the supremum. -/
theorem fold_max_bot_eq_sup {ι : Type} (s : Finset ι) (f : ι → EReal) : s.fold max ⊥ f = s.sup f :=
  eq_of_forall_ge_iff fun c => by
    rw [Finset.fold_max_le, Finset.sup_le_iff]
    exact ⟨fun h => h.2, fun h => ⟨bot_le, h⟩⟩

def maxCol (z : FVec Ideal S2048x40 .f32) : FVec Ideal S2048x1 .f32 :=
  shapeCast S2048x1
    (multiReduction (F := Ideal) .maximumf [1] S2048 z 0xFF800000#32 reduces_S2048x40_S2048 (.inl rfl) rfl)
    shapeCasts_S2048_S2048x1

def lsmPay (z : FVec Ideal S2048x40 .f32) : FVec Ideal S2048x40 .f32 :=
  subf (subf z (broadcastTo S2048x40 (maxCol z) broadcasts_S2048x1_S2048x40))
    (broadcastTo S2048x40
      (log (shapeCast S2048x1
        (multiReduction (F := Ideal) .add [1] S2048
          (exp (subf z (broadcastTo S2048x40 (maxCol z) broadcasts_S2048x1_S2048x40)))
          0x00000000#32 reduces_S2048x40_S2048 (.inl rfl) rfl)
        shapeCasts_S2048_S2048x1))
      broadcasts_S2048x1_S2048x40)

/-- The spread row maximum at (r, j') is the supremum of row r: the fold of max along the lanes from −∞. -/
theorem maxCol_bcast_apply (z : FVec Ideal S2048x40 .f32) (r : Fin 2048) (j' : Fin 40) :
    broadcastTo S2048x40 (maxCol z) broadcasts_S2048x1_S2048x40 (ix2 r j')
      = Cert.Spec.rowMax fun k : Fin 40 => z (ix2 r k) := by
  refine (broadcastTo_a1_ab_apply (maxCol z) broadcasts_S2048x1_S2048x40 r j').trans
    ((shapeCast_a_a1_apply _ shapeCasts_S2048_S2048x1 r (0 : Fin 1)).trans ?_)
  refine (Ideal.multiReduction_maximumf_single z 0xFF800000#32 reduces_S2048x40_S2048 (.inl rfl) rfl (ix1 r)).trans ?_
  refine (congrArg (fun b => (Finset.univ : Finset (Fin (S2048x40.size 1))).fold max b (z ∘ reduces_S2048x40_S2048.lift (ix1 r)))
    ofBits_neg_inf_f32).trans ((fold_max_bot_eq_sup _ _).trans ?_)
  exact congrArg (Finset.univ.sup) (funext fun k => congrArg z (lift40 _ r k))

theorem lsmPay_at (z : FVec Ideal S2048x40 .f32) (r : Fin 2048) (j : Fin 40) :
    lsmPay z (ix2 r j) = Cert.Spec.logSoftmaxK (fun k : Fin 40 => z (ix2 r k)) j := by
  have hsub : ∀ j' : Fin 40, subf z (broadcastTo S2048x40 (maxCol z) broadcasts_S2048x1_S2048x40) (ix2 r j')
      = z (ix2 r j') - Cert.Spec.rowMax fun k : Fin 40 => z (ix2 r k) := fun j' =>
    (subf_apply _ _ _).trans (congrArg (z (ix2 r j') - ·) (maxCol_bcast_apply z r j'))
  unfold lsmPay Cert.Spec.logSoftmaxK
  refine (subf_apply _ _ _).trans (congrArg₂ (· - ·) (hsub j) ?_)
  refine (broadcastTo_a1_ab_apply _ broadcasts_S2048x1_S2048x40 r j).trans (congrArg Ideal.log ?_)
  refine (shapeCast_a_a1_apply _ shapeCasts_S2048_S2048x1 r (0 : Fin 1)).trans ?_
  refine (Ideal.multiReduction_add_single _ 0x00000000#32 reduces_S2048x40_S2048 (.inl rfl) rfl (ix1 r)).trans ?_
  exact Finset.sum_congr rfl fun j' _ => (congrArg _ (lift40 _ r j')).trans (congrArg Ideal.exp (hsub j'))

theorem pay5_at (agg : Vec Ideal S2048x64 .f32) (deg : Vec Ideal S2048x1 .f32) (x : Vec Ideal S2048x64 .f32)
    (wl wr : Vec Ideal S64x40 .f32) (bl : Vec Ideal S1x40 .f32) (r : Fin 2048) (j : Fin 40) :
    k5_pay1 agg deg x wl wr bl (ix2 r j)
      = Cert.Spec.logSoftmaxK (fun j' => Cert.Spec.linK (M := 2048) (fun r' k => x (ix2 r' k)) (fun r' k => agg (ix2 r' k)) (fun r' => deg (ix2 r' (0 : Fin 1)))
          (fun k j'' => wl (ix2 k j'')) (fun j'' => bl (ix2 (0 : Fin 1) j'')) (fun k j'' => wr (ix2 k j'')) r j') j := by
  unfold Gen.k5_pay1
  simp only [shapeCast_self]
  exact (lsmPay_at (linPay broadcasts_S1x40_S2048x40 agg deg x wl wr bl) r j).trans
    (congrArg (fun z => Cert.Spec.logSoftmaxK z j) (funext fun j' => linPay_at _ agg deg x wl wr bl r j'))

end Cert.KernelIdeal.Val

end
-- ==== Proof.Val.R5Val.lean ====
import proofs.«428353_j4698694222361_2_alg».proof.Proof.KI.R5Body
import proofs.«428353_j4698694222361_2_alg».proof.Proof.Val.Pay5
import Idealize.ShloMosaic.Lib.Pipeline.Value
import Idealize.ShloMosaic.Lib.ValueIdx

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-- The three row windows and the output sit at block (t, 0) at point t; the weights and the bias at block (0, 0). -/
theorem idx5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

/-- Block row r of a row window at point t is array row 2048 t + r; the weights' and the bias's one block is the whole array. -/
theorem iblk5_at (c : Dev nD) (t : Fin cfg5.N) :
    (∀ (r : Fin 2048) (k : Fin 64) (n : Fin 100352), n.val = 2048 * t.val + r.val →
      (iblk5 V c 0 t : Vec Ideal S2048x64 .f32) (ix2 r k) = (V c main_v15 : S100352x64.Idx → EReal) (ix2 n k))
    ∧ (∀ (r : Fin 2048) (k : Fin 64) (n : Fin 100352), n.val = 2048 * t.val + r.val →
      (iblk5 V c 1 t : Vec Ideal S2048x64 .f32) (ix2 r k) = (V c main_v18_0 : S100352x64.Idx → EReal) (ix2 n k))
    ∧ (∀ (r : Fin 2048) (n : Fin 100352), n.val = 2048 * t.val + r.val →
      (iblk5 V c 2 t : Vec Ideal S2048x1 .f32) (ix2 r (0 : Fin 1)) = (V c main_v18_1 : S100352x1.Idx → EReal) (ix2 n (0 : Fin 1)))
    ∧ (iblk5 V c 3 t : Vec Ideal S64x40 .f32) = (V c main_v19 : Vec Ideal S64x40 .f32)
    ∧ (iblk5 V c 4 t : Vec Ideal S1x40 .f32) = (V c main_v21 : Vec Ideal S1x40 .f32)
    ∧ (iblk5 V c 5 t : Vec Ideal S64x40 .f32) = (V c main_v20 : Vec Ideal S64x40 .f32) := by
  obtain ⟨a0, a1, b0, b1, c0, c1, d0, d1, e0, e1, f0, f1, -⟩ := idx5 t
  unfold iblk5
  refine ⟨fun r k n hn => ?_, fun r k n hn => ?_, fun r n hn => ?_, funext fun y => ?_, funext fun y => ?_, funext fun y => ?_⟩ <;>
    rw [View.read_apply]
  · exact congrArg (V c main_v15 : S100352x64.Idx → EReal) (Shape.idx_ext₂
      (by show win5_0.index t (0 : Fin 2) * 2048 + 1 * r.val = n.val; omega)
      (by show win5_0.index t (1 : Fin 2) * 64 + 1 * k.val = k.val; omega))
  · exact congrArg (V c main_v18_0 : S100352x64.Idx → EReal) (Shape.idx_ext₂
      (by show win5_1.index t (0 : Fin 2) * 2048 + 1 * r.val = n.val; omega)
      (by show win5_1.index t (1 : Fin 2) * 64 + 1 * k.val = k.val; omega))
  · exact congrArg (V c main_v18_1 : S100352x1.Idx → EReal) (Shape.idx_ext₂
      (by show win5_2.index t (0 : Fin 2) * 2048 + 1 * r.val = n.val; omega)
      (by show win5_2.index t (1 : Fin 2) * 1 + 1 * (0 : Fin 1).val = (0 : Fin 1).val; omega))
  · exact congrArg (V c main_v19 : S64x40.Idx → EReal) (Shape.idx_ext₂
      (by show win5_3.index t (0 : Fin 2) * 64 + 1 * (y 0).val = (y 0).val; omega)
      (by show win5_3.index t (1 : Fin 2) * 40 + 1 * (y 1).val = (y 1).val; omega))
  · exact congrArg (V c main_v21 : S1x40.Idx → EReal) (Shape.idx_ext₂
      (by show win5_4.index t (0 : Fin 2) * 1 + 1 * (y 0).val = (y 0).val; omega)
      (by show win5_4.index t (1 : Fin 2) * 40 + 1 * (y 1).val = (y 1).val; omega))
  · exact congrArg (V c main_v20 : S64x40.Idx → EReal) (Shape.idx_ext₂
      (by show win5_5.index t (0 : Fin 2) * 64 + 1 * (y 0).val = (y 0).val; omega)
      (by show win5_5.index t (1 : Fin 2) * 40 + 1 * (y 1).val = (y 1).val; omega))

/-- The stage of the specification over the six arrays as the region finds them. -/
abbrev G5 (c : Dev nD) : S100352x40.Idx → EReal := fun i =>
  Cert.Spec.logSoftmaxK (fun j' => Cert.Spec.linK (M := 100352)
    (fun r k => (V c main_v15 : S100352x64.Idx → EReal) (ix2 r k))
    (fun r k => (V c main_v18_0 : S100352x64.Idx → EReal) (ix2 r k))
    (fun r => (V c main_v18_1 : S100352x1.Idx → EReal) (ix2 r (0 : Fin 1)))
    (fun k j'' => (V c main_v19 : S64x40.Idx → EReal) (ix2 k j''))
    (fun j'' => (V c main_v21 : S1x40.Idx → EReal) (ix2 (0 : Fin 1) j''))
    (fun k j'' => (V c main_v20 : S64x40.Idx → EReal) (ix2 k j'')) (i 0) j') (i 1)

/-- Block t of that array is the payload of the six blocks: the linear stage reads its row inputs at one row only. -/
theorem flushed5_eq (c : Dev nD) (t : Fin cfg5.N) :
    (dat5 (F := Ideal) V c).flushed 6 t = ((cfg5.win 6).blk t).view.read (Elt Ideal) (G5 V c) := by
  show (cfg5.win 6).cut (grid5.coords t) ((dat5 V c).after 6 t) = _
  rw [after5_6, out5_6_eq]
  obtain ⟨hx, ha, hd, hwl, hbl, hwr⟩ := iblk5_at V c t
  obtain ⟨-, -, -, -, -, -, -, -, -, -, -, -, e0, e1⟩ := idx5 t
  rw [hwl, hbl, hwr]
  funext y
  obtain ⟨r, j, rfl⟩ : ∃ (r : Fin 2048) (j : Fin 40), y = ix2 r j := ⟨y 0, y 1, eq_ix2 y⟩
  have hlt : 2048 * t.val + r.val < 100352 := by have := Nat.lt_of_lt_of_eq t.isLt N_5; omega
  refine (((pay5_at _ _ _ _ _ _ r j).trans (congrArg (fun z => Cert.Spec.logSoftmaxK z j) (funext fun j' => linK_row _ _ _ _ _ _ _ _ _ r ⟨_, hlt⟩ j' (fun k => hx r k _ rfl) (fun k => ha r k _ rfl) (hd r _ rfl)))) :
    _ = G5 V c (ix2 ⟨2048 * t.val + r.val, hlt⟩ j)).trans ?_
  rw [View.read_apply]
  exact congrArg (G5 V c) (Shape.idx_ext₂
    (by show 2048 * t.val + r.val = win5_6.index t (0 : Fin 2) * 2048 + 1 * r.val; omega)
    (by show j.val = win5_6.index t (1 : Fin 2) * 40 + 1 * j.val; omega))

theorem cover5 (i : S100352x40.Idx) :
    ∃ t : Fin cfg5.N, (cfg5.win 6).flush t = true ∧ i ∈ ((cfg5.win 6).blk t).view.set := by
  have hi0 := idx2_lt0 i
  have hi1 := idx2_lt1 i
  obtain ⟨t, ht⟩ : ∃ t : Fin cfg5.N, t.val = (i 0).val / 2048 :=
    ⟨⟨(i 0).val / 2048, Nat.lt_of_lt_of_eq (by omega) N_5.symm⟩, rfl⟩
  obtain ⟨-, -, -, -, -, -, -, -, -, -, -, -, e0, e1⟩ := idx5 t
  refine ⟨t, flush5_6 t, ?_⟩
  show i ∈ ((View.whole main_v22).slice (win5_6.rect t)).set
  rw [View.set_slice_whole, Rect.mem_set_unit]
  intro a
  match a with
  | ⟨0, _⟩ => show win5_6.index t (0 : Fin 2) * 2048 ≤ (i 0).val ∧ (i 0).val < win5_6.index t (0 : Fin 2) * 2048 + 2048; omega
  | ⟨1, _⟩ => show win5_6.index t (1 : Fin 2) * 40 ≤ (i 1).val ∧ (i 1).val < win5_6.index t (1 : Fin 2) * 40 + 40; omega

theorem arr5 (c : Dev nD) (n : Fin 100352) (j : Fin 40) :
    (dat5 (F := Ideal) V c).arrAt 6 cfg5.N (ix2 n j)
      = Cert.Spec.logSoftmaxK (fun j' => Cert.Spec.linK (M := 100352)
          (fun r k => (V c main_v15 : S100352x64.Idx → EReal) (ix2 r k))
          (fun r k => (V c main_v18_0 : S100352x64.Idx → EReal) (ix2 r k))
          (fun r => (V c main_v18_1 : S100352x1.Idx → EReal) (ix2 r (0 : Fin 1)))
          (fun k j'' => (V c main_v19 : S64x40.Idx → EReal) (ix2 k j''))
          (fun j'' => (V c main_v21 : S1x40.Idx → EReal) (ix2 (0 : Fin 1) j''))
          (fun k j'' => (V c main_v20 : S64x40.Idx → EReal) (ix2 k j'')) n j') j :=
  congrFun ((dat5 (F := Ideal) V c).arrAt_eq_of_cover 6 (G5 V c) (fun t _ => flushed5_eq V c t) (cover5)) (ix2 n j)

end Cert.KernelIdeal.Val

end
-- ==== Proof.Val.Chain.lean ====
import proofs.«428353_j4698694222361_2_alg».proof.Proof.KI.Run
import proofs.«428353_j4698694222361_2_alg».proof.Proof.KI.Carry
import proofs.«428353_j4698694222361_2_alg».proof.Proof.Val.Host
import proofs.«428353_j4698694222361_2_alg».proof.Proof.Val.R0Val
import proofs.«428353_j4698694222361_2_alg».proof.Proof.Val.R1Val
import proofs.«428353_j4698694222361_2_alg».proof.Proof.Val.R2Val
import proofs.«428353_j4698694222361_2_alg».proof.Proof.Val.R3Val
import proofs.«428353_j4698694222361_2_alg».proof.Proof.Val.R4Val
import proofs.«428353_j4698694222361_2_alg».proof.Proof.Val.R5Val
import proofs.«428353_j4698694222361_2_alg».proof.Proof.Spec

noncomputable section

namespace Cert.KernelIdeal.Val

open Cert.KernelIdeal Cert.KernelIdeal.Gen Cert.KernelIdeal.Hand Cert.Spec
open Idealize.ShloMosaic Idealize.ShloMosaic.TcCoe Idealize.ShloMosaic.ValueIdx

variable (m : (ℓ : Loc nD τ sig) → Buf (Elt Ideal) ℓ) (c : Dev nD)

abbrev argW1l : Fin 64 → Fin 64 → EReal := fun k j => (m ((c.tc : Thread nD τ).loc main_arg2) : S64x64.Idx → EReal) (ix2 j k)
abbrev argB1 : Fin 64 → EReal := fun j => (m ((c.tc : Thread nD τ).loc main_arg3) : S64.Idx → EReal) (ix1 j)
abbrev argW1r : Fin 64 → Fin 64 → EReal := fun k j => (m ((c.tc : Thread nD τ).loc main_arg4) : S64x64.Idx → EReal) (ix2 j k)

abbrev argW2l : Fin 64 → Fin 40 → EReal := fun k j => (m ((c.tc : Thread nD τ).loc main_arg5) : S40x64.Idx → EReal) (ix2 j k)
abbrev argB2 : Fin 40 → EReal := fun j => (m ((c.tc : Thread nD τ).loc main_arg6) : S40.Idx → EReal) (ix1 j)
abbrev argW2r : Fin 64 → Fin 40 → EReal := fun k j => (m ((c.tc : Thread nD τ).loc main_arg7) : S40x64.Idx → EReal) (ix2 j k)

/-- A layer's messages and aggregate over a table, and the degree, as the specification states them over the padded lists. -/
abbrev msgsOf (t : Fin 100352 → Fin 64 → EReal) : Fin 1601536 → Fin 64 → EReal := gatherK (srcP (argE m c)) t
abbrev aggOf (t : Fin 100352 → Fin 64 → EReal) : Fin 100352 → Fin 64 → EReal := scatterK (dstP (argE m c)) (msgsOf m c t)
abbrev degP : Fin 100352 → EReal := degK (dstP (argE m c))

theorem msgs1_eq (e : Fin 1601536) (d : Fin 64) :
    (W8 (F := Ideal) m c main_v10 : S1601536x64.Idx → EReal) (ix2 e d) = msgsOf m c (padRows (argX m c)) e d := by
  refine (congrFun (show (W8 (F := Ideal) m c main_v10 : S1601536x64.Idx → EReal) = (dat0 (F := Ideal) (Vin0 (F := Ideal) m) c).arrAt 2 cfg0.N
    from W8_arr (F := Ideal) m c 2) (ix2 e d)).trans ?_
  rw [arr0 (Vin0 (F := Ideal) m) c e d]
  congr 1
  · exact src_of m c rfl
  · exact funext fun n => funext (xpad_of m c (v7_v9 m c) n)

theorem agg1_eq (n : Fin 100352) (d : Fin 64) :
    (W9 (F := Ideal) m c main_v11_0 : S100352x64.Idx → EReal) (ix2 n d) = aggOf m c (padRows (argX m c)) n d := by
  refine (congrFun (show (W9 (F := Ideal) m c main_v11_0 : S100352x64.Idx → EReal) = (dat1 (F := Ideal) (Vin1 (F := Ideal) m) c).arrAt 2 cfg1.N
    from W9_arr (F := Ideal) m c 2) (ix2 n d)).trans ?_
  rw [arr1_agg (Vin1 (F := Ideal) m) c n d]
  have hm : (fun e d' => (Vin1 (F := Ideal) m c main_v10 : S1601536x64.Idx → EReal) (ix2 e d')) = msgsOf m c (padRows (argX m c)) :=
    funext fun e => funext (msgs1_eq m c e)
  exact congrFun (congrFun (congrArg₂ scatterK (dst_of m c (carry8_v8 (F := Ideal) m c)) hm) n) d

theorem deg1_eq (n : Fin 100352) :
    (W9 (F := Ideal) m c main_v11_1 : S100352x1.Idx → EReal) (ix2 n (0 : Fin 1)) = degP m c n := by
  refine (congrFun (show (W9 (F := Ideal) m c main_v11_1 : S100352x1.Idx → EReal) = (dat1 (F := Ideal) (Vin1 (F := Ideal) m) c).arrAt 3 cfg1.N
    from W9_arr (F := Ideal) m c 3) (ix2 n (0 : Fin 1))).trans ?_
  rw [arr1_deg (Vin1 (F := Ideal) m) c n]
  exact congrFun (congrArg degK (dst_of m c (carry8_v8 (F := Ideal) m c))) n

abbrev tab2 : Fin 100352 → Fin 64 → EReal := fun n d => (W11 (F := Ideal) m c main_v15 : S100352x64.Idx → EReal) (ix2 n d)

theorem h1_eq :
    tab2 m c = layer1 (srcP (argE m c)) (dstP (argE m c)) (padRows (argX m c)) (argW1l m c) (argB1 m c) (argW1r m c) := by
  funext n j
  refine (congrFun (show (W11 (F := Ideal) m c main_v15 : S100352x64.Idx → EReal) = (dat2 (F := Ideal) (Vin2 (F := Ideal) m) c).arrAt 6 cfg2.N
    from W11_arr (F := Ideal) m c 6) (ix2 n j)).trans ?_
  rw [arr2 (Vin2 (F := Ideal) m) c n j]
  have hx : (fun r k => (Vin2 (F := Ideal) m c main_v0 : S100352x64.Idx → EReal) (ix2 r k)) = padRows (argX m c) :=
    funext fun r => funext (xpad_of m c ((carry10_v0 (F := Ideal) m c).trans (v7_v0 m c)) r)
  have ha : (fun r k => (Vin2 (F := Ideal) m c main_v11_0 : S100352x64.Idx → EReal) (ix2 r k)) = aggOf m c (padRows (argX m c)) :=
    funext fun r => funext fun k => (congrFun (carry10_agg (F := Ideal) m c) (ix2 r k)).trans (agg1_eq m c r k)
  have hg : (fun r => (Vin2 (F := Ideal) m c main_v11_1 : S100352x1.Idx → EReal) (ix2 r (0 : Fin 1))) = degP m c :=
    funext fun r => (congrFun (carry10_deg (F := Ideal) m c) (ix2 r (0 : Fin 1))).trans (deg1_eq m c r)
  have hwl : (fun k j' => (Vin2 (F := Ideal) m c main_v12 : S64x64.Idx → EReal) (ix2 k j')) = argW1l m c :=
    funext fun k => funext fun j' => (h2_wl (W9 (F := Ideal) m c) k j').trans (congrFun (carry9_arg2 (F := Ideal) m c) (ix2 j' k))
  have hb : (fun j' => (Vin2 (F := Ideal) m c main_v14 : S1x64.Idx → EReal) (ix2 (0 : Fin 1) j')) = argB1 m c :=
    funext fun j' => (h2_b (W9 (F := Ideal) m c) j').trans (congrFun (carry9_arg3 (F := Ideal) m c) (ix1 j'))
  have hwr : (fun k j' => (Vin2 (F := Ideal) m c main_v13 : S64x64.Idx → EReal) (ix2 k j')) = argW1r m c :=
    funext fun k => funext fun j' => (h2_wr (W9 (F := Ideal) m c) k j').trans (congrFun (carry9_arg4 (F := Ideal) m c) (ix2 j' k))
  rw [hx, ha, hg, hwl, hb, hwr]
  rfl

theorem msgs2_eq (e : Fin 1601536) (d : Fin 64) :
    (W13 (F := Ideal) m c main_v17 : S1601536x64.Idx → EReal) (ix2 e d) = msgsOf m c (tab2 m c) e d := by
  refine (congrFun (show (W13 (F := Ideal) m c main_v17 : S1601536x64.Idx → EReal) = (dat3 (F := Ideal) (Vin3 (F := Ideal) m) c).arrAt 2 cfg3.N
    from W13_arr (F := Ideal) m c 2) (ix2 e d)).trans ?_
  rw [ValB.arr3 (Vin3 (F := Ideal) m) c e d]
  have ht : (fun n d' => (Vin3 (F := Ideal) m c main_v16 : S100352x64.Idx → EReal) (ix2 n d')) = tab2 m c :=
    funext fun n => funext fun d' => congrFun (h3_bf (W11 (F := Ideal) m c)) (ix2 n d')
  exact congrFun (congrFun (congrArg₂ gatherK (src_of m c (carry12_v6 (F := Ideal) m c)) ht) e) d

theorem agg2_eq (n : Fin 100352) (d : Fin 64) :
    (W14 (F := Ideal) m c main_v18_0 : S100352x64.Idx → EReal) (ix2 n d) = aggOf m c (tab2 m c) n d := by
  refine (congrFun (show (W14 (F := Ideal) m c main_v18_0 : S100352x64.Idx → EReal) = (dat4 (F := Ideal) (Vin4 (F := Ideal) m) c).arrAt 2 cfg4.N
    from W14_arr (F := Ideal) m c 2) (ix2 n d)).trans ?_
  rw [ValB.arr4_agg (Vin4 (F := Ideal) m) c n d]
  have hm : (fun e d' => (Vin4 (F := Ideal) m c main_v17 : S1601536x64.Idx → EReal) (ix2 e d')) = msgsOf m c (tab2 m c) :=
    funext fun e => funext (msgs2_eq m c e)
  exact congrFun (congrFun (congrArg₂ scatterK (dst_of m c (carry13_v8 (F := Ideal) m c)) hm) n) d

theorem deg2_eq (n : Fin 100352) :
    (W14 (F := Ideal) m c main_v18_1 : S100352x1.Idx → EReal) (ix2 n (0 : Fin 1)) = degP m c n := by
  refine (congrFun (show (W14 (F := Ideal) m c main_v18_1 : S100352x1.Idx → EReal) = (dat4 (F := Ideal) (Vin4 (F := Ideal) m) c).arrAt 3 cfg4.N
    from W14_arr (F := Ideal) m c 3) (ix2 n (0 : Fin 1))).trans ?_
  rw [ValB.arr4_deg (Vin4 (F := Ideal) m) c n]
  exact congrFun (congrArg degK (dst_of m c (carry13_v8 (F := Ideal) m c))) n

theorem out_pad_eq (n : Fin 100352) (j : Fin 40) :
    (W16 (F := Ideal) m c main_v22 : S100352x40.Idx → EReal) (ix2 n j)
      = layer2 (srcP (argE m c)) (dstP (argE m c)) (tab2 m c) (argW2l m c) (argB2 m c) (argW2r m c) n j := by
  refine (congrFun (show (W16 (F := Ideal) m c main_v22 : S100352x40.Idx → EReal) = (dat5 (F := Ideal) (Vin5 (F := Ideal) m) c).arrAt 6 cfg5.N
    from W16_arr (F := Ideal) m c 6) (ix2 n j)).trans ?_
  rw [arr5 (Vin5 (F := Ideal) m) c n j]
  have hx : (fun r k => (Vin5 (F := Ideal) m c main_v15 : S100352x64.Idx → EReal) (ix2 r k)) = tab2 m c :=
    funext fun r => funext fun k => congrFun (carry15_v15 (F := Ideal) m c) (ix2 r k)
  have ha : (fun r k => (Vin5 (F := Ideal) m c main_v18_0 : S100352x64.Idx → EReal) (ix2 r k)) = aggOf m c (tab2 m c) :=
    funext fun r => funext fun k => (congrFun (carry15_agg (F := Ideal) m c) (ix2 r k)).trans (agg2_eq m c r k)
  have hg : (fun r => (Vin5 (F := Ideal) m c main_v18_1 : S100352x1.Idx → EReal) (ix2 r (0 : Fin 1))) = degP m c :=
    funext fun r => (congrFun (carry15_deg (F := Ideal) m c) (ix2 r (0 : Fin 1))).trans (deg2_eq m c r)
  have hwl : (fun k j'' => (Vin5 (F := Ideal) m c main_v19 : S64x40.Idx → EReal) (ix2 k j'')) = argW2l m c :=
    funext fun k => funext fun j' => (h5_wl (W14 (F := Ideal) m c) k j').trans (congrFun (carry14_arg5 (F := Ideal) m c) (ix2 j' k))
  have hb : (fun j'' => (Vin5 (F := Ideal) m c main_v21 : S1x40.Idx → EReal) (ix2 (0 : Fin 1) j'')) = argB2 m c :=
    funext fun j' => (h5_b (W14 (F := Ideal) m c) j').trans (congrFun (carry14_arg6 (F := Ideal) m c) (ix1 j'))
  have hwr : (fun k j'' => (Vin5 (F := Ideal) m c main_v20 : S64x40.Idx → EReal) (ix2 k j'')) = argW2r m c :=
    funext fun k => funext fun j' => (h5_wr (W14 (F := Ideal) m c) k j').trans (congrFun (carry14_arg7 (F := Ideal) m c) (ix2 j' k))
  rw [hx, ha, hg, hwl, hb, hwr]
  rfl

/-- THE RESULT: the result buffer holds the specification's second layer of its first, at the padded row n. -/
theorem result_eq (n : Fin 100000) (j : Fin 40) :
    (W17 (F := Ideal) m c main_v23 : S100000x40.Idx → EReal) (ix2 n j)
      = layer2 (srcP (argE m c)) (dstP (argE m c))
          (layer1 (srcP (argE m c)) (dstP (argE m c)) (padRows (argX m c)) (argW1l m c) (argB1 m c) (argW1r m c))
          (argW2l m c) (argB2 m c) (argW2r m c) (Fin.castLE (by decide : 100000 ≤ 100352) n) j := by
  rw [W17_eq, h6_out (W16 (F := Ideal) m c) n j, ← h1_eq m c]
  exact out_pad_eq m c _ j

end Cert.KernelIdeal.Val

end
-- ==== Proof.Val.Bridge.lean ====
import proofs.«428353_j4698694222361_2_alg».proof.Proof.Spec
import Mathlib.Algebra.BigOperators.Fin
import Mathlib.Data.EReal.Basic

noncomputable section

namespace Cert.Spec

open Idealize.ShloMosaic Idealize.ShloMosaic.ValueIdx

namespace Bridge

theorem ofNat_eq_iff_toNat (m : ℕ) (hm : m < 2 ^ 32) (w : BitVec 32) : BitVec.ofNat 32 m = w ↔ w.toNat = m := by
  rw [← BitVec.toNat_inj, BitVec.toNat_ofNat, Nat.mod_eq_of_lt hm, eq_comm]

/-- A node number is below 2^31, so its word is w exactly when w reads, signed, as the number. -/
theorem ind_node (n : Fin 100000) (w : BitVec 32) :
    ind (BitVec.ofNat 32 n.val) w = if w.toInt = (n.val : ℤ) then 1 else 0 := by
  refine if_congr ?_ rfl rfl
  rw [ofNat_eq_iff_toNat _ (by omega), BitVec.toInt_eq_toNat_cond]
  have := w.isLt
  split <;> omega

/-- A source word in range is the word of the row the reference reads for it, and of no other row. -/
theorem ind_row (w : BitVec 32) (h0 : 0 ≤ w.toInt) (h1 : w.toInt < 100000) (r : Fin 100352) :
    ind w (BitVec.ofNat 32 r.val) = if r = Fin.castLE (by decide) (refRow w) then 1 else 0 := by
  refine if_congr ?_ rfl rfl
  have hw := w.isLt
  have hr : (refRow w).val = w.toNat := by
    show min ((if w.toInt < 0 then w + 100000#32 else w).toInt.toNat) 99999 = w.toNat
    rw [if_neg (by omega)]
    rw [BitVec.toInt_eq_toNat_cond] at h0 h1 ⊢
    split at h0 <;> split <;> omega
  rw [eq_comm, ofNat_eq_iff_toNat _ (by omega), Fin.ext_iff]
  show w.toNat = r.val ↔ r.val = (refRow w).val
  rw [hr]
  exact eq_comm

/-- The one-hot sum over the table's rows picks the row the reference reads. -/
theorem gather_real (ei : EdgeIx) (hsrc : SrcInRange ei) (tab : Fin 100352 → Fin 64 → EReal)
    (h : Fin 100000 → Fin 64 → EReal) (htab : ∀ (r : Fin 100000) d, tab (Fin.castLE (by decide) r) d = h r d)
    (e : Fin 1600000) (d : Fin 64) :
    gatherK (srcP ei) tab (Fin.castLE (by decide) e) d = h (refRow (ei (ix2 (0 : Fin 2) e))) d := by
  unfold gatherK srcP
  rw [dif_pos (show (Fin.castLE (by decide) e : Fin 1601536).val < 1600000 from e.isLt)]
  show ∑ r : Fin 100352, ind (ei (ix2 (0 : Fin 2) e)) (BitVec.ofNat 32 r.val) * tab r d = _
  simp only [ind_row _ (hsrc e).1 (hsrc e).2, ite_mul, one_mul, zero_mul, Finset.sum_ite_eq', Finset.mem_univ, if_true]
  exact htab _ d

theorem sum_pad (f : Fin 1601536 → EReal) (hf : ∀ e : Fin 1601536, 1600000 ≤ e.val → f e = 0) :
    (∑ e, f e) = ∑ e : Fin 1600000, f (Fin.castLE (by decide) e) := by
  refine (Fin.sum_univ_add (a := 1600000) (b := 1536) f).trans ?_
  rw [show ∑ i : Fin 1536, f (Fin.natAdd 1600000 i) = 0 from Finset.sum_eq_zero fun e _ => hf _ (Nat.le_add_right _ _), add_zero]
  rfl

/-- A padding edge carries the word of no node and a real edge lands at n exactly when its destination reads as n. -/
theorem scatter_filter (ei : EdgeIx) (n : Fin 100000) (g : Fin 1601536 → EReal) :
    (∑ e, ind (BitVec.ofNat 32 n.val) (dstP ei e) * g e)
      = ∑ e ∈ Finset.univ.filter (fun e : Fin 1600000 => (ei (ix2 (1 : Fin 2) e)).toInt = (n.val : ℤ)),
          g (Fin.castLE (by decide) e) := by
  have hn := n.isLt
  rw [sum_pad _ fun e he => by
    unfold dstP
    rw [dif_neg (by omega), ind_node, if_neg (by rw [show (100352#32 : BitVec 32).toInt = 100352 by decide]; omega), zero_mul],
    Finset.sum_filter]
  refine Finset.sum_congr rfl fun e _ => ?_
  unfold dstP
  rw [dif_pos (show (Fin.castLE (by decide) e : Fin 1601536).val < 1600000 from e.isLt), ind_node, ite_mul, one_mul, zero_mul]
  rfl

end Bridge

open Bridge

variable (ei : EdgeIx) (hsrc : SrcInRange ei) (n : Fin 100000)
include hsrc

/-- The padding edges drop out, the real ones pass the reference's filter, and each one's message is the row the reference reads. -/
theorem agg_eq_ref (tab : Fin 100352 → Fin 64 → EReal) (h : Fin 100000 → Fin 64 → EReal)
    (htab : ∀ (r : Fin 100000) d, tab (Fin.castLE (by decide) r) d = h r d) (d : Fin 64) :
    scatterK (dstP ei) (gatherK (srcP ei) tab) (Fin.castLE (by decide) n) d = refAgg ei h n d := by
  unfold scatterK refAgg
  exact (scatter_filter ei n fun e => gatherK (srcP ei) tab e d).trans
    (Finset.sum_congr rfl fun e _ => gather_real ei hsrc tab h htab e d)

omit hsrc in
theorem deg_eq_ref : degK (dstP ei) (Fin.castLE (by decide) n) = refDeg ei n := by
  unfold degK refDeg
  simpa only [mul_one, Fin.coe_castLE] using scatter_filter ei n fun _ => 1

/-- The linear stage reads its three inputs at row n only, so over a table whose first 100000 rows are h it is the reference's. -/
theorem lin_eq_ref {D : ℕ} (tab : Fin 100352 → Fin 64 → EReal) (h : Fin 100000 → Fin 64 → EReal)
    (htab : ∀ (r : Fin 100000) d, tab (Fin.castLE (by decide) r) d = h r d)
    (wl : Fin 64 → Fin D → EReal) (bl : Fin D → EReal) (wr : Fin 64 → Fin D → EReal) (j : Fin D) :
    linK tab (scatterK (dstP ei) (gatherK (srcP ei) tab)) (degK (dstP ei)) wl bl wr (Fin.castLE (by decide) n) j
      = linK h (refAgg ei h) (refDeg ei) wl bl wr n j := by
  unfold linK
  simp only [htab n, agg_eq_ref ei hsrc n tab h htab, deg_eq_ref ei n]

theorem layer1_eq_ref (x : Fin 100000 → Fin 64 → EReal)
    (wl : Fin 64 → Fin 64 → EReal) (bl : Fin 64 → EReal) (wr : Fin 64 → Fin 64 → EReal) (j : Fin 64) :
    layer1 (srcP ei) (dstP ei) (padRows x) wl bl wr (Fin.castLE (by decide) n) j = refLayer1 ei x wl bl wr n j :=
  congrArg reluK (lin_eq_ref ei hsrc n (padRows x) x (fun r _ => dif_pos r.isLt) wl bl wr j)

theorem layer2_eq_ref (tab : Fin 100352 → Fin 64 → EReal) (h : Fin 100000 → Fin 64 → EReal)
    (htab : ∀ (r : Fin 100000) d, tab (Fin.castLE (by decide) r) d = h r d)
    (wl : Fin 64 → Fin 40 → EReal) (bl : Fin 40 → EReal) (wr : Fin 64 → Fin 40 → EReal) (j : Fin 40) :
    layer2 (srcP ei) (dstP ei) tab wl bl wr (Fin.castLE (by decide) n) j = refLayer2 ei h wl bl wr n j :=
  congrArg (logSoftmaxK · j) (funext fun j' => lin_eq_ref ei hsrc n tab h htab wl bl wr j')

end Cert.Spec

end
-- ==== Proof.RefRead.lean ====
import proofs.«428353_j4698694222361_2_alg».proof.Proof.RefRunP
import proofs.«428353_j4698694222361_2_alg».proof.Proof.RefReadP
-- ==== Proof.Val.RefAt.lean ====
import proofs.«428353_j4698694222361_2_alg».proof.Proof.RefRead
import proofs.«428353_j4698694222361_2_alg».proof.Proof.Spec
import Idealize.ShloMosaic.Lib.ValueIdxRank1
import Idealize.ShloMosaic.Lib.ValueLayout
import Idealize.ShloMosaic.PureOps.Ideal.Laws
import Idealize.ShloMosaic.PureOps.Reduce

noncomputable section

namespace Cert.RefValue

open Idealize.ShloMosaic Idealize.ShloMosaic.ValueIdx Cert.ReferenceIdeal Cert.ReferenceIdeal.ReadP Cert.Spec

variable (idx : IVec S1600000x1 32) (e : Fin 1600000)

theorem gather_rows_apply {α : Type} (x : S100000x64.Idx → α) (d : Fin 64) :
    Host.gather gather_S100000x64_S1600000x1_S1600000x64_1_0_n_n_0_1_164 x idx (ix2 e d)
      = x (ix2 (⟨min (idx (ix2 e (0 : Fin 1))).toInt.toNat 99999, by omega⟩ : Fin 100000) d) := by
  refine congrArg x ((eq_ix2 _).trans (congrArg₂ ix2 (Fin.ext ?_) (Fin.ext (Nat.zero_add d.val))))
  show GatherDims.start _ (ix2 e d) idx 0 + 0 + 0 = _
  unfold GatherDims.start
  rw [dif_pos (by decide)]
  exact congrArg (fun i => min (idx i).toInt.toNat 99999) ((eq_ix2 _).trans rfl)

theorem resultIdx?_eq_some_iff {s si u : Shape} (D : ScatterDims s si u) {w : Nat} (j : u.Idx) (idx : IVec si w) (i : s.Idx) :
    D.resultIdx? j idx = some i ↔ ∀ a, D.start j idx a + (D.window j a : ℤ) = ((i a).val : ℤ) := by
  unfold ScatterDims.resultIdx?
  split
  · next h =>
    rw [Option.some.injEq, funext_iff]
    refine forall_congr' fun a => ?_
    have := h a
    rw [Fin.ext_iff]
    show (D.start j idx a + (D.window j a : ℤ)).toNat = (i a).val ↔ _
    omega
  · next h =>
    refine iff_of_false (fun he => nomatch he) fun hh => h fun a => ?_
    have := (i a).isLt
    rw [hh a]
    omega

/-- On an axis the scatter's index map names, an update's start is the index word it reads there, read signed. -/
theorem start_of {s si u : Shape} (D : ScatterDims s si u) {w : Nat} (j : u.Idx) (idx : IVec si w) (a : Fin s.rank)
    (ha : a ∈ D.scatterDimsToOperandDims) (i : si.Idx) (hi : D.siIdx j ⟨_, List.idxOf_lt_length_iff.2 ha⟩ = i) :
    D.start j idx a = (idx i).toInt := by
  unfold ScatterDims.start
  rw [dif_pos ha, hi]

/-- At (n, k): the operand there plus the updates' rows e, at column k, of the edges whose index word read signed is n. -/
theorem scatterAdd_rows_apply (x : FVec Ideal S100000x64 .f32) (upd : FVec Ideal S1600000x64 .f32) (n : Fin 100000) (k : Fin 64) :
    Host.scatterAdd (F := Ideal) scatter_S100000x64_S1600000x1_S1600000x64_1_0_0_1 x idx upd (ix2 n k)
      = x (ix2 n k) + ∑ e ∈ Finset.univ.filter (fun e : Fin 1600000 => (idx (ix2 e (0 : Fin 1))).toInt = (n.val : ℤ)), upd (ix2 e k) := by
  have lands : ∀ (e : Fin 1600000) (c : Fin 64), scatter_S100000x64_S1600000x1_S1600000x64_1_0_0_1.resultIdx? (ix2 e c) idx = some (ix2 n k)
      ↔ c = k ∧ (idx (ix2 e (0 : Fin 1))).toInt = (n.val : ℤ) := fun e c => by
    rw [resultIdx?_eq_some_iff, Fin.forall_fin_two, start_of _ _ idx 0 (by decide) (ix2 e 0) ((eq_ix2 _).trans rfl), Fin.ext_iff]
    show (idx (ix2 e 0)).toInt + ((0 : ℕ) : ℤ) = (n.val : ℤ) ∧ (0 : ℤ) + ((c.val : ℕ) : ℤ) = (k.val : ℤ) ↔ _
    omega
  refine congrArg (x (ix2 n k) + ·) ?_
  rw [Finset.sum_filter, sum_idx2, Finset.sum_filter]
  refine Finset.sum_congr rfl fun e _ => ?_
  simp only [lands, ite_and, Finset.sum_ite_eq', Finset.mem_univ, if_true]

/-- At n: the operand there plus the updates e of the edges whose index word read signed is n. -/
theorem scatterAdd_scal_apply (x : FVec Ideal S100000 .f32) (upd : FVec Ideal S1600000 .f32) (n : Fin 100000) :
    Host.scatterAdd (F := Ideal) scatter_S100000_S1600000x1_S1600000_n_0_0_1 x idx upd (ix1 n)
      = x (ix1 n) + ∑ e ∈ Finset.univ.filter (fun e : Fin 1600000 => (idx (ix2 e (0 : Fin 1))).toInt = (n.val : ℤ)), upd (ix1 e) := by
  have lands : ∀ e : Fin 1600000, scatter_S100000_S1600000x1_S1600000_n_0_0_1.resultIdx? (ix1 e) idx = some (ix1 n)
      ↔ (idx (ix2 e (0 : Fin 1))).toInt = (n.val : ℤ) := fun e => by
    rw [resultIdx?_eq_some_iff, Fin.forall_fin_one, start_of _ _ idx 0 (by decide) (ix2 e 0) ((eq_ix2 _).trans rfl)]
    show (idx (ix2 e 0)).toInt + ((0 : ℕ) : ℤ) = (n.val : ℤ) ↔ _
    omega
  refine congrArg (x (ix1 n) + ·) ?_
  rw [Finset.sum_filter, ← Equiv.sum_comp idxEquiv1.symm, Finset.sum_filter]
  exact Finset.sum_congr rfl fun e _ => if_congr (lands e) rfl rfl

theorem ofBits_neg_inf_f32 : Ideal.ofBits .f32 0xFF800000#32 = ⊥ := by simp [Ideal.ofBits, Ideal.ieee]

theorem reduce_max_rows (x : FVec Ideal S100000x40 .f32) (h' : S100000x40.ReducesTo [1] S100000) (hu : 0 < S_.numel)
    (n : Fin 100000) :
    Host.reduce FloatOps.maximumf x (constant (F := Ideal) S_ .f32 0xFF800000#32) h' hu (ix1 n)
      = Finset.univ.sup (fun j : Fin 40 => x (ix2 n j)) := by
  have h : S100000x40.Reduces [1] S100000 := by decide
  rw [Host.reduce_eq_fold_single FloatOps.maximumf x _ h' h hu]
  have hf : (x ∘ h.lift (ix1 n)) = fun k : Fin 40 => x (ix2 n k) := funext fun k => congrArg x ((eq_ix2 _).trans rfl)
  show Finset.fold max (Ideal.ofBits .f32 0xFF800000#32) (x ∘ h.lift (ix1 n)) (Finset.univ : Finset (Fin 40)) = _
  rw [hf, ofBits_neg_inf_f32]
  rfl

theorem wrap_select (w : BitVec 32) :
    Scalar.select (IntOp.cmpi .slt w 0#32) (IntOp.addi w 100000#32) w = if w.toInt < 0 then w + 100000#32 else w := by
  unfold Scalar.select IntOp.cmpi IntOp.addi
  by_cases h : w.toInt < 0
  · have hs : w.slt 0#32 = true := by simp [BitVec.slt, h]
    simp [hs, h]
  · have hs : w.slt 0#32 = false := by simp [BitVec.slt, h]
    simp [hs, h]

variable (x : FVec Ideal S100000x64 .f32) (ei : IVec S2x1600000 32) (w1l w1r : FVec Ideal S64x64 .f32) (b1 : FVec Ideal S64 .f32)
  (w2l w2r : FVec Ideal S40x64 .f32) (b2 : FVec Ideal S40 .f32)

/-- The row the gather reads for edge e is the one the specification names: the source word, raised when negative, clamped. -/
theorem src_row : min (val_main_v9 (F := Ideal) ei (ix2 e (0 : Fin 1))).toInt.toNat 99999 = (refRow (ei (ix2 (0 : Fin 2) e))).val := by
  have hi : idx_main_v0 (idx_main_v1 (idx_main_v9 (ix2 e (0 : Fin 1)))) = ix2 (0 : Fin 2) e :=
    (eq_ix2 _).trans (congrArg (ix2 (0 : Fin 2)) (Fin.ext (Nat.mod_eq_of_lt e.isLt)))
  rw [val_main_v9_apply, val_main_v8_apply, val_main_v5_apply, val_main_v7_apply, val_main_v1_apply, val_main_v0_apply,
    val_main_v4_apply, val_main_c_apply, val_main_v6_apply, val_main_c_0_apply, hi, wrap_select]
  rfl

theorem dst_word : val_main_v12 (F := Ideal) ei (ix2 e (0 : Fin 1)) = ei (ix2 (1 : Fin 2) e) := by
  rw [val_main_v12_apply, val_main_v3_apply, val_main_v2_apply]
  exact congrArg ei ((eq_ix2 _).trans (congrArg (ix2 (1 : Fin 2)) (Fin.ext (Nat.mod_eq_of_lt e.isLt))))

theorem zeros_v11 (i : S100000x64.Idx) : val_main_v11 (F := Ideal) i = 0 := Ideal.ofBits_zero_f32
theorem zeros_v15 (i : S100000.Idx) : val_main_v15 (F := Ideal) i = 0 := Ideal.ofBits_zero_f32
theorem ones_v14 (i : S1600000.Idx) : val_main_v14 (F := Ideal) i = 1 := IdealRules.sign_bit.ideal_onePat .f32
theorem ones_v18 (i : S100000.Idx) : val_main_v18 (F := Ideal) i = 1 := IdealRules.sign_bit.ideal_onePat .f32
theorem zeros_relu (i : S100000x64.Idx) : val_main_call0_v0 (F := Ideal) i = 0 := Ideal.ofBits_zero_f32
theorem neg_inf_rows (i : S100000.Idx) : val_main_call1_v1 (F := Ideal) i = ⊥ := ofBits_neg_inf_f32

/-- Gathered at the wrapped sources and added into zeros at the destinations, a table gives the specification's aggregate. -/
theorem agg_at (tab : FVec Ideal S100000x64 .f32) (n : Fin 100000) (k : Fin 64) :
    Host.scatterAdd (F := Ideal) scatter_S100000x64_S1600000x1_S1600000x64_1_0_0_1 (val_main_v11 (F := Ideal)) (val_main_v12 (F := Ideal) ei)
      (Host.gather gather_S100000x64_S1600000x1_S1600000x64_1_0_n_n_0_1_164 tab (val_main_v9 (F := Ideal) ei)) (ix2 n k)
      = refAgg ei (fun r d => tab (ix2 r d)) n k := by
  rw [scatterAdd_rows_apply, zeros_v11, zero_add]
  refine Finset.sum_congr (Finset.filter_congr fun e _ => by rw [dst_word]) fun e _ => ?_
  rw [gather_rows_apply]
  exact congrArg (fun r => tab (ix2 r k)) (Fin.ext (src_row e ei))

theorem deg_at (n : Fin 100000) : val_main_v17 (F := Ideal) ei (ix1 n) = refDeg ei n := by
  unfold val_main_v17
  rw [scatterAdd_scal_apply, zeros_v15, zero_add]
  exact Finset.sum_congr (Finset.filter_congr fun e _ => by
    rw [show val_main_v16 (F := Ideal) ei = val_main_v12 (F := Ideal) ei from rfl, dst_word]) fun e _ => ones_v14 _

theorem den_at (n : Fin 100000) (k : Fin 64) : val_main_v21 (F := Ideal) ei (ix2 n k) = max (refDeg ei n) 1 := by
  rw [val_main_v21_apply, val_main_v20_apply, show idx_main_v20 (idx_main_v21 (ix2 n k)) = ix1 n from (eq_ix1 _).trans rfl,
    val_main_v19_apply, deg_at, ones_v18]
  rfl

variable (n : Fin 100000)

theorem agg_l1 (k : Fin 64) : val_main_v13 (F := Ideal) x ei (ix2 n k) = refAgg ei (fun r d => x (ix2 r d)) n k :=
  agg_at ei x n k

/-- The mean of the first layer's gathered rows. -/
theorem mean_l1 (k : Fin 64) :
    val_main_v22 (F := Ideal) x ei (ix2 n k) = Ideal.div (refAgg ei (fun r d => x (ix2 r d)) n k) (max (refDeg ei n) 1) := by
  rw [val_main_v22_apply, agg_l1, den_at]
  rfl

theorem dotl_l1 (j : Fin 64) :
    val_main_v24 (F := Ideal) x ei w1l (ix2 n j)
      = ∑ k : Fin 64, Ideal.div (refAgg ei (fun r d => x (ix2 r d)) n k) (max (refDeg ei n) 1) * w1l (ix2 j k) := by
  rw [val_main_v24_apply]
  refine Finset.sum_congr rfl fun k _ => ?_
  rw [show lidx_main_v24 (ix2 n j) k = ix2 n k from (eq_ix2 _).trans rfl,
    show ridx_main_v24 (ix2 n j) k = ix2 k j from (eq_ix2 _).trans rfl, mean_l1]
  show _ * transpose _ [1, 0] w1l _ (ix2 k j) = _
  rw [transpose_ix2_apply]

theorem bias_l1 (j : Fin 64) : val_main_v26 (F := Ideal) b1 (ix2 n j) = b1 (ix1 j) := by
  rw [val_main_v26_apply, val_main_v25_apply]
  exact congrArg b1 ((eq_ix1 _).trans rfl)

theorem dotr_l1 (j : Fin 64) : val_main_v29 (F := Ideal) x w1r (ix2 n j) = ∑ k : Fin 64, x (ix2 n k) * w1r (ix2 j k) := by
  rw [val_main_v29_apply]
  refine Finset.sum_congr rfl fun k _ => ?_
  rw [show lidx_main_v29 (ix2 n j) k = ix2 n k from (eq_ix2 _).trans rfl,
    show ridx_main_v29 (ix2 n j) k = ix2 k j from (eq_ix2 _).trans rfl]
  show _ * transpose _ [1, 0] w1r _ (ix2 k j) = _
  rw [transpose_ix2_apply]

abbrev hidden : Fin 100000 → Fin 64 → EReal :=
  refLayer1 ei (fun r d => x (ix2 r d)) (fun k j => w1l (ix2 j k)) (fun j => b1 (ix1 j)) (fun k j => w1r (ix2 j k))

theorem layer1_at (j : Fin 64) : val_main_v31 (F := Ideal) x ei w1l b1 w1r (ix2 n j) = hidden x ei w1l w1r b1 n j := by
  rw [val_main_v31_apply, val_main_v30_apply, val_main_v27_apply, dotl_l1, bias_l1, dotr_l1, zeros_relu]
  rfl

/-- The second layer's mean: the same gather, scatter and division, of the first layer's output. -/
theorem mean_l2 (k : Fin 64) :
    val_main_v50 (F := Ideal) x ei w1l b1 w1r (ix2 n k)
      = Ideal.div (refAgg ei (hidden x ei w1l w1r b1) n k) (max (refDeg ei n) 1) := by
  have h : val_main_v41 (F := Ideal) x ei w1l b1 w1r (ix2 n k) = _ := agg_at ei (val_main_v31 (F := Ideal) x ei w1l b1 w1r) n k
  rw [val_main_v50_apply, h, show val_main_v49 (F := Ideal) ei = val_main_v21 (F := Ideal) ei from rfl, den_at,
    funext fun r => funext fun d => layer1_at x ei w1l w1r b1 r d]
  rfl

theorem dotl_l2 (j : Fin 40) :
    val_main_v52 (F := Ideal) x ei w1l b1 w1r w2l (ix2 n j)
      = ∑ k : Fin 64, Ideal.div (refAgg ei (hidden x ei w1l w1r b1) n k) (max (refDeg ei n) 1) * w2l (ix2 j k) := by
  rw [val_main_v52_apply]
  refine Finset.sum_congr rfl fun k _ => ?_
  rw [show lidx_main_v52 (ix2 n j) k = ix2 n k from (eq_ix2 _).trans rfl,
    show ridx_main_v52 (ix2 n j) k = ix2 k j from (eq_ix2 _).trans rfl, mean_l2]
  show _ * transpose _ [1, 0] w2l _ (ix2 k j) = _
  rw [transpose_ix2_apply]

theorem bias_l2 (j : Fin 40) : val_main_v54 (F := Ideal) b2 (ix2 n j) = b2 (ix1 j) := by
  rw [val_main_v54_apply, val_main_v53_apply]
  exact congrArg b2 ((eq_ix1 _).trans rfl)

theorem dotr_l2 (j : Fin 40) :
    val_main_v57 (F := Ideal) x ei w1l b1 w1r w2r (ix2 n j) = ∑ k : Fin 64, hidden x ei w1l w1r b1 n k * w2r (ix2 j k) := by
  rw [val_main_v57_apply]
  refine Finset.sum_congr rfl fun k _ => ?_
  rw [show lidx_main_v57 (ix2 n j) k = ix2 n k from (eq_ix2 _).trans rfl,
    show ridx_main_v57 (ix2 n j) k = ix2 k j from (eq_ix2 _).trans rfl, layer1_at]
  show _ * transpose _ [1, 0] w2r _ (ix2 k j) = _
  rw [transpose_ix2_apply]

theorem lin_l2 (j : Fin 40) :
    val_main_v58 (F := Ideal) x ei w1l b1 w1r w2l b2 w2r (ix2 n j)
      = linK (hidden x ei w1l w1r b1) (refAgg ei (hidden x ei w1l w1r b1)) (refDeg ei) (fun k j => w2l (ix2 j k)) (fun j => b2 (ix1 j)) (fun k j => w2r (ix2 j k)) n j := by
  rw [val_main_v58_apply, val_main_v55_apply, dotl_l2, bias_l2, dotr_l2]
  rfl

section LogSoftmax
variable {x ei w1l w1r b1 w2l w2r b2 n} {z : Fin 40 → EReal}
  (hz : ∀ j : Fin 40, val_main_v58 (F := Ideal) x ei w1l b1 w1r w2l b2 w2r (ix2 n j) = z j)
include hz

theorem rowmax_at : val_main_call1_v2 (F := Ideal) x ei w1l b1 w1r w2l b2 w2r (ix1 n) = rowMax z := by
  rw [val_main_call1_v2_apply, neg_inf_rows]
  unfold val_main_call1_v0 val_main_call1_cst
  rw [reduce_max_rows, funext hz]
  exact max_eq_right bot_le

theorem shifted_at (j : Fin 40) : val_main_call1_v5 (F := Ideal) x ei w1l b1 w1r w2l b2 w2r (ix2 n j) = z j - rowMax z := by
  rw [val_main_call1_v5_apply, val_main_call1_v4_apply, val_main_call1_v3_apply, hz,
    show idx_main_call1_v3 (idx_main_call1_v4 (ix2 n j)) = ix1 n from (eq_ix1 _).trans rfl, rowmax_at hz]
  rfl

theorem logsoftmax_at (j : Fin 40) : val_main_v59 (F := Ideal) x ei w1l b1 w1r w2l b2 w2r (ix2 n j) = logSoftmaxK z j := by
  have hs : ∀ k : Fin 40, val_main_call1_v6 (F := Ideal) x ei w1l b1 w1r w2l b2 w2r (idx_main_call1_v7 (ix1 n) k) = Ideal.exp (z k - rowMax z) := fun k => by
    rw [show idx_main_call1_v7 (ix1 n) k = ix2 n k from (eq_ix2 _).trans rfl, val_main_call1_v6_apply, shifted_at hz]
    rfl
  rw [val_main_v59_apply, shifted_at hz, val_main_call1_v10_apply, val_main_call1_v9_apply, val_main_call1_v8_apply,
    show idx_main_call1_v8 (idx_main_call1_v10 (ix2 n j)) = ix1 n from (eq_ix1 _).trans rfl, val_main_call1_v7_apply,
    val_main_call1_cst_1_apply]
  simp only [hs]
  show _ - Ideal.log (Ideal.ofBits .f32 0x00000000#32 + _) = _
  rw [Ideal.ofBits_zero_f32, zero_add]
  rfl

end LogSoftmax

theorem result_at (j : Fin 40) :
    val_main_v59 (F := Ideal) x ei w1l b1 w1r w2l b2 w2r (ix2 n j)
      = refLayer2 ei (hidden x ei w1l w1r b1) (fun k j => w2l (ix2 j k)) (fun j => b2 (ix1 j)) (fun k j => w2r (ix2 j k)) n j :=
  logsoftmax_at (lin_l2 x ei w1l w1r b1 w2l w2r b2 n) j

end Cert.RefValue

end
-- ==== Proof.Val.PreFacts.lean ====
import Idealize.ShloMosaic.Lib.ReduceAll
import Idealize.ShloMosaic.Lib.StableHlo.Predicate
import Idealize.ShloMosaic.Lib.ValueLayout
import Idealize.ShloMosaic.Lib.Pipeline.Value
import proofs.«428353_j4698694222361_2_alg».proof.Defs
import proofs.«428353_j4698694222361_2_alg».proof.Proof.Gen.Pre_finite_inputs
import proofs.«428353_j4698694222361_2_alg».proof.Proof.Spec

noncomputable section

namespace Cert.PreFacts

open Idealize.ShloMosaic Idealize.ShloMosaic.ValueIdx Idealize.SL.Sem
open Cert.Pre_finite_inputs

instance : Subsingleton S_.Idx := ⟨fun a b => funext fun d => d.elim0⟩

theorem toInt_zero : (0#32 : BitVec 32).toInt = 0 := by decide
theorem toInt_rows : (100000#32 : BitVec 32).toInt = 100000 := by decide

/-- An all-reduction by `and` that is one met a one at every edge, where the signed comparison of entry (0, e) says the inequality. -/
theorem part2_src [Facts] {F : FTy → Type} [FloatOps F] (ei : IVec S2x1600000 32) (v : IVec S_ 1)
    (h : fn_part2 (F := F) ei v = fun _ => 1#1) : Cert.Spec.SrcInRange ei := fun e => by
  have h0 := congrFun h ix0
  dsimp only [fn_part2, andi] at h0
  rw [IntOp.andi_eq_one, IntOp.andi_eq_one] at h0
  obtain ⟨⟨-, hge⟩, hlt⟩ := h0
  have g := Host.reduce_andi_all _ _ _ _ ix0 hge (ix1 e)
  have l := Host.reduce_andi_all _ _ _ _ ix0 hlt (ix1 e)
  dsimp only [cmpi, broadcastInDim, constantI] at g l
  rw [IntOp.cmpi_sge, shapeCast_1a_a_apply, slice2_axis0_eq, toInt_zero] at g
  rw [IntOp.cmpi_slt, shapeCast_1a_a_apply, slice2_axis0_eq, toInt_rows] at l
  exact ⟨g, l⟩

theorem src_in_range [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.Spec.SrcInRange (m ((c.tc : Thread Cert.KernelIdeal.nD Cert.KernelIdeal.τ).loc Cert.KernelIdeal.main_arg1)) := by
  have hc := h c
  dsimp only [fn, fn_part1] at hc
  exact part2_src _ _ hc

end Cert.PreFacts

end
-- ==== Proof.lean ====
import proofs.«428353_j4698694222361_2_alg».proof.Defs
import proofs.«428353_j4698694222361_2_alg».proof.Proof.Gen.Kernel
import proofs.«428353_j4698694222361_2_alg».proof.Proof.Gen.KernelIdeal
import proofs.«428353_j4698694222361_2_alg».proof.Proof.Gen.ReferenceIdeal
import proofs.«428353_j4698694222361_2_alg».proof.Proof.Gen.Pre_finite_inputs
import proofs.«428353_j4698694222361_2_alg».proof.Proof.K.Run
import proofs.«428353_j4698694222361_2_alg».proof.Proof.KI.Run
import proofs.«428353_j4698694222361_2_alg».proof.Proof.Val.Chain
import proofs.«428353_j4698694222361_2_alg».proof.Proof.Val.Bridge
import proofs.«428353_j4698694222361_2_alg».proof.Proof.Val.RefAt
import proofs.«428353_j4698694222361_2_alg».proof.Proof.Val.PreFacts
import proofs.«428353_j4698694222361_2_alg».proof.Proof.RefRead
import Idealize.ShloMosaic.Adequacy
import Idealize.ShloMosaic.Init

noncomputable section

namespace Cert.Proof

open Idealize.ShloMosaic Idealize.ShloMosaic.TcCoe Idealize.SL.Sem Idealize.ShloMosaic.ValueIdx

open Cert.Kernel Cert.Kernel.Hand in
/-- The word-level program's run names every buffer's final contents, and the arguments' are the launch contents. -/
theorem frame_k : Cert.frame_Kernel (hKernel := Cert.Kernel.Gen.facts) (hPre_finite_inputs := Cert.Pre_finite_inputs.Gen.facts) :=
  fun m ρ _ => (θ_run Cert.Kernel.defs _ _).mono (fun r h c =>
    ⟨(h c _ (mem_uc main_arg0 (by decide))).trans (W17_arg0 m c),
     (h c _ (mem_uc main_arg1 (by decide))).trans (W17_arg1 m c),
     (h c _ (mem_uc main_arg2 (by decide))).trans (W17_arg2 m c),
     (h c _ (mem_uc main_arg3 (by decide))).trans (W17_arg3 m c),
     (h c _ (mem_uc main_arg4 (by decide))).trans (W17_arg4 m c),
     (h c _ (mem_uc main_arg5 (by decide))).trans (W17_arg5 m c),
     (h c _ (mem_uc main_arg6 (by decide))).trans (W17_arg6 m c),
     (h c _ (mem_uc main_arg7 (by decide))).trans (W17_arg7 m c)⟩)
    (run_all (F := Bits) m ρ)

open Cert.KernelIdeal Cert.KernelIdeal.Hand in
theorem frame_ki : Cert.frame_KernelIdeal (hKernelIdeal := Cert.KernelIdeal.Gen.facts) (hPre_finite_inputs := Cert.Pre_finite_inputs.Gen.facts) :=
  fun m ρ _ => (θ_run Cert.KernelIdeal.defs _ _).mono (fun r h c =>
    ⟨(h c _ (mem_uc main_arg0 (by decide))).trans (W17_arg0 m c),
     (h c _ (mem_uc main_arg1 (by decide))).trans (W17_arg1 m c),
     (h c _ (mem_uc main_arg2 (by decide))).trans (W17_arg2 m c),
     (h c _ (mem_uc main_arg3 (by decide))).trans (W17_arg3 m c),
     (h c _ (mem_uc main_arg4 (by decide))).trans (W17_arg4 m c),
     (h c _ (mem_uc main_arg5 (by decide))).trans (W17_arg5 m c),
     (h c _ (mem_uc main_arg6 (by decide))).trans (W17_arg6 m c),
     (h c _ (mem_uc main_arg7 (by decide))).trans (W17_arg7 m c)⟩)
    (run_all (F := Ideal) m ρ)

/-- The reference has no launch: its run ends with the result at its operations' composed term and the arguments unchanged. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

open Cert.KernelIdeal Cert.KernelIdeal.Hand in
/-- Both results are the specification's second layer of its first: every source index naming a row, its two forms agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => W17 (F := Ideal) m c (Proc.devRef .tc main_v23),
    (θ_run Cert.KernelIdeal.defs _ _).mono (fun r h c =>
      ⟨h c _ (mem_uc main_v23 (by decide)),
       (h c _ (mem_uc main_arg0 (by decide))).trans (W17_arg0 m c),
       (h c _ (mem_uc main_arg1 (by decide))).trans (W17_arg1 m c),
       (h c _ (mem_uc main_arg2 (by decide))).trans (W17_arg2 m c),
       (h c _ (mem_uc main_arg3 (by decide))).trans (W17_arg3 m c),
       (h c _ (mem_uc main_arg4 (by decide))).trans (W17_arg4 m c),
       (h c _ (mem_uc main_arg5 (by decide))).trans (W17_arg5 m c),
       (h c _ (mem_uc main_arg6 (by decide))).trans (W17_arg6 m c),
       (h c _ (mem_uc main_arg7 (by decide))).trans (W17_arg7 m c)⟩)
      (run_all (F := Ideal) m ρ),
    (θ_run Cert.ReferenceIdeal.defs _ _).mono (fun r h c => ⟨(h c).1.trans ?_, (h c).2⟩)
      (Cert.ReferenceIdeal.ValueP.run (F := Ideal) m' ρ')⟩
  have hsrc := Cert.PreFacts.src_in_range (hPre_finite_inputs := Cert.Pre_finite_inputs.Gen.facts) m hpre c
  show Cert.ReferenceIdeal.ValueP.res_main_v59 (F := Ideal) m' c = W17 (F := Ideal) m c (Proc.devRef .tc main_v23)
  obtain ⟨h0, h1, h2, h3, h4, h5, h6, h7⟩ := hagree c
  funext i
  obtain ⟨n, j, rfl⟩ : ∃ (n : Fin 100000) (j : Fin 40), i = ix2 n j := ⟨i 0, i 1, eq_ix2 i⟩
  rw [Cert.ReferenceIdeal.ReadP.val_main_v59_eq, h0, h1, h2, h3, h4, h5, h6, h7, Cert.RefValue.result_at, Val.result_eq m c n j]
  exact (Cert.Spec.layer2_eq_ref _ hsrc n _ _ (fun r d => Cert.Spec.layer1_eq_ref _ hsrc r _ _ _ _ d) _ _ _ j).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
